-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S475136x1 : Shape := ⟨2, ![475136, 1]⟩
abbrev S2x13303808 : Shape := ⟨2, ![2, 13303808]⟩
abbrev S13303808x1 : Shape := ⟨2, ![13303808, 1]⟩
abbrev S4096x1 : Shape := ⟨2, ![4096, 1]⟩
abbrev S475136 : Shape := ⟨1, ![475136]⟩
abbrev S1x3 : Shape := ⟨2, ![1, 3]⟩
abbrev S3 : Shape := ⟨1, ![3]⟩
abbrev S3x3 : Shape := ⟨2, ![3, 3]⟩
abbrev S3x5 : Shape := ⟨2, ![3, 5]⟩
abbrev S5 : Shape := ⟨1, ![5]⟩
abbrev S3x2 : Shape := ⟨2, ![3, 2]⟩
abbrev S2 : Shape := ⟨1, ![2]⟩
abbrev S8x3 : Shape := ⟨2, ![8, 3]⟩
abbrev S9x4 : Shape := ⟨2, ![9, 4]⟩
abbrev S4 : Shape := ⟨1, ![4]⟩
abbrev S2x1 : Shape := ⟨2, ![2, 1]⟩
abbrev S1 : Shape := ⟨1, ![1]⟩
abbrev S3x1 : Shape := ⟨2, ![3, 1]⟩
abbrev S4x1 : Shape := ⟨2, ![4, 1]⟩
abbrev S23x2 : Shape := ⟨2, ![23, 2]⟩
abbrev S_ : Shape := ⟨0, ![]⟩

class Facts : Prop where
  bcast_S_S475136x1 : S_.BroadcastsInDim S475136x1 (![] : Fin 0 → Fin S475136x1.rank)
  reducesTo_S475136x1_S_d0_1 : S475136x1.ReducesTo [0, 1] S_
  h_S_ : 0 < S_.numel
  bcast_S_S13303808x1 : S_.BroadcastsInDim S13303808x1 (![] : Fin 0 → Fin S13303808x1.rank)
  reducesTo_S13303808x1_S_d0_1 : S13303808x1.ReducesTo [0, 1] S_
  bcast_S_S4096x1 : S_.BroadcastsInDim S4096x1 (![] : Fin 0 → Fin S4096x1.rank)
  reducesTo_S4096x1_S_d0_1 : S4096x1.ReducesTo [0, 1] S_
  bcast_S_S1x3 : S_.BroadcastsInDim S1x3 (![] : Fin 0 → Fin S1x3.rank)
  reducesTo_S1x3_S_d0_1 : S1x3.ReducesTo [0, 1] S_
  bcast_S_S3 : S_.BroadcastsInDim S3 (![] : Fin 0 → Fin S3.rank)
  reducesTo_S3_S_d0 : S3.ReducesTo [0] S_
  bcast_S_S3x3 : S_.BroadcastsInDim S3x3 (![] : Fin 0 → Fin S3x3.rank)
  reducesTo_S3x3_S_d0_1 : S3x3.ReducesTo [0, 1] S_
  bcast_S_S3x5 : S_.BroadcastsInDim S3x5 (![] : Fin 0 → Fin S3x5.rank)
  reducesTo_S3x5_S_d0_1 : S3x5.ReducesTo [0, 1] S_
  bcast_S_S5 : S_.BroadcastsInDim S5 (![] : Fin 0 → Fin S5.rank)
  reducesTo_S5_S_d0 : S5.ReducesTo [0] S_
  bcast_S_S3x2 : S_.BroadcastsInDim S3x2 (![] : Fin 0 → Fin S3x2.rank)
  reducesTo_S3x2_S_d0_1 : S3x2.ReducesTo [0, 1] S_
  bcast_S_S2 : S_.BroadcastsInDim S2 (![] : Fin 0 → Fin S2.rank)
  reducesTo_S2_S_d0 : S2.ReducesTo [0] S_
  bcast_S_S8x3 : S_.BroadcastsInDim S8x3 (![] : Fin 0 → Fin S8x3.rank)
  reducesTo_S8x3_S_d0_1 : S8x3.ReducesTo [0, 1] S_
  bcast_S_S9x4 : S_.BroadcastsInDim S9x4 (![] : Fin 0 → Fin S9x4.rank)
  reducesTo_S9x4_S_d0_1 : S9x4.ReducesTo [0, 1] S_
  bcast_S_S4 : S_.BroadcastsInDim S4 (![] : Fin 0 → Fin S4.rank)
  reducesTo_S4_S_d0 : S4.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_
  bcast_S_S3x1 : S_.BroadcastsInDim S3x1 (![] : Fin 0 → Fin S3x1.rank)
  reducesTo_S3x1_S_d0_1 : S3x1.ReducesTo [0, 1] S_
  bcast_S_S4x1 : S_.BroadcastsInDim S4x1 (![] : Fin 0 → Fin S4x1.rank)
  reducesTo_S4x1_S_d0_1 : S4x1.ReducesTo [0, 1] S_
  bcast_S_S23x2 : S_.BroadcastsInDim S23x2 (![] : Fin 0 → Fin S23x2.rank)
  reducesTo_S23x2_S_d0_1 : S23x2.ReducesTo [0, 1] S_

variable [Facts]

def fn_part7 {F : FTy → Type} [FloatOps F] (main_arg27 : FVec F S2 .f32) (main_v118 : IVec S_ 1) (main_v119 : FVec F S23x2 .f32) : IVec S_ 1 :=
  let main_cst_46 : FVec F S_ .f32 := constant S_ .f32 0x7F800000#32
  let main_v120 : FVec F S23x2 .f32 := broadcastInDim S23x2 ![] bcast_S_S23x2 main_cst_46
  let main_v121 : IVec S23x2 1 := cmpf .olt main_v119 main_v120
  let main_c_47 : IVec S_ 1 := constantI S_ 1 1#1
  let main_v122 : IVec S_ 1 := (fun x v => Host.reduce IntOp.andi x v reducesTo_S23x2_S_d0_1 h_S_) main_v121 main_c_47
  let main_v123 : IVec S_ 1 := andi main_v118 main_v122
  let main_v124 : FVec F S2 .f32 := Host.absf main_arg27
  let main_cst_48 : FVec F S_ .f32 := constant S_ .f32 0x7F800000#32
  let main_v125 : FVec F S2 .f32 := broadcastInDim S2 ![] bcast_S_S2 main_cst_48
  let main_v126 : IVec S2 1 := cmpf .olt main_v124 main_v125
  let main_c_49 : IVec S_ 1 := constantI S_ 1 1#1
  let main_v127 : IVec S_ 1 := (fun x v => Host.reduce IntOp.andi x v reducesTo_S2_S_d0 h_S_) main_v126 main_c_49
  let main_v128 : IVec S_ 1 := andi main_v123 main_v127
  main_v128

def fn_part6 {F : FTy → Type} [FloatOps F] (main_arg23 : FVec F S1 .f32) (main_arg24 : FVec F S4x1 .f32) (main_arg25 : FVec F S1 .f32) (main_arg26 : FVec F S23x2 .f32) (main_arg27 : FVec F S2 .f32) (main_v98 : IVec S_ 1) (main_v101 : IVec S3x1 1) (main_c_39 : IVec S_ 1) : IVec S_ 1 :=
  let main_v102 : IVec S_ 1 := (fun x v => Host.reduce IntOp.andi x v reducesTo_S3x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S4x1 .f32 := Host.absf main_arg24
  let main_cst_42 : FVec F S_ .f32 := constant S_ .f32 0x7F800000#32
  let main_v110 : FVec F S4x1 .f32 := broadcastInDim S4x1 ![] bcast_S_S4x1 main_cst_42
  let main_v111 : IVec S4x1 1 := cmpf .olt main_v109 main_v110
  let main_c_43 : IVec S_ 1 := constantI S_ 1 1#1
  let main_v112 : IVec S_ 1 := (fun x v => Host.reduce IntOp.andi x v reducesTo_S4x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S23x2 .f32 := Host.absf main_arg26
  fn_part7 (F := F) main_arg27 main_v118 main_v119

def fn_part5 {F : FTy → Type} [FloatOps F] (main_arg20 : FVec F S2x1 .f32) (main_arg21 : FVec F S1 .f32) (main_arg22 : FVec F S3x1 .f32) (main_arg23 : FVec F S1 .f32) (main_arg24 : FVec F S4x1 .f32) (main_arg25 : FVec F S1 .f32) (main_arg26 : FVec F S23x2 .f32) (main_arg27 : FVec F S2 .f32) (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  let main_v89 : FVec F S2x1 .f32 := Host.absf main_arg20
  let main_cst_34 : FVec F S_ .f32 := constant S_ .f32 0x7F800000#32
  let main_v90 : FVec F S2x1 .f32 := broadcastInDim S2x1 ![] bcast_S_S2x1 main_cst_34
  let main_v91 : IVec S2x1 1 := cmpf .olt main_v89 main_v90
  let main_c_35 : IVec S_ 1 := constantI S_ 1 1#1
  let main_v92 : IVec S_ 1 := (fun x v => Host.reduce IntOp.andi x v reducesTo_S2x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S3x1 .f32 := Host.absf main_arg22
  let main_cst_38 : FVec F S_ .f32 := constant S_ .f32 0x7F800000#32
  let main_v100 : FVec F S3x1 .f32 := broadcastInDim S3x1 ![] bcast_S_S3x1 main_cst_38
  let main_v101 : IVec S3x1 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S8x3 .f32) (main_arg17 : FVec F S3 .f32) (main_arg18 : FVec F S9x4 .f32) (main_arg19 : FVec F S4 .f32) (main_arg20 : FVec F S2x1 .f32) (main_arg21 : FVec F S1 .f32) (main_arg22 : FVec F S3x1 .f32) (main_arg23 : FVec F S1 .f32) (main_arg24 : FVec F S4x1 .f32) (main_arg25 : FVec F S1 .f32) (main_arg26 : FVec F S23x2 .f32) (main_arg27 : FVec F S2 .f32) (main_v63 : IVec S_ 1) (main_v67 : IVec S_ 1) : IVec S_ 1 :=
  let main_v68 : IVec S_ 1 := andi main_v63 main_v67
  let main_v69 : FVec F S8x3 .f32 := Host.absf main_arg16
  let main_cst_26 : FVec F S_ .f32 := constant S_ .f32 0x7F800000#32
  let main_v70 : FVec F S8x3 .f32 := broadcastInDim S8x3 ![] bcast_S_S8x3 main_cst_26
  let main_v71 : IVec S8x3 1 := cmpf .olt main_v69 main_v70
  let main_c_27 : IVec S_ 1 := constantI S_ 1 1#1
  let main_v72 : IVec S_ 1 := (fun x v => Host.reduce IntOp.andi x v reducesTo_S8x3_S_d0_1 h_S_) main_v71 main_c_27
  let main_v73 : IVec S_ 1 := andi main_v68 main_v72
  let main_v74 : FVec F S3 .f32 := Host.absf main_arg17
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  let main_v79 : FVec F S9x4 .f32 := Host.absf main_arg18
  let main_cst_30 : FVec F S_ .f32 := constant S_ .f32 0x7F800000#32
  let main_v80 : FVec F S9x4 .f32 := broadcastInDim S9x4 ![] bcast_S_S9x4 main_cst_30
  let main_v81 : IVec S9x4 1 := cmpf .olt main_v79 main_v80
  let main_c_31 : IVec S_ 1 := constantI S_ 1 1#1
  let main_v82 : IVec S_ 1 := (fun x v => Host.reduce IntOp.andi x v reducesTo_S9x4_S_d0_1 h_S_) main_v81 main_c_31
  let main_v83 : IVec S_ 1 := andi main_v78 main_v82
  let main_v84 : FVec F S4 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S3x5 .f32) (main_arg14 : FVec F S3x2 .f32) (main_arg15 : FVec F S2 .f32) (main_arg16 : FVec F S8x3 .f32) (main_arg17 : FVec F S3 .f32) (main_arg18 : FVec F S9x4 .f32) (main_arg19 : FVec F S4 .f32) (main_arg20 : FVec F S2x1 .f32) (main_arg21 : FVec F S1 .f32) (main_arg22 : FVec F S3x1 .f32) (main_arg23 : FVec F S1 .f32) (main_arg24 : FVec F S4x1 .f32) (main_arg25 : FVec F S1 .f32) (main_arg26 : FVec F S23x2 .f32) (main_arg27 : FVec F S2 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S3x5 .f32 := Host.absf main_arg13
  let main_cst_20 : FVec F S_ .f32 := constant S_ .f32 0x7F800000#32
  let main_v55 : FVec F S3x5 .f32 := broadcastInDim S3x5 ![] bcast_S_S3x5 main_cst_20
  let main_v56 : IVec S3x5 1 := cmpf .olt main_v54 main_v55
  let main_c_21 : IVec S_ 1 := constantI S_ 1 1#1
  let main_v57 : IVec S_ 1 := (fun x v => Host.reduce IntOp.andi x v reducesTo_S3x5_S_d0_1 h_S_) main_v56 main_c_21
  let main_v58 : IVec S_ 1 := andi main_v53 main_v57
  let main_v59 : FVec F S3x2 .f32 := Host.absf main_arg14
  let main_cst_22 : FVec F S_ .f32 := constant S_ .f32 0x7F800000#32
  let main_v60 : FVec F S3x2 .f32 := broadcastInDim S3x2 ![] bcast_S_S3x2 main_cst_22
  let main_v61 : IVec S3x2 1 := cmpf .olt main_v59 main_v60
  let main_c_23 : IVec S_ 1 := constantI S_ 1 1#1
  let main_v62 : IVec S_ 1 := (fun x v => Host.reduce IntOp.andi x v reducesTo_S3x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S3 .f32) (main_arg10 : FVec F S3x3 .f32) (main_arg11 : FVec F S3x5 .f32) (main_arg12 : FVec F S5 .f32) (main_arg13 : FVec F S3x5 .f32) (main_arg14 : FVec F S3x2 .f32) (main_arg15 : FVec F S2 .f32) (main_arg16 : FVec F S8x3 .f32) (main_arg17 : FVec F S3 .f32) (main_arg18 : FVec F S9x4 .f32) (main_arg19 : FVec F S4 .f32) (main_arg20 : FVec F S2x1 .f32) (main_arg21 : FVec F S1 .f32) (main_arg22 : FVec F S3x1 .f32) (main_arg23 : FVec F S1 .f32) (main_arg24 : FVec F S4x1 .f32) (main_arg25 : FVec F S1 .f32) (main_arg26 : FVec F S23x2 .f32) (main_arg27 : FVec F S2 .f32) (main_v33 : IVec S_ 1) : IVec S_ 1 :=
  let main_v34 : FVec F S3 .f32 := Host.absf main_arg9
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S3x3 .f32 := Host.absf main_arg10
  let main_cst_14 : FVec F S_ .f32 := constant S_ .f32 0x7F800000#32
  let main_v40 : FVec F S3x3 .f32 := broadcastInDim S3x3 ![] bcast_S_S3x3 main_cst_14
  let main_v41 : IVec S3x3 1 := cmpf .olt main_v39 main_v40
  let main_c_15 : IVec S_ 1 := constantI S_ 1 1#1
  let main_v42 : IVec S_ 1 := (fun x v => Host.reduce IntOp.andi x v reducesTo_S3x3_S_d0_1 h_S_) main_v41 main_c_15
  let main_v43 : IVec S_ 1 := andi main_v38 main_v42
  let main_v44 : FVec F S3x5 .f32 := Host.absf main_arg11
  let main_cst_16 : FVec F S_ .f32 := constant S_ .f32 0x7F800000#32
  let main_v45 : FVec F S3x5 .f32 := broadcastInDim S3x5 ![] bcast_S_S3x5 main_cst_16
  let main_v46 : IVec S3x5 1 := cmpf .olt main_v44 main_v45
  let main_c_17 : IVec S_ 1 := constantI S_ 1 1#1
  let main_v47 : IVec S_ 1 := (fun x v => Host.reduce IntOp.andi x v reducesTo_S3x5_S_d0_1 h_S_) main_v46 main_c_17
  let main_v48 : IVec S_ 1 := andi main_v43 main_v47
  let main_v49 : FVec F S5 .f32 := Host.absf main_arg12
  let main_cst_18 : FVec F S_ .f32 := constant S_ .f32 0x7F800000#32
  let main_v50 : FVec F S5 .f32 := broadcastInDim S5 ![] bcast_S_S5 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S3 .f32) (main_arg7 : FVec F S1x3 .f32) (main_arg8 : FVec F S3x3 .f32) (main_arg9 : FVec F S3 .f32) (main_arg10 : FVec F S3x3 .f32) (main_arg11 : FVec F S3x5 .f32) (main_arg12 : FVec F S5 .f32) (main_arg13 : FVec F S3x5 .f32) (main_arg14 : FVec F S3x2 .f32) (main_arg15 : FVec F S2 .f32) (main_arg16 : FVec F S8x3 .f32) (main_arg17 : FVec F S3 .f32) (main_arg18 : FVec F S9x4 .f32) (main_arg19 : FVec F S4 .f32) (main_arg20 : FVec F S2x1 .f32) (main_arg21 : FVec F S1 .f32) (main_arg22 : FVec F S3x1 .f32) (main_arg23 : FVec F S1 .f32) (main_arg24 : FVec F S4x1 .f32) (main_arg25 : FVec F S1 .f32) (main_arg26 : FVec F S23x2 .f32) (main_arg27 : FVec F S2 .f32) (main_v13 : IVec S_ 1) (main_v16 : IVec S1x3 1) : IVec S_ 1 :=
  let main_c_5 : IVec S_ 1 := constantI S_ 1 1#1
  let main_v17 : IVec S_ 1 := (fun x v => Host.reduce IntOp.andi x v reducesTo_S1x3_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1x3 .f32 := Host.absf main_arg7
  let main_cst_8 : FVec F S_ .f32 := constant S_ .f32 0x7F800000#32
  let main_v25 : FVec F S1x3 .f32 := broadcastInDim S1x3 ![] bcast_S_S1x3 main_cst_8
  let main_v26 : IVec S1x3 1 := cmpf .olt main_v24 main_v25
  let main_c_9 : IVec S_ 1 := constantI S_ 1 1#1
  let main_v27 : IVec S_ 1 := (fun x v => Host.reduce IntOp.andi x v reducesTo_S1x3_S_d0_1 h_S_) main_v26 main_c_9
  let main_v28 : IVec S_ 1 := andi main_v23 main_v27
  let main_v29 : FVec F S3x3 .f32 := Host.absf main_arg8
  let main_cst_10 : FVec F S_ .f32 := constant S_ .f32 0x7F800000#32
  let main_v30 : FVec F S3x3 .f32 := broadcastInDim S3x3 ![] bcast_S_S3x3 main_cst_10
  let main_v31 : IVec S3x3 1 := cmpf .olt main_v29 main_v30
  let main_c_11 : IVec S_ 1 := constantI S_ 1 1#1
  let main_v32 : IVec S_ 1 := (fun x v => Host.reduce IntOp.andi x v reducesTo_S3x3_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S475136x1 .f32) (main_arg1 : IVec S2x13303808 32) (main_arg2 : FVec F S13303808x1 .f32) (main_arg3 : FVec F S4096x1 .f32) (main_arg4 : IVec S475136 32) (main_arg5 : FVec F S1x3 .f32) (main_arg6 : FVec F S3 .f32) (main_arg7 : FVec F S1x3 .f32) (main_arg8 : FVec F S3x3 .f32) (main_arg9 : FVec F S3 .f32) (main_arg10 : FVec F S3x3 .f32) (main_arg11 : FVec F S3x5 .f32) (main_arg12 : FVec F S5 .f32) (main_arg13 : FVec F S3x5 .f32) (main_arg14 : FVec F S3x2 .f32) (main_arg15 : FVec F S2 .f32) (main_arg16 : FVec F S8x3 .f32) (main_arg17 : FVec F S3 .f32) (main_arg18 : FVec F S9x4 .f32) (main_arg19 : FVec F S4 .f32) (main_arg20 : FVec F S2x1 .f32) (main_arg21 : FVec F S1 .f32) (main_arg22 : FVec F S3x1 .f32) (main_arg23 : FVec F S1 .f32) (main_arg24 : FVec F S4x1 .f32) (main_arg25 : FVec F S1 .f32) (main_arg26 : FVec F S23x2 .f32) (main_arg27 : FVec F S2 .f32) : IVec S_ 1 :=
  let main_v0 : FVec F S475136x1 .f32 := Host.absf main_arg0
  let main_cst : FVec F S_ .f32 := constant S_ .f32 0x7F800000#32
  let main_v1 : FVec F S475136x1 .f32 := broadcastInDim S475136x1 ![] bcast_S_S475136x1 main_cst
  let main_v2 : IVec S475136x1 1 := cmpf .olt main_v0 main_v1
  let main_c : IVec S_ 1 := constantI S_ 1 1#1
  let main_v3 : IVec S_ 1 := (fun x v => Host.reduce IntOp.andi x v reducesTo_S475136x1_S_d0_1 h_S_) main_v2 main_c
  let main_v4 : FVec F S13303808x1 .f32 := Host.absf main_arg2
  let main_cst_0 : FVec F S_ .f32 := constant S_ .f32 0x7F800000#32
  let main_v5 : FVec F S13303808x1 .f32 := broadcastInDim S13303808x1 ![] bcast_S_S13303808x1 main_cst_0
  let main_v6 : IVec S13303808x1 1 := cmpf .olt main_v4 main_v5
  let main_c_1 : IVec S_ 1 := constantI S_ 1 1#1
  let main_v7 : IVec S_ 1 := (fun x v => Host.reduce IntOp.andi x v reducesTo_S13303808x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1x3 .f32 := Host.absf main_arg5
  let main_cst_4 : FVec F S_ .f32 := constant S_ .f32 0x7F800000#32
  let main_v15 : FVec F S1x3 .f32 := broadcastInDim S1x3 ![] bcast_S_S1x3 main_cst_4
  let main_v16 : IVec S1x3 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S475136x1 : Shape := ⟨2, ![475136, 1]⟩
abbrev S2x13303808 : Shape := ⟨2, ![2, 13303808]⟩
abbrev S13303808x1 : Shape := ⟨2, ![13303808, 1]⟩
abbrev S4096x1 : Shape := ⟨2, ![4096, 1]⟩
abbrev S475136 : Shape := ⟨1, ![475136]⟩
abbrev S1x3 : Shape := ⟨2, ![1, 3]⟩
abbrev S3 : Shape := ⟨1, ![3]⟩
abbrev S3x3 : Shape := ⟨2, ![3, 3]⟩
abbrev S3x5 : Shape := ⟨2, ![3, 5]⟩
abbrev S5 : Shape := ⟨1, ![5]⟩
abbrev S3x2 : Shape := ⟨2, ![3, 2]⟩
abbrev S2 : Shape := ⟨1, ![2]⟩
abbrev S8x3 : Shape := ⟨2, ![8, 3]⟩
abbrev S9x4 : Shape := ⟨2, ![9, 4]⟩
abbrev S4 : Shape := ⟨1, ![4]⟩
abbrev S2x1 : Shape := ⟨2, ![2, 1]⟩
abbrev S1 : Shape := ⟨1, ![1]⟩
abbrev S3x1 : Shape := ⟨2, ![3, 1]⟩
abbrev S4x1 : Shape := ⟨2, ![4, 1]⟩
abbrev S23x2 : Shape := ⟨2, ![23, 2]⟩
abbrev S1x13303808 : Shape := ⟨2, ![1, 13303808]⟩
abbrev S13303808 : Shape := ⟨1, ![13303808]⟩
abbrev S_ : Shape := ⟨0, ![]⟩
abbrev S1x2 : Shape := ⟨2, ![1, 2]⟩
abbrev S1x1 : Shape := ⟨2, ![1, 1]⟩
abbrev S13303808x2 : Shape := ⟨2, ![13303808, 2]⟩
abbrev S65536x1 : Shape := ⟨2, ![65536, 1]⟩
abbrev S65536x2 : Shape := ⟨2, ![65536, 2]⟩
abbrev S475136x3 : Shape := ⟨2, ![475136, 3]⟩
abbrev S16384x1 : Shape := ⟨2, ![16384, 1]⟩
abbrev S16384x3 : Shape := ⟨2, ![16384, 3]⟩
abbrev S13303808x3 : Shape := ⟨2, ![13303808, 3]⟩
abbrev S2x3 : Shape := ⟨2, ![2, 3]⟩
abbrev S65536x3 : Shape := ⟨2, ![65536, 3]⟩
abbrev S3x4 : Shape := ⟨2, ![3, 4]⟩
abbrev S1x4 : Shape := ⟨2, ![1, 4]⟩
abbrev S13303808x4 : Shape := ⟨2, ![13303808, 4]⟩
abbrev S65536x4 : Shape := ⟨2, ![65536, 4]⟩
abbrev S1x5 : Shape := ⟨2, ![1, 5]⟩
abbrev S475136x5 : Shape := ⟨2, ![475136, 5]⟩
abbrev S16384x5 : Shape := ⟨2, ![16384, 5]⟩
abbrev S475136x12 : Shape := ⟨2, ![475136, 12]⟩
abbrev S13303808x10 : Shape := ⟨2, ![13303808, 10]⟩
abbrev S4096x12 : Shape := ⟨2, ![4096, 12]⟩
abbrev S4096x10 : Shape := ⟨2, ![4096, 10]⟩
abbrev S4096x23 : Shape := ⟨2, ![4096, 23]⟩
abbrev S4096x2 : Shape := ⟨2, ![4096, 2]⟩
abbrev S4096 : Shape := ⟨1, ![4096]⟩

abbrev nBuf : Space → Nat
  | .hbm => 186
  | .vmem => 75
  | .smem => 0
  | _ => 0

abbrev hbmTy0_0 (i : Nat) : BufTy := match i % 128 with
  | 0 => ⟨S475136x1, .f32⟩
  | 1 => ⟨S2x13303808, .i32⟩
  | 2 => ⟨S13303808x1, .f32⟩
  | 3 => ⟨S4096x1, .f32⟩
  | 4 => ⟨S475136, .i32⟩
  | 5 => ⟨S1x3, .f32⟩
  | 6 => ⟨S3, .f32⟩
  | 7 => ⟨S1x3, .f32⟩
  | 8 => ⟨S3x3, .f32⟩
  | 9 => ⟨S3, .f32⟩
  | 10 => ⟨S3x3, .f32⟩
  | 11 => ⟨S3x5, .f32⟩
  | 12 => ⟨S5, .f32⟩
  | 13 => ⟨S3x5, .f32⟩
  | 14 => ⟨S3x2, .f32⟩
  | 15 => ⟨S2, .f32⟩
  | 16 => ⟨S8x3, .f32⟩
  | 17 => ⟨S3, .f32⟩
  | 18 => ⟨S9x4, .f32⟩
  | 19 => ⟨S4, .f32⟩
  | 20 => ⟨S2x1, .f32⟩
  | 21 => ⟨S1, .f32⟩
  | 22 => ⟨S3x1, .f32⟩
  | 23 => ⟨S1, .f32⟩
  | 24 => ⟨S4x1, .f32⟩
  | 25 => ⟨S1, .f32⟩
  | 26 => ⟨S23x2, .f32⟩
  | 27 => ⟨S2, .f32⟩
  | 28 => ⟨S1x13303808, .i32⟩
  | 29 => ⟨S13303808, .i32⟩
  | 30 => ⟨S1x13303808, .i32⟩
  | 31 => ⟨S13303808, .i32⟩
  | 32 => ⟨S_, .i32⟩
  | 33 => ⟨S13303808, .i32⟩
  | 34 => ⟨S13303808, .i1⟩
  | 35 => ⟨S_, .i32⟩
  | 36 => ⟨S13303808, .i32⟩
  | 37 => ⟨S13303808, .i32⟩
  | 38 => ⟨S13303808, .i32⟩
  | 39 => ⟨S13303808x1, .i32⟩
  | 40 => ⟨S13303808x1, .f32⟩
  | 41 => ⟨S_, .i32⟩
  | 42 => ⟨S13303808, .i32⟩
  | 43 => ⟨S13303808, .i1⟩
  | 44 => ⟨S_, .i32⟩
  | 45 => ⟨S13303808, .i32⟩
  | 46 => ⟨S13303808, .i32⟩
  | 47 => ⟨S13303808, .i32⟩
  | 48 => ⟨S13303808x1, .i32⟩
  | 49 => ⟨S13303808x1, .f32⟩
  | 50 => ⟨S1x2, .f32⟩
  | 51 => ⟨S1x2, .f32⟩
  | 52 => ⟨S1x2, .f32⟩
  | 53 => ⟨S1x2, .f32⟩
  | 54 => ⟨S1x1, .f32⟩
  | 55 => ⟨S13303808x2, .f32⟩
  | 56 => ⟨S13303808x1, .f32⟩
  | 57 => ⟨S_, .f32⟩
  | 58 => ⟨S475136x1, .f32⟩
  | 59 => ⟨S13303808x1, .i32⟩
  | 60 => ⟨S475136x1, .f32⟩
  | 61 => ⟨S1x3, .f32⟩
  | 62 => ⟨S475136x3, .f32⟩
  | 63 => ⟨S_, .i32⟩
  | 64 => ⟨S13303808, .i32⟩
  | 65 => ⟨S13303808, .i1⟩
  | 66 => ⟨S_, .i32⟩
  | 67 => ⟨S13303808, .i32⟩
  | 68 => ⟨S13303808, .i32⟩
  | 69 => ⟨S13303808, .i32⟩
  | 70 => ⟨S13303808x1, .i32⟩
  | 71 => ⟨S13303808x3, .f32⟩
  | 72 => ⟨S_, .i32⟩
  | 73 => ⟨S13303808, .i32⟩
  | 74 => ⟨S13303808, .i1⟩
  | 75 => ⟨S_, .i32⟩
  | 76 => ⟨S13303808, .i32⟩
  | 77 => ⟨S13303808, .i32⟩
  | 78 => ⟨S13303808, .i32⟩
  | 79 => ⟨S13303808x1, .i32⟩
  | 80 => ⟨S13303808x3, .f32⟩
  | 81 => ⟨S3x3, .f32⟩
  | 82 => ⟨S3x3, .f32⟩
  | 83 => ⟨S2x3, .f32⟩
  | 84 => ⟨S1x3, .f32⟩
  | 85 => ⟨S1x1, .f32⟩
  | 86 => ⟨S13303808x3, .f32⟩
  | 87 => ⟨S13303808x3, .f32⟩
  | 88 => ⟨S_, .f32⟩
  | 89 => ⟨S475136x3, .f32⟩
  | 90 => ⟨S13303808x1, .i32⟩
  | 91 => ⟨S475136x3, .f32⟩
  | 92 => ⟨S1x3, .f32⟩
  | 93 => ⟨S475136x3, .f32⟩
  | 94 => ⟨S_, .i32⟩
  | 95 => ⟨S13303808, .i32⟩
  | 96 => ⟨S13303808, .i1⟩
  | 97 => ⟨S_, .i32⟩
  | 98 => ⟨S13303808, .i32⟩
  | 99 => ⟨S13303808, .i32⟩
  | 100 => ⟨S13303808, .i32⟩
  | 101 => ⟨S13303808x1, .i32⟩
  | 102 => ⟨S13303808x3, .f32⟩
  | 103 => ⟨S_, .i32⟩
  | 104 => ⟨S13303808, .i32⟩
  | 105 => ⟨S13303808, .i1⟩
  | 106 => ⟨S_, .i32⟩
  | 107 => ⟨S13303808, .i32⟩
  | 108 => ⟨S13303808, .i32⟩
  | 109 => ⟨S13303808, .i32⟩
  | 110 => ⟨S13303808x1, .i32⟩
  | 111 => ⟨S13303808x3, .f32⟩
  | 112 => ⟨S3x4, .f32⟩
  | 113 => ⟨S3x4, .f32⟩
  | 114 => ⟨S3x4, .f32⟩
  | 115 => ⟨S1x4, .f32⟩
  | 116 => ⟨S1x1, .f32⟩
  | 117 => ⟨S13303808x4, .f32⟩
  | 118 => ⟨S13303808x3, .f32⟩
  | 119 => ⟨S_, .f32⟩
  | 120 => ⟨S475136x3, .f32⟩
  | 121 => ⟨S13303808x1, .i32⟩
  | 122 => ⟨S475136x3, .f32⟩
  | 123 => ⟨S1x5, .f32⟩
  | 124 => ⟨S475136x5, .f32⟩
  | 125 => ⟨S475136x12, .f32⟩
  | 126 => ⟨S13303808x10, .f32⟩
  | 127 => ⟨S_, .i32⟩
  | _ => ⟨S475136x1, .f32⟩

abbrev hbmTy0_1 (i : Nat) : BufTy := match i % 128 with
  | 0 => ⟨S13303808, .i32⟩
  | 1 => ⟨S13303808, .i1⟩
  | 2 => ⟨S_, .i32⟩
  | 3 => ⟨S13303808, .i32⟩
  | 4 => ⟨S13303808, .i32⟩
  | 5 => ⟨S13303808, .i32⟩
  | 6 => ⟨S13303808x1, .i32⟩
  | 7 => ⟨S13303808, .i32⟩
  | 8 => ⟨S_, .f32⟩
  | 9 => ⟨S4096x12, .f32⟩
  | 10 => ⟨S475136x1, .i32⟩
  | 11 => ⟨S4096x12, .f32⟩
  | 12 => ⟨S_, .f32⟩
  | 13 => ⟨S475136x1, .f32⟩
  | 14 => ⟨S_, .f32⟩
  | 15 => ⟨S4096x1, .f32⟩
  | 16 => ⟨S475136x1, .i32⟩
  | 17 => ⟨S4096x1, .f32⟩
  | 18 => ⟨S_, .f32⟩
  | 19 => ⟨S4096x1, .f32⟩
  | 20 => ⟨S4096x1, .f32⟩
  | 21 => ⟨S4096x12, .f32⟩
  | 22 => ⟨S4096x12, .f32⟩
  | 23 => ⟨S_, .f32⟩
  | 24 => ⟨S4096x10, .f32⟩
  | 25 => ⟨S13303808x1, .i32⟩
  | 26 => ⟨S4096x10, .f32⟩
  | 27 => ⟨S_, .f32⟩
  | 28 => ⟨S13303808x1, .f32⟩
  | 29 => ⟨S_, .f32⟩
  | 30 => ⟨S4096x1, .f32⟩
  | 31 => ⟨S13303808x1, .i32⟩
  | 32 => ⟨S4096x1, .f32⟩
  | 33 => ⟨S_, .f32⟩
  | 34 => ⟨S4096x1, .f32⟩
  | 35 => ⟨S4096x1, .f32⟩
  | 36 => ⟨S4096x10, .f32⟩
  | 37 => ⟨S4096x10, .f32⟩
  | 38 => ⟨S4096x23, .f32⟩
  | 39 => ⟨S4096x2, .f32⟩
  | 40 => ⟨S1x2, .f32⟩
  | 41 => ⟨S4096x2, .f32⟩
  | 42 => ⟨S4096x2, .f32⟩
  | 43 => ⟨S_, .f32⟩
  | 44 => ⟨S4096, .f32⟩
  | 45 => ⟨S_, .f32⟩
  | 46 => ⟨S4096, .f32⟩
  | 47 => ⟨S4096, .f32⟩
  | 48 => ⟨S4096x1, .f32⟩
  | 49 => ⟨S4096x2, .f32⟩
  | 50 => ⟨S4096x2, .f32⟩
  | 51 => ⟨S4096x2, .f32⟩
  | 52 => ⟨S_, .f32⟩
  | 53 => ⟨S4096, .f32⟩
  | 54 => ⟨S4096x1, .f32⟩
  | 55 => ⟨S4096x1, .f32⟩
  | 56 => ⟨S4096x2, .f32⟩
  | 57 => ⟨S4096x2, .f32⟩
  | _ => ⟨S475136x1, .f32⟩

abbrev hbmTy (i : Nat) : BufTy := match i / 128 with
  | 0 => hbmTy0_0 i
  | 1 => hbmTy0_1 i
  | _ => ⟨S475136x1, .f32⟩

abbrev bufTy : (tb : Table) → Fin (tcTables nBuf tb) → BufTy
  | .hbm, ⟨i, _⟩ => hbmTy i
  | .local _ .vmem, ⟨0, _⟩ => ⟨S65536x1, .f32⟩
  | .local _ .vmem, ⟨1, _⟩ => ⟨S65536x1, .f32⟩
  | .local _ .vmem, ⟨2, _⟩ => ⟨S65536x1, .f32⟩
  | .local _ .vmem, ⟨3, _⟩ => ⟨S65536x1, .f32⟩
  | .local _ .vmem, ⟨4, _⟩ => ⟨S65536x1, .f32⟩
  | .local _ .vmem, ⟨5, _⟩ => ⟨S65536x1, .f32⟩
  | .local _ .vmem, ⟨6, _⟩ => ⟨S1x2, .f32⟩
  | .local _ .vmem, ⟨7, _⟩ => ⟨S1x2, .f32⟩
  | .local _ .vmem, ⟨8, _⟩ => ⟨S1x2, .f32⟩
  | .local _ .vmem, ⟨9, _⟩ => ⟨S1x2, .f32⟩
  | .local _ .vmem, ⟨10, _⟩ => ⟨S2x1, .f32⟩
  | .local _ .vmem, ⟨11, _⟩ => ⟨S1x1, .f32⟩
  | .local _ .vmem, ⟨12, _⟩ => ⟨S65536x2, .f32⟩
  | .local _ .vmem, ⟨13, _⟩ => ⟨S65536x2, .f32⟩
  | .local _ .vmem, ⟨14, _⟩ => ⟨S65536x1, .f32⟩
  | .local _ .vmem, ⟨15, _⟩ => ⟨S65536x1, .f32⟩
  | .local _ .vmem, ⟨16, _⟩ => ⟨S16384x1, .f32⟩
  | .local _ .vmem, ⟨17, _⟩ => ⟨S16384x1, .f32⟩
  | .local _ .vmem, ⟨18, _⟩ => ⟨S16384x1, .f32⟩
  | .local _ .vmem, ⟨19, _⟩ => ⟨S16384x1, .f32⟩
  | .local _ .vmem, ⟨20, _⟩ => ⟨S1x3, .f32⟩
  | .local _ .vmem, ⟨21, _⟩ => ⟨S1x3, .f32⟩
  | .local _ .vmem, ⟨22, _⟩ => ⟨S1x3, .f32⟩
  | .local _ .vmem, ⟨23, _⟩ => ⟨S16384x3, .f32⟩
  | .local _ .vmem, ⟨24, _⟩ => ⟨S16384x3, .f32⟩
  | .local _ .vmem, ⟨25, _⟩ => ⟨S65536x3, .f32⟩
  | .local _ .vmem, ⟨26, _⟩ => ⟨S65536x3, .f32⟩
  | .local _ .vmem, ⟨27, _⟩ => ⟨S65536x3, .f32⟩
  | .local _ .vmem, ⟨28, _⟩ => ⟨S65536x3, .f32⟩
  | .local _ .vmem, ⟨29, _⟩ => ⟨S65536x2, .f32⟩
  | .local _ .vmem, ⟨30, _⟩ => ⟨S65536x2, .f32⟩
  | .local _ .vmem, ⟨31, _⟩ => ⟨S3x3, .f32⟩
  | .local _ .vmem, ⟨32, _⟩ => ⟨S3x3, .f32⟩
  | .local _ .vmem, ⟨33, _⟩ => ⟨S2x3, .f32⟩
  | .local _ .vmem, ⟨34, _⟩ => ⟨S1x3, .f32⟩
  | .local _ .vmem, ⟨35, _⟩ => ⟨S3x1, .f32⟩
  | .local _ .vmem, ⟨36, _⟩ => ⟨S1x1, .f32⟩
  | .local _ .vmem, ⟨37, _⟩ => ⟨S65536x3, .f32⟩
  | .local _ .vmem, ⟨38, _⟩ => ⟨S65536x3, .f32⟩
  | .local _ .vmem, ⟨39, _⟩ => ⟨S65536x3, .f32⟩
  | .local _ .vmem, ⟨40, _⟩ => ⟨S65536x3, .f32⟩
  | .local _ .vmem, ⟨41, _⟩ => ⟨S16384x3, .f32⟩
  | .local _ .vmem, ⟨42, _⟩ => ⟨S16384x3, .f32⟩
  | .local _ .vmem, ⟨43, _⟩ => ⟨S16384x3, .f32⟩
  | .local _ .vmem, ⟨44, _⟩ => ⟨S16384x3, .f32⟩
  | .local _ .vmem, ⟨45, _⟩ => ⟨S3x3, .f32⟩
  | .local _ .vmem, ⟨46, _⟩ => ⟨S1x3, .f32⟩
  | .local _ .vmem, ⟨47, _⟩ => ⟨S3x3, .f32⟩
  | .local _ .vmem, ⟨48, _⟩ => ⟨S16384x3, .f32⟩
  | .local _ .vmem, ⟨49, _⟩ => ⟨S16384x3, .f32⟩
  | .local _ .vmem, ⟨50, _⟩ => ⟨S65536x3, .f32⟩
  | .local _ .vmem, ⟨51, _⟩ => ⟨S65536x3, .f32⟩
  | .local _ .vmem, ⟨52, _⟩ => ⟨S65536x3, .f32⟩
  | .local _ .vmem, ⟨53, _⟩ => ⟨S65536x3, .f32⟩
  | .local _ .vmem, ⟨54, _⟩ => ⟨S65536x3, .f32⟩
  | .local _ .vmem, ⟨55, _⟩ => ⟨S65536x3, .f32⟩
  | .local _ .vmem, ⟨56, _⟩ => ⟨S3x4, .f32⟩
  | .local _ .vmem, ⟨57, _⟩ => ⟨S3x4, .f32⟩
  | .local _ .vmem, ⟨58, _⟩ => ⟨S3x4, .f32⟩
  | .local _ .vmem, ⟨59, _⟩ => ⟨S1x4, .f32⟩
  | .local _ .vmem, ⟨60, _⟩ => ⟨S4x1, .f32⟩
  | .local _ .vmem, ⟨61, _⟩ => ⟨S1x1, .f32⟩
  | .local _ .vmem, ⟨62, _⟩ => ⟨S65536x4, .f32⟩
  | .local _ .vmem, ⟨63, _⟩ => ⟨S65536x4, .f32⟩
  | .local _ .vmem, ⟨64, _⟩ => ⟨S65536x3, .f32⟩
  | .local _ .vmem, ⟨65, _⟩ => ⟨S65536x3, .f32⟩
  | .local _ .vmem, ⟨66, _⟩ => ⟨S16384x3, .f32⟩
  | .local _ .vmem, ⟨67, _⟩ => ⟨S16384x3, .f32⟩
  | .local _ .vmem, ⟨68, _⟩ => ⟨S16384x3, .f32⟩
  | .local _ .vmem, ⟨69, _⟩ => ⟨S16384x3, .f32⟩
  | .local _ .vmem, ⟨70, _⟩ => ⟨S3x5, .f32⟩
  | .local _ .vmem, ⟨71, _⟩ => ⟨S1x5, .f32⟩
  | .local _ .vmem, ⟨72, _⟩ => ⟨S3x5, .f32⟩
  | .local _ .vmem, ⟨73, _⟩ => ⟨S16384x5, .f32⟩
  | .local _ .vmem, ⟨74, _⟩ => ⟨S16384x5, .f32⟩
  | _, _ => ⟨S475136x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23_0 : Ref sig .tc := ⟨.hbm, 55, rfl⟩
abbrev main_v23_1 : Ref sig .tc := ⟨.hbm, 56, rfl⟩
abbrev main_cst : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_5 : Ref sig .tc := ⟨.hbm, 72, rfl⟩
abbrev main_v36 : Ref sig .tc := ⟨.hbm, 73, rfl⟩
abbrev main_v37 : Ref sig .tc := ⟨.hbm, 74, rfl⟩
abbrev main_c_6 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48_0 : Ref sig .tc := ⟨.hbm, 86, rfl⟩
abbrev main_v48_1 : Ref sig .tc := ⟨.hbm, 87, rfl⟩
abbrev main_cst_7 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_8 : Ref sig .tc := ⟨.hbm, 94, rfl⟩
abbrev main_v54 : Ref sig .tc := ⟨.hbm, 95, rfl⟩
abbrev main_v55 : Ref sig .tc := ⟨.hbm, 96, rfl⟩
abbrev main_c_9 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_10 : Ref sig .tc := ⟨.hbm, 103, rfl⟩
abbrev main_v61 : Ref sig .tc := ⟨.hbm, 104, rfl⟩
abbrev main_v62 : Ref sig .tc := ⟨.hbm, 105, rfl⟩
abbrev main_c_11 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73_0 : Ref sig .tc := ⟨.hbm, 117, rfl⟩
abbrev main_v73_1 : Ref sig .tc := ⟨.hbm, 118, rfl⟩
abbrev main_cst_12 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_13 : Ref sig .tc := ⟨.hbm, 127, rfl⟩
abbrev main_v81 : Ref sig .tc := ⟨.hbm, 128, rfl⟩
abbrev main_v82 : Ref sig .tc := ⟨.hbm, 129, rfl⟩
abbrev main_c_14 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_15 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_16 : Ref sig .tc := ⟨.hbm, 140, rfl⟩
abbrev main_v91 : Ref sig .tc := ⟨.hbm, 141, rfl⟩
abbrev main_cst_17 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_18 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_19 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_20 : Ref sig .tc := ⟨.hbm, 155, rfl⟩
abbrev main_v102 : Ref sig .tc := ⟨.hbm, 156, rfl⟩
abbrev main_cst_21 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_22 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call0_cst : Ref sig .tc := ⟨.hbm, 171, rfl⟩
abbrev main_call0_v0 : Ref sig .tc := ⟨.hbm, 172, rfl⟩
abbrev main_call0_cst_0 : Ref sig .tc := ⟨.hbm, 173, rfl⟩
abbrev main_call0_v1 : Ref sig .tc := ⟨.hbm, 174, rfl⟩
abbrev main_call0_v2 : Ref sig .tc := ⟨.hbm, 175, rfl⟩
abbrev main_call0_v3 : Ref sig .tc := ⟨.hbm, 176, rfl⟩
abbrev main_call0_v4 : Ref sig .tc := ⟨.hbm, 177, rfl⟩
abbrev main_call0_v5 : Ref sig .tc := ⟨.hbm, 178, rfl⟩
abbrev main_call0_v6 : Ref sig .tc := ⟨.hbm, 179, rfl⟩
abbrev main_call0_cst_1 : Ref sig .tc := ⟨.hbm, 180, rfl⟩
abbrev main_call0_v7 : Ref sig .tc := ⟨.hbm, 181, rfl⟩
abbrev main_call0_v8 : Ref sig .tc := ⟨.hbm, 182, rfl⟩
abbrev main_call0_v9 : Ref sig .tc := ⟨.hbm, 183, rfl⟩
abbrev main_call0_v10 : Ref sig .tc := ⟨.hbm, 184, rfl⟩
abbrev main_v115 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg10_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg9_1 : Ref sig .tc := ⟨.vmem, 63, rfl⟩
abbrev cc4_stg10_0 : Ref sig .tc := ⟨.vmem, 64, rfl⟩
abbrev cc4_stg10_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg3_0 : Ref sig .tc := ⟨.vmem, 71, rfl⟩
abbrev cc5_stg4_0 : Ref sig .tc := ⟨.vmem, 72, rfl⟩
abbrev cc5_stg5_0 : Ref sig .tc := ⟨.vmem, 73, rfl⟩
abbrev cc5_stg5_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc2_sem10_0 : DmaSem sig := 39
abbrev cc2_sem10_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem5_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem9_0 : DmaSem sig := 62
abbrev cc4_sem9_1 : DmaSem sig := 63
abbrev cc4_sem10_0 : DmaSem sig := 64
abbrev cc4_sem10_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem3_0 : DmaSem sig := 71
abbrev cc5_sem4_0 : DmaSem sig := 72
abbrev cc5_sem5_0 : DmaSem sig := 73
abbrev cc5_sem5_1 : DmaSem sig := 74

abbrev nD : Nat := 1
abbrev τ : Topo := Topo.v7x

variable {F : FTy → Type} [FloatOps F]

abbrev grid0 : Pipeline.Grid := ⟨1, ![203], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S65536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S65536x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S65536x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![29], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16384x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![203], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S65536x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S65536x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S65536x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S65536x3 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S65536x3 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![29], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16384x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16384x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S16384x3 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![203], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S65536x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S65536x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S65536x3 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x4 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x4 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S4x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S65536x4 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S65536x3 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![29], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16384x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16384x3 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S3x5 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x5 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S3x5 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S16384x5 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x13303808_S1x13303808_0_0 : S2x13303808.Slices ![0, 0] S1x13303808
  shapeCasts_S1x13303808_S13303808 : S1x13303808.ShapeCasts S13303808
  slices_S2x13303808_S1x13303808_1_0 : S2x13303808.Slices ![1, 0] S1x13303808
  bcast_S_S13303808 : S_.BroadcastsInDim S13303808 (![] : Fin 0 → Fin S13303808.rank)
  bcast_S13303808_S13303808x1_0 : S13303808.BroadcastsInDim S13303808x1 (![0] : Fin 1 → Fin S13303808x1.rank)
  slices_S3x2_S1x2_0_0 : S3x2.Slices ![0, 0] S1x2
  slices_S3x2_S1x2_1_0 : S3x2.Slices ![1, 0] S1x2
  slices_S3x2_S1x2_2_0 : S3x2.Slices ![2, 0] S1x2
  shapeCasts_S2_S1x2 : S2.ShapeCasts S1x2
  shapeCasts_S1_S1x1 : S1.ShapeCasts S1x1
  inb_S65536x1_S65536x1_0_0 : ∀ a, (![0, 0] : Fin 2 → Nat) a + S65536x1.size a ≤ S65536x1.size a
  h_S65536x1 : 0 < S65536x1.numel
  shapeCasts_S65536x1_S65536x1 : S65536x1.ShapeCasts S65536x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S65536x2 : S1x2.Broadcasts S65536x2
  inb_S2x1_S2x1_0_0 : ∀ a, (![0, 0] : Fin 2 → Nat) a + S2x1.size a ≤ S2x1.size a
  h_S2x1 : 0 < S2x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S65536x1 : S1x1.Broadcasts S65536x1
  inb_S65536x2_S65536x2_0_0 : ∀ a, (![0, 0] : Fin 2 → Nat) a + S65536x2.size a ≤ S65536x2.size a
  h_S65536x2 : 0 < S65536x2.numel
  bcast_S_S475136x1 : S_.BroadcastsInDim S475136x1 (![] : Fin 0 → Fin S475136x1.rank)
  shapeCasts_S3_S1x3 : S3.ShapeCasts S1x3
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S16384x3 : S1x3.Broadcasts S16384x3
  inb_S16384x3_S16384x3_0_0 : ∀ a, (![0, 0] : Fin 2 → Nat) a + S16384x3.size a ≤ S16384x3.size a
  h_S16384x3 : 0 < S16384x3.numel
  slices_S8x3_S3x3_0_0 : S8x3.Slices ![0, 0] S3x3
  slices_S8x3_S3x3_3_0 : S8x3.Slices ![3, 0] S3x3
  slices_S8x3_S2x3_6_0 : S8x3.Slices ![6, 0] S2x3
  inb_S65536x3_S65536x3_0_0 : ∀ a, (![0, 0] : Fin 2 → Nat) a + S65536x3.size a ≤ S65536x3.size a
  h_S65536x3 : 0 < S65536x3.numel
  shapeCasts_S65536x3_S65536x3 : S65536x3.ShapeCasts S65536x3
  shapeCasts_S65536x2_S65536x2 : S65536x2.ShapeCasts S65536x2
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S2x3_S2x3_0_0 : ∀ a, (![0, 0] : Fin 2 → Nat) a + S2x3.size a ≤ S2x3.size a
  h_S2x3 : 0 < S2x3.numel
  shapeCasts_S2x3_S2x3 : S2x3.ShapeCasts S2x3
  broadcasts_S1x3_S65536x3 : S1x3.Broadcasts S65536x3
  inb_S3x1_S3x1_0_0 : ∀ a, (![0, 0] : Fin 2 → Nat) a + S3x1.size a ≤ S3x1.size a
  h_S3x1 : 0 < S3x1.numel
  broadcasts_S65536x1_S65536x3 : S65536x1.Broadcasts S65536x3
  bcast_S_S475136x3 : S_.BroadcastsInDim S475136x3 (![] : Fin 0 → Fin S475136x3.rank)
  shapeCasts_S16384x3_S16384x3 : S16384x3.ShapeCasts S16384x3
  slices_S9x4_S3x4_0_0 : S9x4.Slices ![0, 0] S3x4
  slices_S9x4_S3x4_3_0 : S9x4.Slices ![3, 0] S3x4
  slices_S9x4_S3x4_6_0 : S9x4.Slices ![6, 0] S3x4
  shapeCasts_S4_S1x4 : S4.ShapeCasts S1x4
  inb_S3x4_S3x4_0_0 : ∀ a, (![0, 0] : Fin 2 → Nat) a + S3x4.size a ≤ S3x4.size a
  h_S3x4 : 0 < S3x4.numel
  shapeCasts_S3x4_S3x4 : S3x4.ShapeCasts S3x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S65536x4 : S1x4.Broadcasts S65536x4
  inb_S4x1_S4x1_0_0 : ∀ a, (![0, 0] : Fin 2 → Nat) a + S4x1.size a ≤ S4x1.size a
  h_S4x1 : 0 < S4x1.numel
  inb_S65536x4_S65536x4_0_0 : ∀ a, (![0, 0] : Fin 2 → Nat) a + S65536x4.size a ≤ S65536x4.size a
  h_S65536x4 : 0 < S65536x4.numel
  shapeCasts_S5_S1x5 : S5.ShapeCasts S1x5
  inb_S3x5_S3x5_0_0 : ∀ a, (![0, 0] : Fin 2 → Nat) a + S3x5.size a ≤ S3x5.size a
  h_S3x5 : 0 < S3x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S16384x5 : S1x5.Broadcasts S16384x5
  inb_S16384x5_S16384x5_0_0 : ∀ a, (![0, 0] : Fin 2 → Nat) a + S16384x5.size a ≤ S16384x5.size a
  h_S16384x5 : 0 < S16384x5.numel
  concatenates_S475136x1_S475136x3_S475136x3_S475136x5_S475136x12_d1 : Shape.Concatenates [S475136x1, S475136x3, S475136x3, S475136x5] S475136x12 1
  concatenates_S13303808x1_S13303808x2_S13303808x3_S13303808x4_S13303808x10_d1 : Shape.Concatenates [S13303808x1, S13303808x2, S13303808x3, S13303808x4] S13303808x10 1
  bcast_S_S4096x12 : S_.BroadcastsInDim S4096x12 (![] : Fin 0 → Fin S4096x12.rank)
  bcast_S475136_S475136x1_0 : S475136.BroadcastsInDim S475136x1 (![0] : Fin 1 → Fin S475136x1.rank)
  bcast_S_S4096x1 : S_.BroadcastsInDim S4096x1 (![] : Fin 0 → Fin S4096x1.rank)
  bcast_S4096x1_S4096x12_0_1 : S4096x1.BroadcastsInDim S4096x12 (![0, 1] : Fin 2 → Fin S4096x12.rank)
  bcast_S_S4096x10 : S_.BroadcastsInDim S4096x10 (![] : Fin 0 → Fin S4096x10.rank)
  bcast_S_S13303808x1 : S_.BroadcastsInDim S13303808x1 (![] : Fin 0 → Fin S13303808x1.rank)
  bcast_S4096x1_S4096x10_0_1 : S4096x1.BroadcastsInDim S4096x10 (![0, 1] : Fin 2 → Fin S4096x10.rank)
  concatenates_S4096x12_S4096x10_S4096x1_S4096x23_d1 : Shape.Concatenates [S4096x12, S4096x10, S4096x1] S4096x23 1
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  reducesTo_S4096x2_S4096_d1 : S4096x2.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  gather_S475136x1_S13303808x1_S13303808x1_1_0_n_n_0_1_11_wf : GatherDims.WF S475136x1 S13303808x1 S13303808x1 [1] [0] [] [0] [] 1 ![1, 1]
  dot_S65536x1_S1x2_S65536x2_1_0_0_1_n_n_wf : DotDims.WF S65536x1 S1x2 S65536x2 [1] [0] [0] [1] [] []
  dot_S65536x2_S2x1_S65536x1_1_0_0_1_n_n_wf : DotDims.WF S65536x2 S2x1 S65536x1 [1] [0] [0] [1] [] []
  scatter_S475136x1_S13303808x1_S13303808x1_1_0_0_1_wf : ScatterDims.WF S475136x1 S13303808x1 S13303808x1 [1] [0] [0] 1
  dot_S16384x1_S1x3_S16384x3_1_0_0_1_n_n_wf : DotDims.WF S16384x1 S1x3 S16384x3 [1] [0] [0] [1] [] []
  gather_S475136x3_S13303808x1_S13303808x3_1_0_n_n_0_1_13_wf : GatherDims.WF S475136x3 S13303808x1 S13303808x3 [1] [0] [] [0] [] 1 ![1, 3]
  dot_S65536x3_S3x3_S65536x3_1_0_0_1_n_n_wf : DotDims.WF S65536x3 S3x3 S65536x3 [1] [0] [0] [1] [] []
  dot_S65536x2_S2x3_S65536x3_1_0_0_1_n_n_wf : DotDims.WF S65536x2 S2x3 S65536x3 [1] [0] [0] [1] [] []
  dot_S65536x3_S3x1_S65536x1_1_0_0_1_n_n_wf : DotDims.WF S65536x3 S3x1 S65536x1 [1] [0] [0] [1] [] []
  scatter_S475136x3_S13303808x1_S13303808x3_1_0_0_1_wf : ScatterDims.WF S475136x3 S13303808x1 S13303808x3 [1] [0] [0] 1
  dot_S16384x3_S3x3_S16384x3_1_0_0_1_n_n_wf : DotDims.WF S16384x3 S3x3 S16384x3 [1] [0] [0] [1] [] []
  dot_S65536x3_S3x4_S65536x4_1_0_0_1_n_n_wf : DotDims.WF S65536x3 S3x4 S65536x4 [1] [0] [0] [1] [] []
  dot_S65536x4_S4x1_S65536x1_1_0_0_1_n_n_wf : DotDims.WF S65536x4 S4x1 S65536x1 [1] [0] [0] [1] [] []
  dot_S16384x3_S3x5_S16384x5_1_0_0_1_n_n_wf : DotDims.WF S16384x3 S3x5 S16384x5 [1] [0] [0] [1] [] []
  gather_S475136_S13303808x1_S13303808_n_0_n_n_0_1_1_wf : GatherDims.WF S475136 S13303808x1 S13303808 [] [0] [] [0] [] 1 ![1]
  scatter_S4096x12_S475136x1_S475136x12_1_0_0_1_wf : ScatterDims.WF S4096x12 S475136x1 S475136x12 [1] [0] [0] 1
  scatter_S4096x1_S475136x1_S475136x1_1_0_0_1_wf : ScatterDims.WF S4096x1 S475136x1 S475136x1 [1] [0] [0] 1
  scatter_S4096x10_S13303808x1_S13303808x10_1_0_0_1_wf : ScatterDims.WF S4096x10 S13303808x1 S13303808x10 [1] [0] [0] 1
  scatter_S4096x1_S13303808x1_S13303808x1_1_0_0_1_wf : ScatterDims.WF S4096x1 S13303808x1 S13303808x1 [1] [0] [0] 1
  dot_S4096x23_S23x2_S4096x2_1_0_0_1_n_n_wf : DotDims.WF S4096x23 S23x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x1.size a ≤ S13303808x1.size a
  hwx0_0 : ∀ i : grid0.Coords, EltTy.bits .f32 = 32 ∨ (Rect.block (s := S13303808x1) S65536x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x1.size a ≤ S13303808x1.size a
  hwx0_1 : ∀ i : grid0.Coords, EltTy.bits .f32 = 32 ∨ (Rect.block (s := S13303808x1) S65536x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S65536x1.size a ≤ S13303808x1.size a
  hwx0_2 : ∀ i : grid0.Coords, EltTy.bits .f32 = 32 ∨ (Rect.block (s := S13303808x1) S65536x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x1.size a ≤ S2x1.size a
  hwx0_7 : ∀ i : grid0.Coords, EltTy.bits .f32 = 32 ∨ (Rect.block (s := S2x1) S2x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S65536x2.size a ≤ S13303808x2.size a
  hwx0_9 : ∀ i : grid0.Coords, EltTy.bits .f32 = 32 ∨ (Rect.block (s := S13303808x2) S65536x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S65536x1.size a ≤ S13303808x1.size a
  hwx0_10 : ∀ i : grid0.Coords, EltTy.bits .f32 = 32 ∨ (Rect.block (s := S13303808x1) S65536x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x1.size a ≤ S475136x1.size a
  hwx1_0 : ∀ i : grid1.Coords, EltTy.bits .f32 = 32 ∨ (Rect.block (s := S475136x1) S16384x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x1.size a ≤ S475136x1.size a
  hwx1_1 : ∀ i : grid1.Coords, EltTy.bits .f32 = 32 ∨ (Rect.block (s := S475136x1) S16384x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3.size a ≤ S1x3.size a
  hwx1_2 : ∀ i : grid1.Coords, EltTy.bits .f32 = 32 ∨ (Rect.block (s := S1x3) S1x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3.size a ≤ S1x3.size a
  hwx1_3 : ∀ i : grid1.Coords, EltTy.bits .f32 = 32 ∨ (Rect.block (s := S1x3) S1x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3.size a ≤ S1x3.size a
  hwx1_4 : ∀ i : grid1.Coords, EltTy.bits .f32 = 32 ∨ (Rect.block (s := S1x3) S1x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16384x3.size a ≤ S475136x3.size a
  hwx1_5 : ∀ i : grid1.Coords, EltTy.bits .f32 = 32 ∨ (Rect.block (s := S475136x3) S16384x3.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S65536x3.size a ≤ S13303808x3.size a
  hwx2_0 : ∀ i : grid2.Coords, EltTy.bits .f32 = 32 ∨ (Rect.block (s := S13303808x3) S65536x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S65536x3.size a ≤ S13303808x3.size a
  hwx2_1 : ∀ i : grid2.Coords, EltTy.bits .f32 = 32 ∨ (Rect.block (s := S13303808x3) S65536x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S65536x2.size a ≤ S13303808x2.size a
  hwx2_2 : ∀ i : grid2.Coords, EltTy.bits .f32 = 32 ∨ (Rect.block (s := S13303808x2) S65536x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x3.size a ≤ S3x3.size a
  hwx2_3 : ∀ i : grid2.Coords, EltTy.bits .f32 = 32 ∨ (Rect.block (s := S3x3) S3x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x3.size a ≤ S3x3.size a
  hwx2_4 : ∀ i : grid2.Coords, EltTy.bits .f32 = 32 ∨ (Rect.block (s := S3x3) S3x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x3.size a ≤ S2x3.size a
  hwx2_5 : ∀ i : grid2.Coords, EltTy.bits .f32 = 32 ∨ (Rect.block (s := S2x3) S2x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x1.size a ≤ S3x1.size a
  hwx2_7 : ∀ i : grid2.Coords, EltTy.bits .f32 = 32 ∨ (Rect.block (s := S3x1) S3x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S65536x3.size a ≤ S13303808x3.size a
  hwx2_9 : ∀ i : grid2.Coords, EltTy.bits .f32 = 32 ∨ (Rect.block (s := S13303808x3) S65536x3.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S65536x3.size a ≤ S13303808x3.size a
  hwx2_10 : ∀ i : grid2.Coords, EltTy.bits .f32 = 32 ∨ (Rect.block (s := S13303808x3) S65536x3.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16384x3.size a ≤ S475136x3.size a
  hwx3_0 : ∀ i : grid3.Coords, EltTy.bits .f32 = 32 ∨ (Rect.block (s := S475136x3) S16384x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16384x3.size a ≤ S475136x3.size a
  hwx3_1 : ∀ i : grid3.Coords, EltTy.bits .f32 = 32 ∨ (Rect.block (s := S475136x3) S16384x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x3.size a ≤ S3x3.size a
  hwx3_2 : ∀ i : grid3.Coords, EltTy.bits .f32 = 32 ∨ (Rect.block (s := S3x3) S3x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x3.size a ≤ S1x3.size a
  hwx3_3 : ∀ i : grid3.Coords, EltTy.bits .f32 = 32 ∨ (Rect.block (s := S1x3) S1x3.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x3.size a ≤ S3x3.size a
  hwx3_4 : ∀ i : grid3.Coords, EltTy.bits .f32 = 32 ∨ (Rect.block (s := S3x3) S3x3.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S16384x3.size a ≤ S475136x3.size a
  hwx3_5 : ∀ i : grid3.Coords, EltTy.bits .f32 = 32 ∨ (Rect.block (s := S475136x3) S16384x3.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S65536x3.size a ≤ S13303808x3.size a
  hwx4_0 : ∀ i : grid4.Coords, EltTy.bits .f32 = 32 ∨ (Rect.block (s := S13303808x3) S65536x3.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S65536x3.size a ≤ S13303808x3.size a
  hwx4_1 : ∀ i : grid4.Coords, EltTy.bits .f32 = 32 ∨ (Rect.block (s := S13303808x3) S65536x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S65536x3.size a ≤ S13303808x3.size a
  hwx4_2 : ∀ i : grid4.Coords, EltTy.bits .f32 = 32 ∨ (Rect.block (s := S13303808x3) S65536x3.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x4.size a ≤ S3x4.size a
  hwx4_3 : ∀ i : grid4.Coords, EltTy.bits .f32 = 32 ∨ (Rect.block (s := S3x4) S3x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x4.size a ≤ S3x4.size a
  hwx4_4 : ∀ i : grid4.Coords, EltTy.bits .f32 = 32 ∨ (Rect.block (s := S3x4) S3x4.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S3x4.size a ≤ S3x4.size a
  hwx4_5 : ∀ i : grid4.Coords, EltTy.bits .f32 = 32 ∨ (Rect.block (s := S3x4) S3x4.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x4.size a ≤ S1x4.size a
  hwx4_6 : ∀ i : grid4.Coords, EltTy.bits .f32 = 32 ∨ (Rect.block (s := S1x4) S1x4.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S4x1.size a ≤ S4x1.size a
  hwx4_7 : ∀ i : grid4.Coords, EltTy.bits .f32 = 32 ∨ (Rect.block (s := S4x1) S4x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S65536x4.size a ≤ S13303808x4.size a
  hwx4_9 : ∀ i : grid4.Coords, EltTy.bits .f32 = 32 ∨ (Rect.block (s := S13303808x4) S65536x4.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S65536x3.size a ≤ S13303808x3.size a
  hwx4_10 : ∀ i : grid4.Coords, EltTy.bits .f32 = 32 ∨ (Rect.block (s := S13303808x3) S65536x3.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16384x3.size a ≤ S475136x3.size a
  hwx5_0 : ∀ i : grid5.Coords, EltTy.bits .f32 = 32 ∨ (Rect.block (s := S475136x3) S16384x3.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16384x3.size a ≤ S475136x3.size a
  hwx5_1 : ∀ i : grid5.Coords, EltTy.bits .f32 = 32 ∨ (Rect.block (s := S475136x3) S16384x3.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x5.size a ≤ S3x5.size a
  hwx5_2 : ∀ i : grid5.Coords, EltTy.bits .f32 = 32 ∨ (Rect.block (s := S3x5) S3x5.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x5.size a ≤ S1x5.size a
  hwx5_3 : ∀ i : grid5.Coords, EltTy.bits .f32 = 32 ∨ (Rect.block (s := S1x5) S1x5.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S3x5.size a ≤ S3x5.size a
  hwx5_4 : ∀ i : grid5.Coords, EltTy.bits .f32 = 32 ∨ (Rect.block (s := S3x5) S3x5.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S16384x5.size a ≤ S475136x5.size a
  hwx5_5 : ∀ i : grid5.Coords, EltTy.bits .f32 = 32 ∨ (Rect.block (s := S475136x5) S16384x5.size (cc5_transform_5 i) (hinb5_5 i)).WholeWords (EltTy.packing .f32)

variable [Facts₀]

def gather_S475136x1_S13303808x1_S13303808x1_1_0_n_n_0_1_11 : GatherDims S475136x1 S13303808x1 S13303808x1 where
  offsetDims := [1]
  collapsedSliceDims := [0]
  operandBatchingDims := []
  startIndicesBatchingDims := []
  startIndexMap := [0]
  indexVectorDim := 1
  sliceSizes := ![1, 1]
  wf := gather_S475136x1_S13303808x1_S13303808x1_1_0_n_n_0_1_11_wf
def dot_S65536x1_S1x2_S65536x2_1_0_0_1_n_n : DotDims S65536x1 S1x2 S65536x2 where
  lhsContracting := [1]
  rhsContracting := [0]
  lhsNonContracting := [0]
  rhsNonContracting := [1]
  lhsBatch := []
  rhsBatch := []
  wf := dot_S65536x1_S1x2_S65536x2_1_0_0_1_n_n_wf
def dot_S65536x2_S2x1_S65536x1_1_0_0_1_n_n : DotDims S65536x2 S2x1 S65536x1 where
  lhsContracting := [1]
  rhsContracting := [0]
  lhsNonContracting := [0]
  rhsNonContracting := [1]
  lhsBatch := []
  rhsBatch := []
  wf := dot_S65536x2_S2x1_S65536x1_1_0_0_1_n_n_wf
def scatter_S475136x1_S13303808x1_S13303808x1_1_0_0_1 : ScatterDims S475136x1 S13303808x1 S13303808x1 where
  updateWindowDims := [1]
  insertedWindowDims := [0]
  scatterDimsToOperandDims := [0]
  indexVectorDim := 1
  wf := scatter_S475136x1_S13303808x1_S13303808x1_1_0_0_1_wf
def dot_S16384x1_S1x3_S16384x3_1_0_0_1_n_n : DotDims S16384x1 S1x3 S16384x3 where
  lhsContracting := [1]
  rhsContracting := [0]
  lhsNonContracting := [0]
  rhsNonContracting := [1]
  lhsBatch := []
  rhsBatch := []
  wf := dot_S16384x1_S1x3_S16384x3_1_0_0_1_n_n_wf
def gather_S475136x3_S13303808x1_S13303808x3_1_0_n_n_0_1_13 : GatherDims S475136x3 S13303808x1 S13303808x3 where
  offsetDims := [1]
  collapsedSliceDims := [0]
  operandBatchingDims := []
  startIndicesBatchingDims := []
  startIndexMap := [0]
  indexVectorDim := 1
  sliceSizes := ![1, 3]
  wf := gather_S475136x3_S13303808x1_S13303808x3_1_0_n_n_0_1_13_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf
def dot_S65536x2_S2x3_S65536x3_1_0_0_1_n_n : DotDims S65536x2 S2x3 S65536x3 where
  lhsContracting := [1]
  rhsContracting := [0]
  lhsNonContracting := [0]
  rhsNonContracting := [1]
  lhsBatch := []
  rhsBatch := []
  wf := dot_S65536x2_S2x3_S65536x3_1_0_0_1_n_n_wf
def dot_S65536x3_S3x1_S65536x1_1_0_0_1_n_n : DotDims S65536x3 S3x1 S65536x1 where
  lhsContracting := [1]
  rhsContracting := [0]
  lhsNonContracting := [0]
  rhsNonContracting := [1]
  lhsBatch := []
  rhsBatch := []
  wf := dot_S65536x3_S3x1_S65536x1_1_0_0_1_n_n_wf
def scatter_S475136x3_S13303808x1_S13303808x3_1_0_0_1 : ScatterDims S475136x3 S13303808x1 S13303808x3 where
  updateWindowDims := [1]
  insertedWindowDims := [0]
  scatterDimsToOperandDims := [0]
  indexVectorDim := 1
  wf := scatter_S475136x3_S13303808x1_S13303808x3_1_0_0_1_wf
def dot_S16384x3_S3x3_S16384x3_1_0_0_1_n_n : DotDims S16384x3 S3x3 S16384x3 where
  lhsContracting := [1]
  rhsContracting := [0]
  lhsNonContracting := [0]
  rhsNonContracting := [1]
  lhsBatch := []
  rhsBatch := []
  wf := dot_S16384x3_S3x3_S16384x3_1_0_0_1_n_n_wf
def dot_S65536x3_S3x4_S65536x4_1_0_0_1_n_n : DotDims S65536x3 S3x4 S65536x4 where
  lhsContracting := [1]
  rhsContracting := [0]
  lhsNonContracting := [0]
  rhsNonContracting := [1]
  lhsBatch := []
  rhsBatch := []
  wf := dot_S65536x3_S3x4_S65536x4_1_0_0_1_n_n_wf
def dot_S65536x4_S4x1_S65536x1_1_0_0_1_n_n : DotDims S65536x4 S4x1 S65536x1 where
  lhsContracting := [1]
  rhsContracting := [0]
  lhsNonContracting := [0]
  rhsNonContracting := [1]
  lhsBatch := []
  rhsBatch := []
  wf := dot_S65536x4_S4x1_S65536x1_1_0_0_1_n_n_wf
def dot_S16384x3_S3x5_S16384x5_1_0_0_1_n_n : DotDims S16384x3 S3x5 S16384x5 where
  lhsContracting := [1]
  rhsContracting := [0]
  lhsNonContracting := [0]
  rhsNonContracting := [1]
  lhsBatch := []
  rhsBatch := []
  wf := dot_S16384x3_S3x5_S16384x5_1_0_0_1_n_n_wf
def gather_S475136_S13303808x1_S13303808_n_0_n_n_0_1_1 : GatherDims S475136 S13303808x1 S13303808 where
  offsetDims := []
  collapsedSliceDims := [0]
  operandBatchingDims := []
  startIndicesBatchingDims := []
  startIndexMap := [0]
  indexVectorDim := 1
  sliceSizes := ![1]
  wf := gather_S475136_S13303808x1_S13303808_n_0_n_n_0_1_1_wf
def scatter_S4096x12_S475136x1_S475136x12_1_0_0_1 : ScatterDims S4096x12 S475136x1 S475136x12 where
  updateWindowDims := [1]
  insertedWindowDims := [0]
  scatterDimsToOperandDims := [0]
  indexVectorDim := 1
  wf := scatter_S4096x12_S475136x1_S475136x12_1_0_0_1_wf
def scatter_S4096x1_S475136x1_S475136x1_1_0_0_1 : ScatterDims S4096x1 S475136x1 S475136x1 where
  updateWindowDims := [1]
  insertedWindowDims := [0]
  scatterDimsToOperandDims := [0]
  indexVectorDim := 1
  wf := scatter_S4096x1_S475136x1_S475136x1_1_0_0_1_wf
def scatter_S4096x10_S13303808x1_S13303808x10_1_0_0_1 : ScatterDims S4096x10 S13303808x1 S13303808x10 where
  updateWindowDims := [1]
  insertedWindowDims := [0]
  scatterDimsToOperandDims := [0]
  indexVectorDim := 1
  wf := scatter_S4096x10_S13303808x1_S13303808x10_1_0_0_1_wf
def scatter_S4096x1_S13303808x1_S13303808x1_1_0_0_1 : ScatterDims S4096x1 S13303808x1 S13303808x1 where
  updateWindowDims := [1]
  insertedWindowDims := [0]
  scatterDimsToOperandDims := [0]
  indexVectorDim := 1
  wf := scatter_S4096x1_S13303808x1_S13303808x1_1_0_0_1_wf
def dot_S4096x23_S23x2_S4096x2_1_0_0_1_n_n : DotDims S4096x23 S23x2 S4096x2 where
  lhsContracting := [1]
  rhsContracting := [0]
  lhsNonContracting := [0]
  rhsNonContracting := [1]
  lhsBatch := []
  rhsBatch := []
  wf := dot_S4096x23_S23x2_S4096x2_1_0_0_1_n_n_wf

abbrev win0_0 : Pipeline.Window sig grid0 :=
  Pipeline.Window.ofSpec (Memref.whole main_v10) S65536x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S65536x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65536x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg20) S2x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_0) S65536x2.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_1) S65536x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v26) S16384x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16384x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S16384x3.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S65536x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S65536x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23_0) S65536x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S3x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S3x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg22) S3x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48_0) S65536x3.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v48_1) S65536x3.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v51) S16384x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S16384x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S3x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S3x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S16384x3.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S65536x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S65536x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48_0) S65536x3.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68) S3x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S3x4.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S3x4.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S1x4.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg24) S4x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v72) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v73_0) S65536x4.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v73_1) S65536x3.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v76) S16384x3.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S16384x3.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S3x5.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x5.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S3x5.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S16384x5.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S475136x1 : Shape := ⟨2, ![475136, 1]⟩
abbrev S2x13303808 : Shape := ⟨2, ![2, 13303808]⟩
abbrev S13303808x1 : Shape := ⟨2, ![13303808, 1]⟩
abbrev S4096x1 : Shape := ⟨2, ![4096, 1]⟩
abbrev S475136 : Shape := ⟨1, ![475136]⟩
abbrev S1x3 : Shape := ⟨2, ![1, 3]⟩
abbrev S3 : Shape := ⟨1, ![3]⟩
abbrev S3x3 : Shape := ⟨2, ![3, 3]⟩
abbrev S3x5 : Shape := ⟨2, ![3, 5]⟩
abbrev S5 : Shape := ⟨1, ![5]⟩
abbrev S3x2 : Shape := ⟨2, ![3, 2]⟩
abbrev S2 : Shape := ⟨1, ![2]⟩
abbrev S8x3 : Shape := ⟨2, ![8, 3]⟩
abbrev S9x4 : Shape := ⟨2, ![9, 4]⟩
abbrev S4 : Shape := ⟨1, ![4]⟩
abbrev S2x1 : Shape := ⟨2, ![2, 1]⟩
abbrev S1 : Shape := ⟨1, ![1]⟩
abbrev S3x1 : Shape := ⟨2, ![3, 1]⟩
abbrev S4x1 : Shape := ⟨2, ![4, 1]⟩
abbrev S23x2 : Shape := ⟨2, ![23, 2]⟩
abbrev S1x13303808 : Shape := ⟨2, ![1, 13303808]⟩
abbrev S13303808 : Shape := ⟨1, ![13303808]⟩
abbrev S_ : Shape := ⟨0, ![]⟩
abbrev S13303808x3 : Shape := ⟨2, ![13303808, 3]⟩
abbrev S13303808x2 : Shape := ⟨2, ![13303808, 2]⟩
abbrev S1x2 : Shape := ⟨2, ![1, 2]⟩
abbrev S1x1 : Shape := ⟨2, ![1, 1]⟩
abbrev S475136x3 : Shape := ⟨2, ![475136, 3]⟩
abbrev S13303808x8 : Shape := ⟨2, ![13303808, 8]⟩
abbrev S13303808x9 : Shape := ⟨2, ![13303808, 9]⟩
abbrev S13303808x4 : Shape := ⟨2, ![13303808, 4]⟩
abbrev S1x4 : Shape := ⟨2, ![1, 4]⟩
abbrev S475136x5 : Shape := ⟨2, ![475136, 5]⟩
abbrev S1x5 : Shape := ⟨2, ![1, 5]⟩
abbrev S475136x12 : Shape := ⟨2, ![475136, 12]⟩
abbrev S13303808x10 : Shape := ⟨2, ![13303808, 10]⟩
abbrev S4096x12 : Shape := ⟨2, ![4096, 12]⟩
abbrev S4096x10 : Shape := ⟨2, ![4096, 10]⟩
abbrev S4096x23 : Shape := ⟨2, ![4096, 23]⟩
abbrev S4096x2 : Shape := ⟨2, ![4096, 2]⟩
abbrev S4096 : Shape := ⟨1, ![4096]⟩

abbrev nBuf : Space → Nat
  | .hbm => 260
  | .vmem => 0
  | .smem => 0
  | _ => 0

abbrev hbmTy0_0 (i : Nat) : BufTy := match i % 128 with
  | 0 => ⟨S475136x1, .f32⟩
  | 1 => ⟨S2x13303808, .i32⟩
  | 2 => ⟨S13303808x1, .f32⟩
  | 3 => ⟨S4096x1, .f32⟩
  | 4 => ⟨S475136, .i32⟩
  | 5 => ⟨S1x3, .f32⟩
  | 6 => ⟨S3, .f32⟩
  | 7 => ⟨S1x3, .f32⟩
  | 8 => ⟨S3x3, .f32⟩
  | 9 => ⟨S3, .f32⟩
  | 10 => ⟨S3x3, .f32⟩
  | 11 => ⟨S3x5, .f32⟩
  | 12 => ⟨S5, .f32⟩
  | 13 => ⟨S3x5, .f32⟩
  | 14 => ⟨S3x2, .f32⟩
  | 15 => ⟨S2, .f32⟩
  | 16 => ⟨S8x3, .f32⟩
  | 17 => ⟨S3, .f32⟩
  | 18 => ⟨S9x4, .f32⟩
  | 19 => ⟨S4, .f32⟩
  | 20 => ⟨S2x1, .f32⟩
  | 21 => ⟨S1, .f32⟩
  | 22 => ⟨S3x1, .f32⟩
  | 23 => ⟨S1, .f32⟩
  | 24 => ⟨S4x1, .f32⟩
  | 25 => ⟨S1, .f32⟩
  | 26 => ⟨S23x2, .f32⟩
  | 27 => ⟨S2, .f32⟩
  | 28 => ⟨S1x13303808, .i32⟩
  | 29 => ⟨S13303808, .i32⟩
  | 30 => ⟨S1x13303808, .i32⟩
  | 31 => ⟨S13303808, .i32⟩
  | 32 => ⟨S_, .i32⟩
  | 33 => ⟨S13303808, .i32⟩
  | 34 => ⟨S13303808, .i1⟩
  | 35 => ⟨S_, .i32⟩
  | 36 => ⟨S13303808, .i32⟩
  | 37 => ⟨S13303808, .i32⟩
  | 38 => ⟨S13303808, .i32⟩
  | 39 => ⟨S13303808x1, .i32⟩
  | 40 => ⟨S13303808x1, .f32⟩
  | 41 => ⟨S_, .i32⟩
  | 42 => ⟨S13303808, .i32⟩
  | 43 => ⟨S13303808, .i1⟩
  | 44 => ⟨S_, .i32⟩
  | 45 => ⟨S13303808, .i32⟩
  | 46 => ⟨S13303808, .i32⟩
  | 47 => ⟨S13303808, .i32⟩
  | 48 => ⟨S13303808x1, .i32⟩
  | 49 => ⟨S13303808x1, .f32⟩
  | 50 => ⟨S13303808x3, .f32⟩
  | 51 => ⟨S13303808x2, .f32⟩
  | 52 => ⟨S1x2, .f32⟩
  | 53 => ⟨S13303808x2, .f32⟩
  | 54 => ⟨S13303808x2, .f32⟩
  | 55 => ⟨S_, .f32⟩
  | 56 => ⟨S13303808x2, .f32⟩
  | 57 => ⟨S13303808x2, .f32⟩
  | 58 => ⟨S13303808x1, .f32⟩
  | 59 => ⟨S1x1, .f32⟩
  | 60 => ⟨S13303808x1, .f32⟩
  | 61 => ⟨S13303808x1, .f32⟩
  | 62 => ⟨S_, .f32⟩
  | 63 => ⟨S13303808x1, .f32⟩
  | 64 => ⟨S13303808x1, .f32⟩
  | 65 => ⟨S_, .i32⟩
  | 66 => ⟨S13303808, .i32⟩
  | 67 => ⟨S13303808, .i1⟩
  | 68 => ⟨S_, .i32⟩
  | 69 => ⟨S13303808, .i32⟩
  | 70 => ⟨S13303808, .i32⟩
  | 71 => ⟨S13303808, .i32⟩
  | 72 => ⟨S13303808x1, .i32⟩
  | 73 => ⟨S13303808x1, .f32⟩
  | 74 => ⟨S13303808x1, .f32⟩
  | 75 => ⟨S_, .f32⟩
  | 76 => ⟨S475136x1, .f32⟩
  | 77 => ⟨S13303808x1, .i32⟩
  | 78 => ⟨S475136x1, .f32⟩
  | 79 => ⟨S475136x3, .f32⟩
  | 80 => ⟨S1x3, .f32⟩
  | 81 => ⟨S475136x3, .f32⟩
  | 82 => ⟨S475136x3, .f32⟩
  | 83 => ⟨S475136x3, .f32⟩
  | 84 => ⟨S475136x3, .f32⟩
  | 85 => ⟨S_, .f32⟩
  | 86 => ⟨S475136x3, .f32⟩
  | 87 => ⟨S475136x3, .f32⟩
  | 88 => ⟨S_, .i32⟩
  | 89 => ⟨S13303808, .i32⟩
  | 90 => ⟨S13303808, .i1⟩
  | 91 => ⟨S_, .i32⟩
  | 92 => ⟨S13303808, .i32⟩
  | 93 => ⟨S13303808, .i32⟩
  | 94 => ⟨S13303808, .i32⟩
  | 95 => ⟨S13303808x1, .i32⟩
  | 96 => ⟨S13303808x3, .f32⟩
  | 97 => ⟨S_, .i32⟩
  | 98 => ⟨S13303808, .i32⟩
  | 99 => ⟨S13303808, .i1⟩
  | 100 => ⟨S_, .i32⟩
  | 101 => ⟨S13303808, .i32⟩
  | 102 => ⟨S13303808, .i32⟩
  | 103 => ⟨S13303808, .i32⟩
  | 104 => ⟨S13303808x1, .i32⟩
  | 105 => ⟨S13303808x3, .f32⟩
  | 106 => ⟨S13303808x8, .f32⟩
  | 107 => ⟨S13303808x3, .f32⟩
  | 108 => ⟨S1x3, .f32⟩
  | 109 => ⟨S13303808x3, .f32⟩
  | 110 => ⟨S13303808x3, .f32⟩
  | 111 => ⟨S_, .f32⟩
  | 112 => ⟨S13303808x3, .f32⟩
  | 113 => ⟨S13303808x3, .f32⟩
  | 114 => ⟨S13303808x1, .f32⟩
  | 115 => ⟨S1x1, .f32⟩
  | 116 => ⟨S13303808x1, .f32⟩
  | 117 => ⟨S13303808x1, .f32⟩
  | 118 => ⟨S_, .f32⟩
  | 119 => ⟨S13303808x1, .f32⟩
  | 120 => ⟨S13303808x1, .f32⟩
  | 121 => ⟨S_, .i32⟩
  | 122 => ⟨S13303808, .i32⟩
  | 123 => ⟨S13303808, .i1⟩
  | 124 => ⟨S_, .i32⟩
  | 125 => ⟨S13303808, .i32⟩
  | 126 => ⟨S13303808, .i32⟩
  | 127 => ⟨S13303808, .i32⟩
  | _ => ⟨S475136x1, .f32⟩

abbrev hbmTy0_1 (i : Nat) : BufTy := match i % 128 with
  | 0 => ⟨S13303808x1, .i32⟩
  | 1 => ⟨S13303808x3, .f32⟩
  | 2 => ⟨S13303808x3, .f32⟩
  | 3 => ⟨S13303808x3, .f32⟩
  | 4 => ⟨S_, .f32⟩
  | 5 => ⟨S475136x3, .f32⟩
  | 6 => ⟨S13303808x1, .i32⟩
  | 7 => ⟨S475136x3, .f32⟩
  | 8 => ⟨S475136x3, .f32⟩
  | 9 => ⟨S1x3, .f32⟩
  | 10 => ⟨S475136x3, .f32⟩
  | 11 => ⟨S475136x3, .f32⟩
  | 12 => ⟨S475136x3, .f32⟩
  | 13 => ⟨S475136x3, .f32⟩
  | 14 => ⟨S_, .f32⟩
  | 15 => ⟨S475136x3, .f32⟩
  | 16 => ⟨S475136x3, .f32⟩
  | 17 => ⟨S_, .i32⟩
  | 18 => ⟨S13303808, .i32⟩
  | 19 => ⟨S13303808, .i1⟩
  | 20 => ⟨S_, .i32⟩
  | 21 => ⟨S13303808, .i32⟩
  | 22 => ⟨S13303808, .i32⟩
  | 23 => ⟨S13303808, .i32⟩
  | 24 => ⟨S13303808x1, .i32⟩
  | 25 => ⟨S13303808x3, .f32⟩
  | 26 => ⟨S_, .i32⟩
  | 27 => ⟨S13303808, .i32⟩
  | 28 => ⟨S13303808, .i1⟩
  | 29 => ⟨S_, .i32⟩
  | 30 => ⟨S13303808, .i32⟩
  | 31 => ⟨S13303808, .i32⟩
  | 32 => ⟨S13303808, .i32⟩
  | 33 => ⟨S13303808x1, .i32⟩
  | 34 => ⟨S13303808x3, .f32⟩
  | 35 => ⟨S13303808x9, .f32⟩
  | 36 => ⟨S13303808x4, .f32⟩
  | 37 => ⟨S1x4, .f32⟩
  | 38 => ⟨S13303808x4, .f32⟩
  | 39 => ⟨S13303808x4, .f32⟩
  | 40 => ⟨S13303808x1, .f32⟩
  | 41 => ⟨S1x1, .f32⟩
  | 42 => ⟨S13303808x1, .f32⟩
  | 43 => ⟨S13303808x1, .f32⟩
  | 44 => ⟨S_, .f32⟩
  | 45 => ⟨S13303808x1, .f32⟩
  | 46 => ⟨S13303808x1, .f32⟩
  | 47 => ⟨S_, .i32⟩
  | 48 => ⟨S13303808, .i32⟩
  | 49 => ⟨S13303808, .i1⟩
  | 50 => ⟨S_, .i32⟩
  | 51 => ⟨S13303808, .i32⟩
  | 52 => ⟨S13303808, .i32⟩
  | 53 => ⟨S13303808, .i32⟩
  | 54 => ⟨S13303808x1, .i32⟩
  | 55 => ⟨S13303808x3, .f32⟩
  | 56 => ⟨S13303808x3, .f32⟩
  | 57 => ⟨S13303808x3, .f32⟩
  | 58 => ⟨S_, .f32⟩
  | 59 => ⟨S475136x3, .f32⟩
  | 60 => ⟨S13303808x1, .i32⟩
  | 61 => ⟨S475136x3, .f32⟩
  | 62 => ⟨S475136x5, .f32⟩
  | 63 => ⟨S1x5, .f32⟩
  | 64 => ⟨S475136x5, .f32⟩
  | 65 => ⟨S475136x5, .f32⟩
  | 66 => ⟨S475136x5, .f32⟩
  | 67 => ⟨S475136x5, .f32⟩
  | 68 => ⟨S_, .f32⟩
  | 69 => ⟨S475136x5, .f32⟩
  | 70 => ⟨S475136x5, .f32⟩
  | 71 => ⟨S475136x12, .f32⟩
  | 72 => ⟨S13303808x10, .f32⟩
  | 73 => ⟨S_, .i32⟩
  | 74 => ⟨S13303808, .i32⟩
  | 75 => ⟨S13303808, .i1⟩
  | 76 => ⟨S_, .i32⟩
  | 77 => ⟨S13303808, .i32⟩
  | 78 => ⟨S13303808, .i32⟩
  | 79 => ⟨S13303808, .i32⟩
  | 80 => ⟨S13303808x1, .i32⟩
  | 81 => ⟨S13303808, .i32⟩
  | 82 => ⟨S_, .f32⟩
  | 83 => ⟨S4096x12, .f32⟩
  | 84 => ⟨S475136x1, .i32⟩
  | 85 => ⟨S4096x12, .f32⟩
  | 86 => ⟨S_, .f32⟩
  | 87 => ⟨S475136x1, .f32⟩
  | 88 => ⟨S_, .f32⟩
  | 89 => ⟨S4096x1, .f32⟩
  | 90 => ⟨S475136x1, .i32⟩
  | 91 => ⟨S4096x1, .f32⟩
  | 92 => ⟨S_, .f32⟩
  | 93 => ⟨S4096x1, .f32⟩
  | 94 => ⟨S4096x1, .f32⟩
  | 95 => ⟨S4096x12, .f32⟩
  | 96 => ⟨S4096x12, .f32⟩
  | 97 => ⟨S_, .f32⟩
  | 98 => ⟨S4096x10, .f32⟩
  | 99 => ⟨S13303808x1, .i32⟩
  | 100 => ⟨S4096x10, .f32⟩
  | 101 => ⟨S_, .f32⟩
  | 102 => ⟨S13303808x1, .f32⟩
  | 103 => ⟨S_, .f32⟩
  | 104 => ⟨S4096x1, .f32⟩
  | 105 => ⟨S13303808x1, .i32⟩
  | 106 => ⟨S4096x1, .f32⟩
  | 107 => ⟨S_, .f32⟩
  | 108 => ⟨S4096x1, .f32⟩
  | 109 => ⟨S4096x1, .f32⟩
  | 110 => ⟨S4096x10, .f32⟩
  | 111 => ⟨S4096x10, .f32⟩
  | 112 => ⟨S4096x23, .f32⟩
  | 113 => ⟨S4096x2, .f32⟩
  | 114 => ⟨S1x2, .f32⟩
  | 115 => ⟨S4096x2, .f32⟩
  | 116 => ⟨S4096x2, .f32⟩
  | 117 => ⟨S_, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S4096x2, .f32⟩
  | 124 => ⟨S4096x2, .f32⟩
  | 125 => ⟨S4096x2, .f32⟩
  | 126 => ⟨S_, .f32⟩
  | 127 => ⟨S4096, .f32⟩
  | _ => ⟨S475136x1, .f32⟩

abbrev hbmTy0_2 (i : Nat) : BufTy := match i % 128 with
  | 0 => ⟨S4096x1, .f32⟩
  | 1 => ⟨S4096x1, .f32⟩
  | 2 => ⟨S4096x2, .f32⟩
  | 3 => ⟨S4096x2, .f32⟩
  | _ => ⟨S475136x1, .f32⟩

abbrev hbmTy (i : Nat) : BufTy := match i / 128 with
  | 0 => hbmTy0_0 i
  | 1 => hbmTy0_1 i
  | 2 => hbmTy0_2 i
  | _ => ⟨S475136x1, .f32⟩

abbrev bufTy : (tb : Table) → Fin (tcTables nBuf tb) → BufTy
  | .hbm, ⟨i, _⟩ => hbmTy i
  | _, _ => ⟨S475136x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call0_cst : Ref sig .tc := ⟨.hbm, 55, rfl⟩
abbrev main_call0_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_v28 : Ref sig .tc := ⟨.hbm, 64, rfl⟩
abbrev main_c_3 : Ref sig .tc := ⟨.hbm, 65, rfl⟩
abbrev main_v29 : Ref sig .tc := ⟨.hbm, 66, rfl⟩
abbrev main_v30 : Ref sig .tc := ⟨.hbm, 67, rfl⟩
abbrev main_c_4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call2_cst : Ref sig .tc := ⟨.hbm, 85, rfl⟩
abbrev main_call2_v0 : Ref sig .tc := ⟨.hbm, 86, rfl⟩
abbrev main_v46 : Ref sig .tc := ⟨.hbm, 87, rfl⟩
abbrev main_c_5 : Ref sig .tc := ⟨.hbm, 88, rfl⟩
abbrev main_v47 : Ref sig .tc := ⟨.hbm, 89, rfl⟩
abbrev main_v48 : Ref sig .tc := ⟨.hbm, 90, rfl⟩
abbrev main_c_6 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_7 : Ref sig .tc := ⟨.hbm, 97, rfl⟩
abbrev main_v54 : Ref sig .tc := ⟨.hbm, 98, rfl⟩
abbrev main_v55 : Ref sig .tc := ⟨.hbm, 99, rfl⟩
abbrev main_c_8 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_call3_cst : Ref sig .tc := ⟨.hbm, 111, rfl⟩
abbrev main_call3_v0 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call4_cst : Ref sig .tc := ⟨.hbm, 118, rfl⟩
abbrev main_call4_v0 : Ref sig .tc := ⟨.hbm, 119, rfl⟩
abbrev main_v71 : Ref sig .tc := ⟨.hbm, 120, rfl⟩
abbrev main_c_9 : Ref sig .tc := ⟨.hbm, 121, rfl⟩
abbrev main_v72 : Ref sig .tc := ⟨.hbm, 122, rfl⟩
abbrev main_v73 : Ref sig .tc := ⟨.hbm, 123, rfl⟩
abbrev main_c_10 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_11 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_call5_cst : Ref sig .tc := ⟨.hbm, 142, rfl⟩
abbrev main_call5_v0 : Ref sig .tc := ⟨.hbm, 143, rfl⟩
abbrev main_v90 : Ref sig .tc := ⟨.hbm, 144, rfl⟩
abbrev main_c_12 : Ref sig .tc := ⟨.hbm, 145, rfl⟩
abbrev main_v91 : Ref sig .tc := ⟨.hbm, 146, rfl⟩
abbrev main_v92 : Ref sig .tc := ⟨.hbm, 147, rfl⟩
abbrev main_c_13 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_14 : Ref sig .tc := ⟨.hbm, 154, rfl⟩
abbrev main_v98 : Ref sig .tc := ⟨.hbm, 155, rfl⟩
abbrev main_v99 : Ref sig .tc := ⟨.hbm, 156, rfl⟩
abbrev main_c_15 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_call6_cst : Ref sig .tc := ⟨.hbm, 172, rfl⟩
abbrev main_call6_v0 : Ref sig .tc := ⟨.hbm, 173, rfl⟩
abbrev main_v114 : Ref sig .tc := ⟨.hbm, 174, rfl⟩
abbrev main_c_16 : Ref sig .tc := ⟨.hbm, 175, rfl⟩
abbrev main_v115 : Ref sig .tc := ⟨.hbm, 176, rfl⟩
abbrev main_v116 : Ref sig .tc := ⟨.hbm, 177, rfl⟩
abbrev main_c_17 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_18 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_call7_cst : Ref sig .tc := ⟨.hbm, 196, rfl⟩
abbrev main_call7_v0 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_c_19 : Ref sig .tc := ⟨.hbm, 201, rfl⟩
abbrev main_v136 : Ref sig .tc := ⟨.hbm, 202, rfl⟩
abbrev main_v137 : Ref sig .tc := ⟨.hbm, 203, rfl⟩
abbrev main_c_20 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_21 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_22 : Ref sig .tc := ⟨.hbm, 214, rfl⟩
abbrev main_v146 : Ref sig .tc := ⟨.hbm, 215, rfl⟩
abbrev main_cst_23 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_24 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_cst_25 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_cst_26 : Ref sig .tc := ⟨.hbm, 229, rfl⟩
abbrev main_v157 : Ref sig .tc := ⟨.hbm, 230, rfl⟩
abbrev main_cst_27 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_28 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_call8_cst : Ref sig .tc := ⟨.hbm, 245, rfl⟩
abbrev main_call8_v0 : Ref sig .tc := ⟨.hbm, 246, rfl⟩
abbrev main_call8_cst_0 : Ref sig .tc := ⟨.hbm, 247, rfl⟩
abbrev main_call8_v1 : Ref sig .tc := ⟨.hbm, 248, rfl⟩
abbrev main_call8_v2 : Ref sig .tc := ⟨.hbm, 249, rfl⟩
abbrev main_call8_v3 : Ref sig .tc := ⟨.hbm, 250, rfl⟩
abbrev main_call8_v4 : Ref sig .tc := ⟨.hbm, 251, rfl⟩
abbrev main_call8_v5 : Ref sig .tc := ⟨.hbm, 252, rfl⟩
abbrev main_call8_v6 : Ref sig .tc := ⟨.hbm, 253, rfl⟩
abbrev main_call8_cst_1 : Ref sig .tc := ⟨.hbm, 254, rfl⟩
abbrev main_call8_v7 : Ref sig .tc := ⟨.hbm, 255, rfl⟩
abbrev main_call8_v8 : Ref sig .tc := ⟨.hbm, 256, rfl⟩
abbrev main_call8_v9 : Ref sig .tc := ⟨.hbm, 257, rfl⟩
abbrev main_call8_v10 : Ref sig .tc := ⟨.hbm, 258, rfl⟩
abbrev main_v170 : Ref sig .tc := ⟨.hbm, 259, rfl⟩

abbrev nD : Nat := 1
abbrev τ : Topo := Topo.v7x

variable {F : FTy → Type} [FloatOps F]

class Facts₀ : Prop where
  slices_S2x13303808_S1x13303808_0_0 : S2x13303808.Slices ![0, 0] S1x13303808
  shapeCasts_S1x13303808_S13303808 : S1x13303808.ShapeCasts S13303808
  slices_S2x13303808_S1x13303808_1_0 : S2x13303808.Slices ![1, 0] S1x13303808
  bcast_S_S13303808 : S_.BroadcastsInDim S13303808 (![] : Fin 0 → Fin S13303808.rank)
  bcast_S13303808_S13303808x1_0 : S13303808.BroadcastsInDim S13303808x1 (![0] : Fin 1 → Fin S13303808x1.rank)
  concatenates_S13303808x1_S13303808x1_S13303808x1_S13303808x3_d1 : Shape.Concatenates [S13303808x1, S13303808x1, S13303808x1] S13303808x3 1
  bcast_S2_S1x2_1 : S2.BroadcastsInDim S1x2 (![1] : Fin 1 → Fin S1x2.rank)
  bcast_S1x2_S13303808x2_0_1 : S1x2.BroadcastsInDim S13303808x2 (![0, 1] : Fin 2 → Fin S13303808x2.rank)
  bcast_S_S13303808x2 : S_.BroadcastsInDim S13303808x2 (![] : Fin 0 → Fin S13303808x2.rank)
  bcast_S1_S1x1_1 : S1.BroadcastsInDim S1x1 (![1] : Fin 1 → Fin S1x1.rank)
  bcast_S1x1_S13303808x1_0_1 : S1x1.BroadcastsInDim S13303808x1 (![0, 1] : Fin 2 → Fin S13303808x1.rank)
  bcast_S_S13303808x1 : S_.BroadcastsInDim S13303808x1 (![] : Fin 0 → Fin S13303808x1.rank)
  bcast_S_S475136x1 : S_.BroadcastsInDim S475136x1 (![] : Fin 0 → Fin S475136x1.rank)
  bcast_S3_S1x3_1 : S3.BroadcastsInDim S1x3 (![1] : Fin 1 → Fin S1x3.rank)
  bcast_S1x3_S475136x3_0_1 : S1x3.BroadcastsInDim S475136x3 (![0, 1] : Fin 2 → Fin S475136x3.rank)
  bcast_S_S475136x3 : S_.BroadcastsInDim S475136x3 (![] : Fin 0 → Fin S475136x3.rank)
  concatenates_S13303808x3_S13303808x3_S13303808x2_S13303808x8_d1 : Shape.Concatenates [S13303808x3, S13303808x3, S13303808x2] S13303808x8 1
  bcast_S1x3_S13303808x3_0_1 : S1x3.BroadcastsInDim S13303808x3 (![0, 1] : Fin 2 → Fin S13303808x3.rank)
  bcast_S_S13303808x3 : S_.BroadcastsInDim S13303808x3 (![] : Fin 0 → Fin S13303808x3.rank)
  bcast_S13303808x1_S13303808x3_0_1 : S13303808x1.BroadcastsInDim S13303808x3 (![0, 1] : Fin 2 → Fin S13303808x3.rank)
  concatenates_S13303808x3_S13303808x3_S13303808x3_S13303808x9_d1 : Shape.Concatenates [S13303808x3, S13303808x3, S13303808x3] S13303808x9 1
  bcast_S4_S1x4_1 : S4.BroadcastsInDim S1x4 (![1] : Fin 1 → Fin S1x4.rank)
  bcast_S1x4_S13303808x4_0_1 : S1x4.BroadcastsInDim S13303808x4 (![0, 1] : Fin 2 → Fin S13303808x4.rank)
  bcast_S5_S1x5_1 : S5.BroadcastsInDim S1x5 (![1] : Fin 1 → Fin S1x5.rank)
  bcast_S1x5_S475136x5_0_1 : S1x5.BroadcastsInDim S475136x5 (![0, 1] : Fin 2 → Fin S475136x5.rank)
  bcast_S_S475136x5 : S_.BroadcastsInDim S475136x5 (![] : Fin 0 → Fin S475136x5.rank)
  concatenates_S475136x1_S475136x3_S475136x3_S475136x5_S475136x12_d1 : Shape.Concatenates [S475136x1, S475136x3, S475136x3, S475136x5] S475136x12 1
  concatenates_S13303808x1_S13303808x2_S13303808x3_S13303808x4_S13303808x10_d1 : Shape.Concatenates [S13303808x1, S13303808x2, S13303808x3, S13303808x4] S13303808x10 1
  bcast_S_S4096x12 : S_.BroadcastsInDim S4096x12 (![] : Fin 0 → Fin S4096x12.rank)
  bcast_S475136_S475136x1_0 : S475136.BroadcastsInDim S475136x1 (![0] : Fin 1 → Fin S475136x1.rank)
  bcast_S_S4096x1 : S_.BroadcastsInDim S4096x1 (![] : Fin 0 → Fin S4096x1.rank)
  bcast_S4096x1_S4096x12_0_1 : S4096x1.BroadcastsInDim S4096x12 (![0, 1] : Fin 2 → Fin S4096x12.rank)
  bcast_S_S4096x10 : S_.BroadcastsInDim S4096x10 (![] : Fin 0 → Fin S4096x10.rank)
  bcast_S4096x1_S4096x10_0_1 : S4096x1.BroadcastsInDim S4096x10 (![0, 1] : Fin 2 → Fin S4096x10.rank)
  concatenates_S4096x12_S4096x10_S4096x1_S4096x23_d1 : Shape.Concatenates [S4096x12, S4096x10, S4096x1] S4096x23 1
  bcast_S1x2_S4096x2_0_1 : S1x2.BroadcastsInDim S4096x2 (![0, 1] : Fin 2 → Fin S4096x2.rank)
  reducesTo_S4096x2_S4096_d1 : S4096x2.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  gather_S475136x1_S13303808x1_S13303808x1_1_0_n_n_0_1_11_wf : GatherDims.WF S475136x1 S13303808x1 S13303808x1 [1] [0] [] [0] [] 1 ![1, 1]
  dot_S13303808x3_S3x2_S13303808x2_1_0_0_1_n_n_wf : DotDims.WF S13303808x3 S3x2 S13303808x2 [1] [0] [0] [1] [] []
  dot_S13303808x2_S2x1_S13303808x1_1_0_0_1_n_n_wf : DotDims.WF S13303808x2 S2x1 S13303808x1 [1] [0] [0] [1] [] []
  scatter_S475136x1_S13303808x1_S13303808x1_1_0_0_1_wf : ScatterDims.WF S475136x1 S13303808x1 S13303808x1 [1] [0] [0] 1
  dot_S475136x1_S1x3_S475136x3_1_0_0_1_n_n_wf : DotDims.WF S475136x1 S1x3 S475136x3 [1] [0] [0] [1] [] []
  gather_S475136x3_S13303808x1_S13303808x3_1_0_n_n_0_1_13_wf : GatherDims.WF S475136x3 S13303808x1 S13303808x3 [1] [0] [] [0] [] 1 ![1, 3]
  dot_S13303808x8_S8x3_S13303808x3_1_0_0_1_n_n_wf : DotDims.WF S13303808x8 S8x3 S13303808x3 [1] [0] [0] [1] [] []
  dot_S13303808x3_S3x1_S13303808x1_1_0_0_1_n_n_wf : DotDims.WF S13303808x3 S3x1 S13303808x1 [1] [0] [0] [1] [] []
  scatter_S475136x3_S13303808x1_S13303808x3_1_0_0_1_wf : ScatterDims.WF S475136x3 S13303808x1 S13303808x3 [1] [0] [0] 1
  dot_S475136x3_S3x3_S475136x3_1_0_0_1_n_n_wf : DotDims.WF S475136x3 S3x3 S475136x3 [1] [0] [0] [1] [] []
  dot_S13303808x9_S9x4_S13303808x4_1_0_0_1_n_n_wf : DotDims.WF S13303808x9 S9x4 S13303808x4 [1] [0] [0] [1] [] []
  dot_S13303808x4_S4x1_S13303808x1_1_0_0_1_n_n_wf : DotDims.WF S13303808x4 S4x1 S13303808x1 [1] [0] [0] [1] [] []
  dot_S475136x3_S3x5_S475136x5_1_0_0_1_n_n_wf : DotDims.WF S475136x3 S3x5 S475136x5 [1] [0] [0] [1] [] []
  gather_S475136_S13303808x1_S13303808_n_0_n_n_0_1_1_wf : GatherDims.WF S475136 S13303808x1 S13303808 [] [0] [] [0] [] 1 ![1]
  scatter_S4096x12_S475136x1_S475136x12_1_0_0_1_wf : ScatterDims.WF S4096x12 S475136x1 S475136x12 [1] [0] [0] 1
  scatter_S4096x1_S475136x1_S475136x1_1_0_0_1_wf : ScatterDims.WF S4096x1 S475136x1 S475136x1 [1] [0] [0] 1
  scatter_S4096x10_S13303808x1_S13303808x10_1_0_0_1_wf : ScatterDims.WF S4096x10 S13303808x1 S13303808x10 [1] [0] [0] 1
  scatter_S4096x1_S13303808x1_S13303808x1_1_0_0_1_wf : ScatterDims.WF S4096x1 S13303808x1 S13303808x1 [1] [0] [0] 1
  dot_S4096x23_S23x2_S4096x2_1_0_0_1_n_n_wf : DotDims.WF S4096x23 S23x2 S4096x2 [1] [0] [0] [1] [] []

variable [Facts₀]

def gather_S475136x1_S13303808x1_S13303808x1_1_0_n_n_0_1_11 : GatherDims S475136x1 S13303808x1 S13303808x1 where
  offsetDims := [1]
  collapsedSliceDims := [0]
  operandBatchingDims := []
  startIndicesBatchingDims := []
  startIndexMap := [0]
  indexVectorDim := 1
  sliceSizes := ![1, 1]
  wf := gather_S475136x1_S13303808x1_S13303808x1_1_0_n_n_0_1_11_wf
def dot_S13303808x3_S3x2_S13303808x2_1_0_0_1_n_n : DotDims S13303808x3 S3x2 S13303808x2 where
  lhsContracting := [1]
  rhsContracting := [0]
  lhsNonContracting := [0]
  rhsNonContracting := [1]
  lhsBatch := []
  rhsBatch := []
  wf := dot_S13303808x3_S3x2_S13303808x2_1_0_0_1_n_n_wf
def dot_S13303808x2_S2x1_S13303808x1_1_0_0_1_n_n : DotDims S13303808x2 S2x1 S13303808x1 where
  lhsContracting := [1]
  rhsContracting := [0]
  lhsNonContracting := [0]
  rhsNonContracting := [1]
  lhsBatch := []
  rhsBatch := []
  wf := dot_S13303808x2_S2x1_S13303808x1_1_0_0_1_n_n_wf
def scatter_S475136x1_S13303808x1_S13303808x1_1_0_0_1 : ScatterDims S475136x1 S13303808x1 S13303808x1 where
  updateWindowDims := [1]
  insertedWindowDims := [0]
  scatterDimsToOperandDims := [0]
  indexVectorDim := 1
  wf := scatter_S475136x1_S13303808x1_S13303808x1_1_0_0_1_wf
def dot_S475136x1_S1x3_S475136x3_1_0_0_1_n_n : DotDims S475136x1 S1x3 S475136x3 where
  lhsContracting := [1]
  rhsContracting := [0]
  lhsNonContracting := [0]
  rhsNonContracting := [1]
  lhsBatch := []
  rhsBatch := []
  wf := dot_S475136x1_S1x3_S475136x3_1_0_0_1_n_n_wf
def gather_S475136x3_S13303808x1_S13303808x3_1_0_n_n_0_1_13 : GatherDims S475136x3 S13303808x1 S13303808x3 where
  offsetDims := [1]
  collapsedSliceDims := [0]
  operandBatchingDims := []
  startIndicesBatchingDims := []
  startIndexMap := [0]
  indexVectorDim := 1
  sliceSizes := ![1, 3]
  wf := gather_S475136x3_S13303808x1_S13303808x3_1_0_n_n_0_1_13_wf
def dot_S13303808x8_S8x3_S13303808x3_1_0_0_1_n_n : DotDims S13303808x8 S8x3 S13303808x3 where
  lhsContracting := [1]
  rhsContracting := [0]
  lhsNonContracting := [0]
  rhsNonContracting := [1]
  lhsBatch := []
  rhsBatch := []
  wf := dot_S13303808x8_S8x3_S13303808x3_1_0_0_1_n_n_wf
def dot_S13303808x3_S3x1_S13303808x1_1_0_0_1_n_n : DotDims S13303808x3 S3x1 S13303808x1 where
  lhsContracting := [1]
  rhsContracting := [0]
  lhsNonContracting := [0]
  rhsNonContracting := [1]
  lhsBatch := []
  rhsBatch := []
  wf := dot_S13303808x3_S3x1_S13303808x1_1_0_0_1_n_n_wf
def scatter_S475136x3_S13303808x1_S13303808x3_1_0_0_1 : ScatterDims S475136x3 S13303808x1 S13303808x3 where
  updateWindowDims := [1]
  insertedWindowDims := [0]
  scatterDimsToOperandDims := [0]
  indexVectorDim := 1
  wf := scatter_S475136x3_S13303808x1_S13303808x3_1_0_0_1_wf
def dot_S475136x3_S3x3_S475136x3_1_0_0_1_n_n : DotDims S475136x3 S3x3 S475136x3 where
  lhsContracting := [1]
  rhsContracting := [0]
  lhsNonContracting := [0]
  rhsNonContracting := [1]
  lhsBatch := []
  rhsBatch := []
  wf := dot_S475136x3_S3x3_S475136x3_1_0_0_1_n_n_wf
def dot_S13303808x9_S9x4_S13303808x4_1_0_0_1_n_n : DotDims S13303808x9 S9x4 S13303808x4 where
  lhsContracting := [1]
  rhsContracting := [0]
  lhsNonContracting := [0]
  rhsNonContracting := [1]
  lhsBatch := []
  rhsBatch := []
  wf := dot_S13303808x9_S9x4_S13303808x4_1_0_0_1_n_n_wf
def dot_S13303808x4_S4x1_S13303808x1_1_0_0_1_n_n : DotDims S13303808x4 S4x1 S13303808x1 where
  lhsContracting := [1]
  rhsContracting := [0]
  lhsNonContracting := [0]
  rhsNonContracting := [1]
  lhsBatch := []
  rhsBatch := []
  wf := dot_S13303808x4_S4x1_S13303808x1_1_0_0_1_n_n_wf
def dot_S475136x3_S3x5_S475136x5_1_0_0_1_n_n : DotDims S475136x3 S3x5 S475136x5 where
  lhsContracting := [1]
  rhsContracting := [0]
  lhsNonContracting := [0]
  rhsNonContracting := [1]
  lhsBatch := []
  rhsBatch := []
  wf := dot_S475136x3_S3x5_S475136x5_1_0_0_1_n_n_wf
def gather_S475136_S13303808x1_S13303808_n_0_n_n_0_1_1 : GatherDims S475136 S13303808x1 S13303808 where
  offsetDims := []
  collapsedSliceDims := [0]
  operandBatchingDims := []
  startIndicesBatchingDims := []
  startIndexMap := [0]
  indexVectorDim := 1
  sliceSizes := ![1]
  wf := gather_S475136_S13303808x1_S13303808_n_0_n_n_0_1_1_wf
def scatter_S4096x12_S475136x1_S475136x12_1_0_0_1 : ScatterDims S4096x12 S475136x1 S475136x12 where
  updateWindowDims := [1]
  insertedWindowDims := [0]
  scatterDimsToOperandDims := [0]
  indexVectorDim := 1
  wf := scatter_S4096x12_S475136x1_S475136x12_1_0_0_1_wf
def scatter_S4096x1_S475136x1_S475136x1_1_0_0_1 : ScatterDims S4096x1 S475136x1 S475136x1 where
  updateWindowDims := [1]
  insertedWindowDims := [0]
  scatterDimsToOperandDims := [0]
  indexVectorDim := 1
  wf := scatter_S4096x1_S475136x1_S475136x1_1_0_0_1_wf
def scatter_S4096x10_S13303808x1_S13303808x10_1_0_0_1 : ScatterDims S4096x10 S13303808x1 S13303808x10 where
  updateWindowDims := [1]
  insertedWindowDims := [0]
  scatterDimsToOperandDims := [0]
  indexVectorDim := 1
  wf := scatter_S4096x10_S13303808x1_S13303808x10_1_0_0_1_wf
def scatter_S4096x1_S13303808x1_S13303808x1_1_0_0_1 : ScatterDims S4096x1 S13303808x1 S13303808x1 where
  updateWindowDims := [1]
  insertedWindowDims := [0]
  scatterDimsToOperandDims := [0]
  indexVectorDim := 1
  wf := scatter_S4096x1_S13303808x1_S13303808x1_1_0_0_1_wf
def dot_S4096x23_S23x2_S4096x2_1_0_0_1_n_n : DotDims S4096x23 S23x2 S4096x2 where
  lhsContracting := [1]
  rhsContracting := [0]
  lhsNonContracting := [0]
  rhsNonContracting := [1]
  lhsBatch := []
  rhsBatch := []
  wf := dot_S4096x23_S23x2_S4096x2_1_0_0_1_n_n_wf

class Facts : Prop extends Facts₀ where

variable [Facts]
-- ==== Proof.K.Region0.lean ====
import proofs.«423123_j317827579936_1_alg».proof.Proof.Gen.Kernel.Launch
import proofs.«423123_j317827579936_1_alg».proof.Proof.Gen.Kernel.Skeleton
import proofs.«423123_j317827579936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S65536x1
local notation "𝕚0" => inb_S65536x1_S65536x1_0_0
local notation "𝕊1" => S65536x1
local notation "𝕚1" => inb_S65536x1_S65536x1_0_0
local notation "𝕊2" => S65536x1
local notation "𝕚2" => inb_S65536x1_S65536x1_0_0
local notation "𝕊3" => S1x2
local notation "𝕚3" => inb_S1x2_S1x2_0_0
local notation "𝕊4" => S1x2
local notation "𝕚4" => inb_S1x2_S1x2_0_0
local notation "𝕊5" => S1x2
local notation "𝕚5" => inb_S1x2_S1x2_0_0
local notation "𝕊6" => S1x2
local notation "𝕚6" => inb_S1x2_S1x2_0_0
local notation "𝕊7" => S2x1
local notation "𝕚7" => inb_S2x1_S2x1_0_0
local notation "𝕊8" => S1x1
local notation "𝕚8" => inb_S1x1_S1x1_0_0
local notation "𝕊9" => S65536x2
local notation "𝕚9" => inb_S65536x2_S65536x2_0_0
local notation "𝕊10" => S65536x1
local notation "𝕚10" => inb_S65536x1_S65536x1_0_0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_w0 : Rect 𝕊0 := Rect.unit (s := 𝕊0) ![0, 0] (𝕊0).size 𝕚0
abbrev r0_w1 : Rect 𝕊1 := Rect.unit (s := 𝕊1) ![0, 0] (𝕊1).size 𝕚1
abbrev r0_w2 : Rect 𝕊2 := Rect.unit (s := 𝕊2) ![0, 0] (𝕊2).size 𝕚2
abbrev r0_w3 : Rect 𝕊3 := Rect.unit (s := 𝕊3) ![0, 0] (𝕊3).size 𝕚3
abbrev r0_w4 : Rect 𝕊4 := Rect.unit (s := 𝕊4) ![0, 0] (𝕊4).size 𝕚4
abbrev r0_w5 : Rect 𝕊5 := Rect.unit (s := 𝕊5) ![0, 0] (𝕊5).size 𝕚5
abbrev r0_w6 : Rect 𝕊6 := Rect.unit (s := 𝕊6) ![0, 0] (𝕊6).size 𝕚6
abbrev r0_w7 : Rect 𝕊7 := Rect.unit (s := 𝕊7) ![0, 0] (𝕊7).size 𝕚7
abbrev r0_w8 : Rect 𝕊8 := Rect.unit (s := 𝕊8) ![0, 0] (𝕊8).size 𝕚8
abbrev r0_w9 : Rect 𝕊9 := Rect.unit (s := 𝕊9) ![0, 0] (𝕊9).size 𝕚9
abbrev r0_w10 : Rect 𝕊10 := Rect.unit (s := 𝕊10) ![0, 0] (𝕊10).size 𝕚10

def out0_9 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊9 .f32 :=
  View.canon [⟨r0_w9, k0_pay2 (View.ld x0 r0_w0) (View.ld x1 r0_w1) (View.ld x2 r0_w2) (View.ld x3 r0_w3) (View.ld x4 r0_w4) (View.ld x5 r0_w5) (View.ld x6 r0_w6)⟩]

theorem cover0_9 (p0 : Vec F 𝕊9 .f32) (y : (𝕊9).Idx) :
    ∃ pc ∈ ([⟨r0_w9, p0⟩] : List (View.Piece (Elt F) 𝕊9 .f32)), y ∈ pc.1.set :=
  View.cover_of_tiled [⟨r0_w9, p0⟩] (𝕊9).size (by rfl) y

def out0_10 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊10 .f32 :=
  View.canon [⟨r0_w10, k0_pay3 (View.ld x0 r0_w0) (View.ld x1 r0_w1) (View.ld x2 r0_w2) (View.ld x3 r0_w3) (View.ld x4 r0_w4) (View.ld x5 r0_w5) (View.ld x6 r0_w6) (View.ld x7 r0_w7) (View.ld x8 r0_w8)⟩]

theorem cover0_10 (p0 : Vec F 𝕊10 .f32) (y : (𝕊10).Idx) :
    ∃ pc ∈ ([⟨r0_w10, p0⟩] : List (View.Piece (Elt F) 𝕊10 .f32)), y ∈ pc.1.set :=
  View.cover_of_tiled [⟨r0_w10, p0⟩] (𝕊10).size (by rfl) y

set_option maxHeartbeats 1000000 in
theorem sound_kernel0 (c : Dev nD) (E : Set ℕ) (i : grid0.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole) (arg7 : Memref sig .tc .vmem 𝕊6 .f32) (harg7 : arg7.IsWhole) (arg8 : Memref sig .tc .vmem 𝕊7 .f32) (harg8 : arg8.IsWhole) (arg9 : Memref sig .tc .vmem 𝕊8 .f32) (harg9 : arg9.IsWhole) (arg10 : Memref sig .tc .vmem 𝕊9 .f32) (harg10 : arg10.IsWhole) (arg11 : Memref sig .tc .vmem 𝕊10 .f32) (harg11 : arg11.IsWhole)
    (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__edge_layer_kernel i arg1 harg1 arg2 harg2 arg3 harg3 arg4 harg4 arg5 harg5 arg6 harg6 arg7 harg7 arg8 harg8 arg9 harg9 arg10 harg10 arg11 harg11) K := by
  simp only [cc0__edge_layer_kernel_eq_skeleton]; unfold cc0__edge_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by dsimp only [dat0]; unfold Dat.blockOf iblk0; try rfl) t d).trans
    (by unfold Dat.fetched Dat.blockOf iblk0; dsimp only [dat0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by dsimp only [dat0]; unfold Dat.blockOf iblk0; try rfl) t d).trans
    (by unfold Dat.fetched Dat.blockOf iblk0; dsimp only [dat0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by dsimp only [dat0]; unfold Dat.blockOf iblk0; try rfl) t d).trans
    (by unfold Dat.fetched Dat.blockOf iblk0; dsimp only [dat0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by dsimp only [dat0]; unfold Dat.blockOf iblk0; try rfl) t d).trans
    (by unfold Dat.fetched Dat.blockOf iblk0; dsimp only [dat0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by dsimp only [dat0]; unfold Dat.blockOf iblk0; try rfl) t d).trans
    (by unfold Dat.fetched Dat.blockOf iblk0; dsimp only [dat0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by dsimp only [dat0]; unfold Dat.blockOf iblk0; try rfl) t d).trans
    (by unfold Dat.fetched Dat.blockOf iblk0; dsimp only [dat0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by dsimp only [dat0]; unfold Dat.blockOf iblk0; try rfl) t d).trans
    (by unfold Dat.fetched Dat.blockOf iblk0; dsimp only [dat0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by dsimp only [dat0]; unfold Dat.blockOf iblk0; try rfl) t d).trans
    (by unfold Dat.fetched Dat.blockOf iblk0; dsimp only [dat0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by dsimp only [dat0]; unfold Dat.blockOf iblk0; try rfl) t d).trans
    (by unfold Dat.fetched Dat.blockOf iblk0; dsimp only [dat0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.K.Region1.lean ====
import proofs.«423123_j317827579936_1_alg».proof.Proof.Gen.Kernel.Launch
import proofs.«423123_j317827579936_1_alg».proof.Proof.Gen.Kernel.Skeleton
import proofs.«423123_j317827579936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S16384x1
local notation "𝕚0" => inb_S16384x1_S16384x1_0_0
local notation "𝕊1" => S16384x1
local notation "𝕚1" => inb_S16384x1_S16384x1_0_0
local notation "𝕊2" => S1x3
local notation "𝕚2" => inb_S1x3_S1x3_0_0
local notation "𝕊3" => S1x3
local notation "𝕚3" => inb_S1x3_S1x3_0_0
local notation "𝕊4" => S1x3
local notation "𝕚4" => inb_S1x3_S1x3_0_0
local notation "𝕊5" => S16384x3
local notation "𝕚5" => inb_S16384x3_S16384x3_0_0

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_w0 : Rect 𝕊0 := Rect.unit (s := 𝕊0) ![0, 0] (𝕊0).size 𝕚0
abbrev r1_w1 : Rect 𝕊1 := Rect.unit (s := 𝕊1) ![0, 0] (𝕊1).size 𝕚1
abbrev r1_w2 : Rect 𝕊2 := Rect.unit (s := 𝕊2) ![0, 0] (𝕊2).size 𝕚2
abbrev r1_w3 : Rect 𝕊3 := Rect.unit (s := 𝕊3) ![0, 0] (𝕊3).size 𝕚3
abbrev r1_w4 : Rect 𝕊4 := Rect.unit (s := 𝕊4) ![0, 0] (𝕊4).size 𝕚4
abbrev r1_w5 : Rect 𝕊5 := Rect.unit (s := 𝕊5) ![0, 0] (𝕊5).size 𝕚5

def out1_5 (x0 : Vec F 𝕊0 .f32) (x1 : Vec F 𝕊1 .f32) (x2 : Vec F 𝕊2 .f32) (x3 : Vec F 𝕊3 .f32) (x4 : Vec F 𝕊4 .f32) : Vec F 𝕊5 .f32 :=
  View.canon [⟨r1_w5, k1_pay1 (View.ld x0 r1_w0) (View.ld x1 r1_w1) (View.ld x2 r1_w2) (View.ld x3 r1_w3) (View.ld x4 r1_w4)⟩]

theorem cover1_5 (p0 : Vec F 𝕊5 .f32) (y : (𝕊5).Idx) :
    ∃ pc ∈ ([⟨r1_w5, p0⟩] : List (View.Piece (Elt F) 𝕊5 .f32)), y ∈ pc.1.set :=
  View.cover_of_tiled [⟨r1_w5, p0⟩] (𝕊5).size (by rfl) y

set_option maxHeartbeats 1000000 in
theorem sound_kernel1 (c : Dev nD) (E : Set ℕ) (i : grid1.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole)
    (x0 : Vec F 𝕊0 .f32) (x1 : Vec F 𝕊1 .f32) (x2 : Vec F 𝕊2 .f32) (x3 : Vec F 𝕊3 .f32) (x4 : Vec F 𝕊4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__node_conv_kernel i arg1 harg1 arg2 harg2 arg3 harg3 arg4 harg4 arg5 harg5 arg6 harg6) K := by
  simp only [cc1__node_conv_kernel_eq_skeleton]; unfold cc1__node_conv_kernel_skel

  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by dsimp only [dat1]; unfold Dat.blockOf iblk1; try rfl) t d).trans
    (by unfold Dat.fetched Dat.blockOf iblk1; dsimp only [dat1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by dsimp only [dat1]; unfold Dat.blockOf iblk1; try rfl) t d).trans
    (by unfold Dat.fetched Dat.blockOf iblk1; dsimp only [dat1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by dsimp only [dat1]; unfold Dat.blockOf iblk1; try rfl) t d).trans
    (by unfold Dat.fetched Dat.blockOf iblk1; dsimp only [dat1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by dsimp only [dat1]; unfold Dat.blockOf iblk1; try rfl) t d).trans
    (by unfold Dat.fetched Dat.blockOf iblk1; dsimp only [dat1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by dsimp only [dat1]; unfold Dat.blockOf iblk1; try rfl) t d).trans
    (by unfold Dat.fetched Dat.blockOf iblk1; dsimp only [dat1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.K.Region2.lean ====
import proofs.«423123_j317827579936_1_alg».proof.Proof.Gen.Kernel.Launch
import proofs.«423123_j317827579936_1_alg».proof.Proof.Gen.Kernel.Skeleton
import proofs.«423123_j317827579936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S65536x3
local notation "𝕚0" => inb_S65536x3_S65536x3_0_0
local notation "𝕊1" => S65536x3
local notation "𝕚1" => inb_S65536x3_S65536x3_0_0
local notation "𝕊2" => S65536x2
local notation "𝕚2" => inb_S65536x2_S65536x2_0_0
local notation "𝕊3" => S3x3
local notation "𝕚3" => inb_S3x3_S3x3_0_0
local notation "𝕊4" => S3x3
local notation "𝕚4" => inb_S3x3_S3x3_0_0
local notation "𝕊5" => S2x3
local notation "𝕚5" => inb_S2x3_S2x3_0_0
local notation "𝕊6" => S1x3
local notation "𝕚6" => inb_S1x3_S1x3_0_0
local notation "𝕊7" => S3x1
local notation "𝕚7" => inb_S3x1_S3x1_0_0
local notation "𝕊8" => S1x1
local notation "𝕚8" => inb_S1x1_S1x1_0_0
local notation "𝕊9" => S65536x3
local notation "𝕚9" => inb_S65536x3_S65536x3_0_0
local notation "𝕊10" => S65536x3
local notation "𝕚10" => inb_S65536x3_S65536x3_0_0

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_w0 : Rect 𝕊0 := Rect.unit (s := 𝕊0) ![0, 0] (𝕊0).size 𝕚0
abbrev r2_w1 : Rect 𝕊1 := Rect.unit (s := 𝕊1) ![0, 0] (𝕊1).size 𝕚1
abbrev r2_w2 : Rect 𝕊2 := Rect.unit (s := 𝕊2) ![0, 0] (𝕊2).size 𝕚2
abbrev r2_w3 : Rect 𝕊3 := Rect.unit (s := 𝕊3) ![0, 0] (𝕊3).size 𝕚3
abbrev r2_w4 : Rect 𝕊4 := Rect.unit (s := 𝕊4) ![0, 0] (𝕊4).size 𝕚4
abbrev r2_w5 : Rect 𝕊5 := Rect.unit (s := 𝕊5) ![0, 0] (𝕊5).size 𝕚5
abbrev r2_w6 : Rect 𝕊6 := Rect.unit (s := 𝕊6) ![0, 0] (𝕊6).size 𝕚6
abbrev r2_w7 : Rect 𝕊7 := Rect.unit (s := 𝕊7) ![0, 0] (𝕊7).size 𝕚7
abbrev r2_w8 : Rect 𝕊8 := Rect.unit (s := 𝕊8) ![0, 0] (𝕊8).size 𝕚8
abbrev r2_w9 : Rect 𝕊9 := Rect.unit (s := 𝕊9) ![0, 0] (𝕊9).size 𝕚9
abbrev r2_w10 : Rect 𝕊10 := Rect.unit (s := 𝕊10) ![0, 0] (𝕊10).size 𝕚10

def out2_9 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊9 .f32 :=
  View.canon [⟨r2_w9, k2_pay2 (View.ld x0 r2_w0) (View.ld x1 r2_w1) (View.ld x2 r2_w2) (View.ld x3 r2_w3) (View.ld x4 r2_w4) (View.ld x5 r2_w5) (View.ld x6 r2_w6)⟩]

theorem cover2_9 (p0 : Vec F 𝕊9 .f32) (y : (𝕊9).Idx) :
    ∃ pc ∈ ([⟨r2_w9, p0⟩] : List (View.Piece (Elt F) 𝕊9 .f32)), y ∈ pc.1.set :=
  View.cover_of_tiled [⟨r2_w9, p0⟩] (𝕊9).size (by rfl) y

def out2_10 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊10 .f32 :=
  View.canon [⟨r2_w10, k2_pay3 (View.ld x0 r2_w0) (View.ld x1 r2_w1) (View.ld x2 r2_w2) (View.ld x3 r2_w3) (View.ld x4 r2_w4) (View.ld x5 r2_w5) (View.ld x6 r2_w6) (View.ld x7 r2_w7) (View.ld x8 r2_w8)⟩]

theorem cover2_10 (p0 : Vec F 𝕊10 .f32) (y : (𝕊10).Idx) :
    ∃ pc ∈ ([⟨r2_w10, p0⟩] : List (View.Piece (Elt F) 𝕊10 .f32)), y ∈ pc.1.set :=
  View.cover_of_tiled [⟨r2_w10, p0⟩] (𝕊10).size (by rfl) y

set_option maxHeartbeats 1000000 in
theorem sound_kernel2 (c : Dev nD) (E : Set ℕ) (i : grid2.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole) (arg7 : Memref sig .tc .vmem 𝕊6 .f32) (harg7 : arg7.IsWhole) (arg8 : Memref sig .tc .vmem 𝕊7 .f32) (harg8 : arg8.IsWhole) (arg9 : Memref sig .tc .vmem 𝕊8 .f32) (harg9 : arg9.IsWhole) (arg10 : Memref sig .tc .vmem 𝕊9 .f32) (harg10 : arg10.IsWhole) (arg11 : Memref sig .tc .vmem 𝕊10 .f32) (harg11 : arg11.IsWhole)
    (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8) ∗ owns (c : Thread nD τ) arg11 fullShare (out2_10 x0 x1 x2 x3 x4 x5 x6 x7 x8)) -∗ K ⟨⟩))
      ⊢ wp frame (wpE (defs₀ (F := F)) Variants.none c none) E (cc2__edge_layer_kernel i arg1 harg1 arg2 harg2 arg3 harg3 arg4 harg4 arg5 harg5 arg6 harg6 arg7 harg7 arg8 harg8 arg9 harg9 arg10 harg10 arg11 harg11) K := by
  simp only [cc2__edge_layer_kernel_eq_skeleton]; unfold cc2__edge_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover2_9 _)
  iexists _; isplitr
  swap; · iexact H10
  ipureintro
  try dsimp only
  exact View.read_writes_eq_canon _ _ _ (cover2_10 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by dsimp only [dat2]; unfold Dat.blockOf iblk2; try rfl) t d).trans
    (by unfold Dat.fetched Dat.blockOf iblk2; dsimp only [dat2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by dsimp only [dat2]; unfold Dat.blockOf iblk2; try rfl) t d).trans
    (by unfold Dat.fetched Dat.blockOf iblk2; dsimp only [dat2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by dsimp only [dat2]; unfold Dat.blockOf iblk2; try rfl) t d).trans
    (by unfold Dat.fetched Dat.blockOf iblk2; dsimp only [dat2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by dsimp only [dat2]; unfold Dat.blockOf iblk2; try rfl) t d).trans
    (by unfold Dat.fetched Dat.blockOf iblk2; dsimp only [dat2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by dsimp only [dat2]; unfold Dat.blockOf iblk2; try rfl) t d).trans
    (by unfold Dat.fetched Dat.blockOf iblk2; dsimp only [dat2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by dsimp only [dat2]; unfold Dat.blockOf iblk2; try rfl) t d).trans
    (by unfold Dat.fetched Dat.blockOf iblk2; dsimp only [dat2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by dsimp only [dat2]; unfold Dat.blockOf iblk2; try rfl) t d).trans
    (by unfold Dat.fetched Dat.blockOf iblk2; dsimp only [dat2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by dsimp only [dat2]; unfold Dat.blockOf iblk2; try rfl) t d).trans
    (by unfold Dat.fetched Dat.blockOf iblk2; dsimp only [dat2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by dsimp only [dat2]; unfold Dat.blockOf iblk2; try rfl) t d).trans
    (by unfold Dat.fetched Dat.blockOf iblk2; dsimp only [dat2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.K.Region3.lean ====
import proofs.«423123_j317827579936_1_alg».proof.Proof.Gen.Kernel.Launch
import proofs.«423123_j317827579936_1_alg».proof.Proof.Gen.Kernel.Skeleton
import proofs.«423123_j317827579936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S16384x3
local notation "𝕚0" => inb_S16384x3_S16384x3_0_0
local notation "𝕊1" => S16384x3
local notation "𝕚1" => inb_S16384x3_S16384x3_0_0
local notation "𝕊2" => S3x3
local notation "𝕚2" => inb_S3x3_S3x3_0_0
local notation "𝕊3" => S1x3
local notation "𝕚3" => inb_S1x3_S1x3_0_0
local notation "𝕊4" => S3x3
local notation "𝕚4" => inb_S3x3_S3x3_0_0
local notation "𝕊5" => S16384x3
local notation "𝕚5" => inb_S16384x3_S16384x3_0_0

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_w0 : Rect 𝕊0 := Rect.unit (s := 𝕊0) ![0, 0] (𝕊0).size 𝕚0
abbrev r3_w1 : Rect 𝕊1 := Rect.unit (s := 𝕊1) ![0, 0] (𝕊1).size 𝕚1
abbrev r3_w2 : Rect 𝕊2 := Rect.unit (s := 𝕊2) ![0, 0] (𝕊2).size 𝕚2
abbrev r3_w3 : Rect 𝕊3 := Rect.unit (s := 𝕊3) ![0, 0] (𝕊3).size 𝕚3
abbrev r3_w4 : Rect 𝕊4 := Rect.unit (s := 𝕊4) ![0, 0] (𝕊4).size 𝕚4
abbrev r3_w5 : Rect 𝕊5 := Rect.unit (s := 𝕊5) ![0, 0] (𝕊5).size 𝕚5

def out3_5 (x0 : Vec F 𝕊0 .f32) (x1 : Vec F 𝕊1 .f32) (x2 : Vec F 𝕊2 .f32) (x3 : Vec F 𝕊3 .f32) (x4 : Vec F 𝕊4 .f32) : Vec F 𝕊5 .f32 :=
  View.canon [⟨r3_w5, k3_pay1 (View.ld x0 r3_w0) (View.ld x1 r3_w1) (View.ld x2 r3_w2) (View.ld x3 r3_w3) (View.ld x4 r3_w4)⟩]

theorem cover3_5 (p0 : Vec F 𝕊5 .f32) (y : (𝕊5).Idx) :
    ∃ pc ∈ ([⟨r3_w5, p0⟩] : List (View.Piece (Elt F) 𝕊5 .f32)), y ∈ pc.1.set :=
  View.cover_of_tiled [⟨r3_w5, p0⟩] (𝕊5).size (by rfl) y

set_option maxHeartbeats 1000000 in
theorem sound_kernel3 (c : Dev nD) (E : Set ℕ) (i : grid3.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole)
    (x0 : Vec F 𝕊0 .f32) (x1 : Vec F 𝕊1 .f32) (x2 : Vec F 𝕊2 .f32) (x3 : Vec F 𝕊3 .f32) (x4 : Vec F 𝕊4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__node_conv_kernel i arg1 harg1 arg2 harg2 arg3 harg3 arg4 harg4 arg5 harg5 arg6 harg6) K := by
  simp only [cc3__node_conv_kernel_eq_skeleton]; unfold cc3__node_conv_kernel_skel

  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by dsimp only [dat3]; unfold Dat.blockOf iblk3; try rfl) t d).trans
    (by unfold Dat.fetched Dat.blockOf iblk3; dsimp only [dat3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by dsimp only [dat3]; unfold Dat.blockOf iblk3; try rfl) t d).trans
    (by unfold Dat.fetched Dat.blockOf iblk3; dsimp only [dat3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by dsimp only [dat3]; unfold Dat.blockOf iblk3; try rfl) t d).trans
    (by unfold Dat.fetched Dat.blockOf iblk3; dsimp only [dat3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by dsimp only [dat3]; unfold Dat.blockOf iblk3; try rfl) t d).trans
    (by unfold Dat.fetched Dat.blockOf iblk3; dsimp only [dat3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by dsimp only [dat3]; unfold Dat.blockOf iblk3; try rfl) t d).trans
    (by unfold Dat.fetched Dat.blockOf iblk3; dsimp only [dat3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.K.Region4.lean ====
import proofs.«423123_j317827579936_1_alg».proof.Proof.Gen.Kernel.Launch
import proofs.«423123_j317827579936_1_alg».proof.Proof.Gen.Kernel.Skeleton
import proofs.«423123_j317827579936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S65536x3
local notation "𝕚0" => inb_S65536x3_S65536x3_0_0
local notation "𝕊1" => S65536x3
local notation "𝕚1" => inb_S65536x3_S65536x3_0_0
local notation "𝕊2" => S65536x3
local notation "𝕚2" => inb_S65536x3_S65536x3_0_0
local notation "𝕊3" => S3x4
local notation "𝕚3" => inb_S3x4_S3x4_0_0
local notation "𝕊4" => S3x4
local notation "𝕚4" => inb_S3x4_S3x4_0_0
local notation "𝕊5" => S3x4
local notation "𝕚5" => inb_S3x4_S3x4_0_0
local notation "𝕊6" => S1x4
local notation "𝕚6" => inb_S1x4_S1x4_0_0
local notation "𝕊7" => S4x1
local notation "𝕚7" => inb_S4x1_S4x1_0_0
local notation "𝕊8" => S1x1
local notation "𝕚8" => inb_S1x1_S1x1_0_0
local notation "𝕊9" => S65536x4
local notation "𝕚9" => inb_S65536x4_S65536x4_0_0
local notation "𝕊10" => S65536x3
local notation "𝕚10" => inb_S65536x3_S65536x3_0_0

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_w0 : Rect 𝕊0 := Rect.unit (s := 𝕊0) ![0, 0] (𝕊0).size 𝕚0
abbrev r4_w1 : Rect 𝕊1 := Rect.unit (s := 𝕊1) ![0, 0] (𝕊1).size 𝕚1
abbrev r4_w2 : Rect 𝕊2 := Rect.unit (s := 𝕊2) ![0, 0] (𝕊2).size 𝕚2
abbrev r4_w3 : Rect 𝕊3 := Rect.unit (s := 𝕊3) ![0, 0] (𝕊3).size 𝕚3
abbrev r4_w4 : Rect 𝕊4 := Rect.unit (s := 𝕊4) ![0, 0] (𝕊4).size 𝕚4
abbrev r4_w5 : Rect 𝕊5 := Rect.unit (s := 𝕊5) ![0, 0] (𝕊5).size 𝕚5
abbrev r4_w6 : Rect 𝕊6 := Rect.unit (s := 𝕊6) ![0, 0] (𝕊6).size 𝕚6
abbrev r4_w7 : Rect 𝕊7 := Rect.unit (s := 𝕊7) ![0, 0] (𝕊7).size 𝕚7
abbrev r4_w8 : Rect 𝕊8 := Rect.unit (s := 𝕊8) ![0, 0] (𝕊8).size 𝕚8
abbrev r4_w9 : Rect 𝕊9 := Rect.unit (s := 𝕊9) ![0, 0] (𝕊9).size 𝕚9
abbrev r4_w10 : Rect 𝕊10 := Rect.unit (s := 𝕊10) ![0, 0] (𝕊10).size 𝕚10

def out4_9 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊9 .f32 :=
  View.canon [⟨r4_w9, k4_pay2 (View.ld x0 r4_w0) (View.ld x1 r4_w1) (View.ld x2 r4_w2) (View.ld x3 r4_w3) (View.ld x4 r4_w4) (View.ld x5 r4_w5) (View.ld x6 r4_w6)⟩]

theorem cover4_9 (p0 : Vec F 𝕊9 .f32) (y : (𝕊9).Idx) :
    ∃ pc ∈ ([⟨r4_w9, p0⟩] : List (View.Piece (Elt F) 𝕊9 .f32)), y ∈ pc.1.set :=
  View.cover_of_tiled [⟨r4_w9, p0⟩] (𝕊9).size (by rfl) y

def out4_10 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊10 .f32 :=
  View.canon [⟨r4_w10, k4_pay3 (View.ld x0 r4_w0) (View.ld x1 r4_w1) (View.ld x2 r4_w2) (View.ld x3 r4_w3) (View.ld x4 r4_w4) (View.ld x5 r4_w5) (View.ld x6 r4_w6) (View.ld x7 r4_w7) (View.ld x8 r4_w8)⟩]

theorem cover4_10 (p0 : Vec F 𝕊10 .f32) (y : (𝕊10).Idx) :
    ∃ pc ∈ ([⟨r4_w10, p0⟩] : List (View.Piece (Elt F) 𝕊10 .f32)), y ∈ pc.1.set :=
  View.cover_of_tiled [⟨r4_w10, p0⟩] (𝕊10).size (by rfl) y

set_option maxHeartbeats 1000000 in
theorem sound_kernel4 (c : Dev nD) (E : Set ℕ) (i : grid4.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole) (arg7 : Memref sig .tc .vmem 𝕊6 .f32) (harg7 : arg7.IsWhole) (arg8 : Memref sig .tc .vmem 𝕊7 .f32) (harg8 : arg8.IsWhole) (arg9 : Memref sig .tc .vmem 𝕊8 .f32) (harg9 : arg9.IsWhole) (arg10 : Memref sig .tc .vmem 𝕊9 .f32) (harg10 : arg10.IsWhole) (arg11 : Memref sig .tc .vmem 𝕊10 .f32) (harg11 : arg11.IsWhole)
    (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8) ∗ owns (c : Thread nD τ) arg11 fullShare (out4_10 x0 x1 x2 x3 x4 x5 x6 x7 x8)) -∗ K ⟨⟩))
      ⊢ wp frame (wpE (defs₀ (F := F)) Variants.none c none) E (cc4__edge_layer_kernel i arg1 harg1 arg2 harg2 arg3 harg3 arg4 harg4 arg5 harg5 arg6 harg6 arg7 harg7 arg8 harg8 arg9 harg9 arg10 harg10 arg11 harg11) K := by
  simp only [cc4__edge_layer_kernel_eq_skeleton]; unfold cc4__edge_layer_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by dsimp only [dat4]; unfold Dat.blockOf iblk4; try rfl) t d).trans
    (by unfold Dat.fetched Dat.blockOf iblk4; dsimp only [dat4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by dsimp only [dat4]; unfold Dat.blockOf iblk4; try rfl) t d).trans
    (by unfold Dat.fetched Dat.blockOf iblk4; dsimp only [dat4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by dsimp only [dat4]; unfold Dat.blockOf iblk4; try rfl) t d).trans
    (by unfold Dat.fetched Dat.blockOf iblk4; dsimp only [dat4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by dsimp only [dat4]; unfold Dat.blockOf iblk4; try rfl) t d).trans
    (by unfold Dat.fetched Dat.blockOf iblk4; dsimp only [dat4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by dsimp only [dat4]; unfold Dat.blockOf iblk4; try rfl) t d).trans
    (by unfold Dat.fetched Dat.blockOf iblk4; dsimp only [dat4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by dsimp only [dat4]; unfold Dat.blockOf iblk4; try rfl) t d).trans
    (by unfold Dat.fetched Dat.blockOf iblk4; dsimp only [dat4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by dsimp only [dat4]; unfold Dat.blockOf iblk4; try rfl) t d).trans
    (by unfold Dat.fetched Dat.blockOf iblk4; dsimp only [dat4]; try rfl)
theorem before4_7 (c : Dev nD) (t : Fin cfg4.N) (d) : (dat4 V c).before 7 t d = iblk4 V c 7 t :=
  ((dat4 V c).before_in_eq_fetched 7 rfl (fun _ => rfl) (fun _ _ _ => rfl) (fun t => by dsimp only [dat4]; unfold Dat.blockOf iblk4; try rfl) t d).trans
    (by unfold Dat.fetched Dat.blockOf iblk4; dsimp only [dat4]; try rfl)
theorem before4_8 (c : Dev nD) (t : Fin cfg4.N) (d) : (dat4 V c).before 8 t d = iblk4 V c 8 t :=
  ((dat4 V c).before_in_eq_fetched 8 rfl (fun _ => rfl) (fun _ _ _ => rfl) (fun t => by dsimp only [dat4]; unfold Dat.blockOf iblk4; try rfl) t d).trans
    (by unfold Dat.fetched Dat.blockOf iblk4; dsimp only [dat4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation4 (c : Dev nD) : BodyObligation (dat4 (F := F) V c) (defs₀ (F := F)) Variants.none () Set.univ := fun t => by
  rw [bigSep_W4, bigSep_W4]
  exact sound_body4 V c t

end Cert.Kernel.Run

end
-- ==== Proof.K.Region5.lean ====
import proofs.«423123_j317827579936_1_alg».proof.Proof.Gen.Kernel.Launch
import proofs.«423123_j317827579936_1_alg».proof.Proof.Gen.Kernel.Skeleton
import proofs.«423123_j317827579936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S16384x3
local notation "𝕚0" => inb_S16384x3_S16384x3_0_0
local notation "𝕊1" => S16384x3
local notation "𝕚1" => inb_S16384x3_S16384x3_0_0
local notation "𝕊2" => S3x5
local notation "𝕚2" => inb_S3x5_S3x5_0_0
local notation "𝕊3" => S1x5
local notation "𝕚3" => inb_S1x5_S1x5_0_0
local notation "𝕊4" => S3x5
local notation "𝕚4" => inb_S3x5_S3x5_0_0
local notation "𝕊5" => S16384x5
local notation "𝕚5" => inb_S16384x5_S16384x5_0_0

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_w0 : Rect 𝕊0 := Rect.unit (s := 𝕊0) ![0, 0] (𝕊0).size 𝕚0
abbrev r5_w1 : Rect 𝕊1 := Rect.unit (s := 𝕊1) ![0, 0] (𝕊1).size 𝕚1
abbrev r5_w2 : Rect 𝕊2 := Rect.unit (s := 𝕊2) ![0, 0] (𝕊2).size 𝕚2
abbrev r5_w3 : Rect 𝕊3 := Rect.unit (s := 𝕊3) ![0, 0] (𝕊3).size 𝕚3
abbrev r5_w4 : Rect 𝕊4 := Rect.unit (s := 𝕊4) ![0, 0] (𝕊4).size 𝕚4
abbrev r5_w5 : Rect 𝕊5 := Rect.unit (s := 𝕊5) ![0, 0] (𝕊5).size 𝕚5

def out5_5 (x0 : Vec F 𝕊0 .f32) (x1 : Vec F 𝕊1 .f32) (x2 : Vec F 𝕊2 .f32) (x3 : Vec F 𝕊3 .f32) (x4 : Vec F 𝕊4 .f32) : Vec F 𝕊5 .f32 :=
  View.canon [⟨r5_w5, k5_pay1 (View.ld x0 r5_w0) (View.ld x1 r5_w1) (View.ld x2 r5_w2) (View.ld x3 r5_w3) (View.ld x4 r5_w4)⟩]

theorem cover5_5 (p0 : Vec F 𝕊5 .f32) (y : (𝕊5).Idx) :
    ∃ pc ∈ ([⟨r5_w5, p0⟩] : List (View.Piece (Elt F) 𝕊5 .f32)), y ∈ pc.1.set :=
  View.cover_of_tiled [⟨r5_w5, p0⟩] (𝕊5).size (by rfl) y

set_option maxHeartbeats 1000000 in
theorem sound_kernel5 (c : Dev nD) (E : Set ℕ) (i : grid5.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole)
    (x0 : Vec F 𝕊0 .f32) (x1 : Vec F 𝕊1 .f32) (x2 : Vec F 𝕊2 .f32) (x3 : Vec F 𝕊3 .f32) (x4 : Vec F 𝕊4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__node_conv_kernel i arg1 harg1 arg2 harg2 arg3 harg3 arg4 harg4 arg5 harg5 arg6 harg6) K := by
  simp only [cc5__node_conv_kernel_eq_skeleton]; unfold cc5__node_conv_kernel_skel

  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by dsimp only [dat5]; unfold Dat.blockOf iblk5; try rfl) t d).trans
    (by unfold Dat.fetched Dat.blockOf iblk5; dsimp only [dat5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by dsimp only [dat5]; unfold Dat.blockOf iblk5; try rfl) t d).trans
    (by unfold Dat.fetched Dat.blockOf iblk5; dsimp only [dat5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by dsimp only [dat5]; unfold Dat.blockOf iblk5; try rfl) t d).trans
    (by unfold Dat.fetched Dat.blockOf iblk5; dsimp only [dat5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by dsimp only [dat5]; unfold Dat.blockOf iblk5; try rfl) t d).trans
    (by unfold Dat.fetched Dat.blockOf iblk5; dsimp only [dat5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by dsimp only [dat5]; unfold Dat.blockOf iblk5; try rfl) t d).trans
    (by unfold Dat.fetched Dat.blockOf iblk5; dsimp only [dat5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe

theorem body_obligation5 (c : Dev nD) : BodyObligation (dat5 (F := F) V c) (defs₀ (F := F)) Variants.none () Set.univ := fun t => by
  rw [bigSep_W5, bigSep_W5]
  exact sound_body5 V c t

end Cert.Kernel.Run

end
-- ==== Proof.K.Run.lean ====
import proofs.«423123_j317827579936_1_alg».proof.Proof.K.Region0
import proofs.«423123_j317827579936_1_alg».proof.Proof.K.Region1
import proofs.«423123_j317827579936_1_alg».proof.Proof.K.Region2
import proofs.«423123_j317827579936_1_alg».proof.Proof.K.Region3
import proofs.«423123_j317827579936_1_alg».proof.Proof.K.Region4
import proofs.«423123_j317827579936_1_alg».proof.Proof.K.Region5
import proofs.«423123_j317827579936_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit
variable {cfg : Pipeline.Cfg sig Λ₀} (dat : (c : Dev nD) → Dat τ (Elt F) Unit ℕ (UR sig nD τ) ℕ cfg c) (Win : Dev nD → Valuation τ sig (Elt F))

-- The contents after a region: each of its arrays at its final value, every other buffer unchanged.
def exitW (c : Dev nD) : Valuation τ sig (Elt F) :=
  Pipeline.withArrays cfg.spec c (Win c) fun w => (dat c).arrAt w cfg.N
theorem exitW_arr (hinj : Function.Injective (Pipeline.arrRef cfg.spec)) (c : Dev nD) (w : Fin cfg.W) :
    exitW dat Win c (Proc.devRef .tc (Pipeline.arrRef cfg.spec w)) = (dat c).arrAt w cfg.N :=
  Pipeline.withArrays_arr cfg.spec hinj c _ _ w
theorem exitW_of_ne (c : Dev nD) (b : Ref sig .tc) (hb : ∀ w, Pipeline.arrRef cfg.spec w ≠ b) :
    exitW dat Win c (Proc.devRef .tc b) = Win c (Proc.devRef .tc b) :=
  Pipeline.withArrays_of_ne cfg.spec c _ _ b hb
theorem exitW_rest (c : Dev nD) (b : Ref sig .tc) (hb : b ∉ Finset.univ.image (Pipeline.arrRef cfg.spec)) :
    exitW dat Win c (Proc.devRef .tc b) = Win c (Proc.devRef .tc b) :=
  exitW_of_ne dat Win c b fun w e => hb (Finset.mem_image.mpr ⟨w, Finset.mem_univ _, e⟩)
-- Outside its output arrays a region changes nothing.
theorem exitW_of (hinj : Function.Injective (Pipeline.arrRef cfg.spec))
    (hA : ∀ c w, (dat c).A w = Win c (Proc.devRef .tc (Pipeline.arrRef cfg.spec w))) (outs : List (Ref sig .tc))
    (hout : ∀ w, Pipeline.arrRef cfg.spec w ∉ outs → (cfg.win w).isOut = false) (c : Dev nD) (r : Ref sig .tc) (h : r ∉ outs) :
    exitW dat Win c (Proc.devRef .tc r) = Win c (Proc.devRef .tc r) := by
  by_cases hw : ∃ w, Pipeline.arrRef cfg.spec w = r
  · obtain ⟨w, rfl⟩ := hw
    exact (exitW_arr dat Win hinj c w).trans (((dat c).arrAt_in w (hout w h) _).trans (hA c w))
  · exact exitW_of_ne dat Win c r fun w e => hw ⟨w, e⟩

end Exit

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev Vin0 : (c : Dev nD) → (b : Ref sig .tc) → Buf (Elt F) ((c : Thread nD τ).loc b) := fun c b => W1 m ρ c b

abbrev W2 : Dev nD → Valuation τ sig (Elt F) := exitW (cfg := cfg0) (dat0 (Vin0 m ρ)) (W1 m ρ)
theorem W2_arr (c : Dev nD) (w : Fin cfg0.W) :
    W2 m ρ c (Proc.devRef .tc (Pipeline.arrRef spec0 w)) = (dat0 (Vin0 m ρ) c).arrAt w cfg0.N :=
  exitW_arr _ _ launch0.win.arr_inj c w

abbrev W3 : Dev nD → Valuation τ sig (Elt F) := fun c => StableHlo.after hostOps1 (W2 m ρ c)

abbrev Vin1 : (c : Dev nD) → (b : Ref sig .tc) → Buf (Elt F) ((c : Thread nD τ).loc b) := fun c b => W3 m ρ c b

abbrev W4 : Dev nD → Valuation τ sig (Elt F) := exitW (cfg := cfg1) (dat1 (Vin1 m ρ)) (W3 m ρ)
theorem W4_arr (c : Dev nD) (w : Fin cfg1.W) :
    W4 m ρ c (Proc.devRef .tc (Pipeline.arrRef spec1 w)) = (dat1 (Vin1 m ρ) c).arrAt w cfg1.N :=
  exitW_arr _ _ launch1.win.arr_inj c w

abbrev W5 : Dev nD → Valuation τ sig (Elt F) := fun c => StableHlo.after hostOps2 (W4 m ρ c)

abbrev Vin2 : (c : Dev nD) → (b : Ref sig .tc) → Buf (Elt F) ((c : Thread nD τ).loc b) := fun c b => W5 m ρ c b

abbrev W6 : Dev nD → Valuation τ sig (Elt F) := exitW (cfg := cfg2) (dat2 (Vin2 m ρ)) (W5 m ρ)
theorem W6_arr (c : Dev nD) (w : Fin cfg2.W) :
    W6 m ρ c (Proc.devRef .tc (Pipeline.arrRef spec2 w)) = (dat2 (Vin2 m ρ) c).arrAt w cfg2.N :=
  exitW_arr _ _ launch2.win.arr_inj c w

abbrev W7 : Dev nD → Valuation τ sig (Elt F) := fun c => StableHlo.after hostOps3 (W6 m ρ c)

abbrev Vin3 : (c : Dev nD) → (b : Ref sig .tc) → Buf (Elt F) ((c : Thread nD τ).loc b) := fun c b => W7 m ρ c b

abbrev W8 : Dev nD → Valuation τ sig (Elt F) := exitW (cfg := cfg3) (dat3 (Vin3 m ρ)) (W7 m ρ)
theorem W8_arr (c : Dev nD) (w : Fin cfg3.W) :
    W8 m ρ c (Proc.devRef .tc (Pipeline.arrRef spec3 w)) = (dat3 (Vin3 m ρ) c).arrAt w cfg3.N :=
  exitW_arr _ _ launch3.win.arr_inj c w

abbrev W9 : Dev nD → Valuation τ sig (Elt F) := fun c => StableHlo.after hostOps4 (W8 m ρ c)

abbrev Vin4 : (c : Dev nD) → (b : Ref sig .tc) → Buf (Elt F) ((c : Thread nD τ).loc b) := fun c b => W9 m ρ c b

abbrev W10 : Dev nD → Valuation τ sig (Elt F) := exitW (cfg := cfg4) (dat4 (Vin4 m ρ)) (W9 m ρ)
theorem W10_arr (c : Dev nD) (w : Fin cfg4.W) :
    W10 m ρ c (Proc.devRef .tc (Pipeline.arrRef spec4 w)) = (dat4 (Vin4 m ρ) c).arrAt w cfg4.N :=
  exitW_arr _ _ launch4.win.arr_inj c w

abbrev W11 : Dev nD → Valuation τ sig (Elt F) := fun c => StableHlo.after hostOps5 (W10 m ρ c)

abbrev Vin5 : (c : Dev nD) → (b : Ref sig .tc) → Buf (Elt F) ((c : Thread nD τ).loc b) := fun c b => W11 m ρ c b

abbrev W12 : Dev nD → Valuation τ sig (Elt F) := exitW (cfg := cfg5) (dat5 (Vin5 m ρ)) (W11 m ρ)
theorem W12_arr (c : Dev nD) (w : Fin cfg5.W) :
    W12 m ρ c (Proc.devRef .tc (Pipeline.arrRef spec5 w)) = (dat5 (Vin5 m ρ) c).arrAt w cfg5.N :=
  exitW_arr _ _ launch5.win.arr_inj c w

abbrev W13 : Dev nD → Valuation τ sig (Elt F) := fun c => StableHlo.after hostOps6 (W12 m ρ c)

abbrev W14 : Dev nD → Valuation τ sig (Elt F) := fun c => StableHlo.after hostOps6_1 (W13 m ρ c)

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h
theorem W9_of (c : Dev nD) (r : Ref sig .tc) (h : r ∉ hostOps4_W) : W9 m ρ c r = W8 m ρ c r :=
  StableHlo.after_of_writes_sub hostOps4 _ hostOps4_writes h
theorem W11_of (c : Dev nD) (r : Ref sig .tc) (h : r ∉ hostOps5_W) : W11 m ρ c r = W10 m ρ c r :=
  StableHlo.after_of_writes_sub hostOps5 _ hostOps5_writes h
theorem W13_of (c : Dev nD) (r : Ref sig .tc) (h : r ∉ hostOps6_W) : W13 m ρ c r = W12 m ρ c r :=
  StableHlo.after_of_writes_sub hostOps6 _ hostOps6_writes h
theorem W14_of (c : Dev nD) (r : Ref sig .tc) (h : r ∉ hostOps6_1_W) : W14 m ρ c r = W13 m ρ c r :=
  StableHlo.after_of_writes_sub hostOps6_1 _ hostOps6_1_writes h

theorem W2_of (c : Dev nD) (r : Ref sig .tc) (h : r ∉ ([main_v23_0, main_v23_1] : List (Ref sig .tc))) : W2 m ρ c r = W1 m ρ c r :=
  exitW_of _ _ launch0.win.arr_inj (A_eq0 (Vin0 m ρ)) _ (by decide) c r h

theorem W4_of (c : Dev nD) (r : Ref sig .tc) (h : r ∉ ([main_v28] : List (Ref sig .tc))) : W4 m ρ c r = W3 m ρ c r :=
  exitW_of _ _ launch1.win.arr_inj (A_eq1 (Vin1 m ρ)) _ (by decide) c r h

theorem W6_of (c : Dev nD) (r : Ref sig .tc) (h : r ∉ ([main_v48_0, main_v48_1] : List (Ref sig .tc))) : W6 m ρ c r = W5 m ρ c r :=
  exitW_of _ _ launch2.win.arr_inj (A_eq2 (Vin2 m ρ)) _ (by decide) c r h

theorem W8_of (c : Dev nD) (r : Ref sig .tc) (h : r ∉ ([main_v53] : List (Ref sig .tc))) : W8 m ρ c r = W7 m ρ c r :=
  exitW_of _ _ launch3.win.arr_inj (A_eq3 (Vin3 m ρ)) _ (by decide) c r h

theorem W10_of (c : Dev nD) (r : Ref sig .tc) (h : r ∉ ([main_v73_0, main_v73_1] : List (Ref sig .tc))) : W10 m ρ c r = W9 m ρ c r :=
  exitW_of _ _ launch4.win.arr_inj (A_eq4 (Vin4 m ρ)) _ (by decide) c r h

theorem W12_of (c : Dev nD) (r : Ref sig .tc) (h : r ∉ ([main_v78] : List (Ref sig .tc))) : W12 m ρ c r = W11 m ρ c r :=
  exitW_of _ _ launch5.win.arr_inj (A_eq5 (Vin5 m ρ)) _ (by decide) c r h

-- No item writes a buffer outside its own list of results, so such a buffer ends as launched.
theorem W14_arg (c : Dev nD) (r : Ref sig .tc)
    (h14 : r ∉ hostOps6_1_W := by decide)
    (h13 : r ∉ hostOps6_W := by decide)
    (h12 : r ∉ ([main_v78] : List (Ref sig .tc)) := by decide)
    (h11 : r ∉ hostOps5_W := by decide)
    (h10 : r ∉ ([main_v73_0, main_v73_1] : List (Ref sig .tc)) := by decide)
    (h9 : r ∉ hostOps4_W := by decide)
    (h8 : r ∉ ([main_v53] : List (Ref sig .tc)) := by decide)
    (h7 : r ∉ hostOps3_W := by decide)
    (h6 : r ∉ ([main_v48_0, main_v48_1] : List (Ref sig .tc)) := by decide)
    (h5 : r ∉ hostOps2_W := by decide)
    (h4 : r ∉ ([main_v28] : List (Ref sig .tc)) := by decide)
    (h3 : r ∉ hostOps1_W := by decide)
    (h2 : r ∉ ([main_v23_0, main_v23_1] : List (Ref sig .tc)) := by decide)
    (h1 : r ∉ hostOps0_W := by decide) :
    W14 m ρ c r = m ((c : Thread nD τ).loc r) :=
  (W14_of m ρ c r h14).trans <| (W13_of m ρ c r h13).trans <| (W12_of m ρ c r h12).trans <| (W11_of m ρ c r h11).trans <| (W10_of m ρ c r h10).trans <| (W9_of m ρ c r h9).trans <| (W8_of m ρ c r h8).trans <| (W7_of m ρ c r h7).trans <| (W6_of m ρ c r h6).trans <| (W5_of m ρ c r h5).trans <| (W4_of m ρ c r h4).trans <| (W3_of m ρ c r h3).trans <| (W2_of m ρ c r h2).trans <| (W1_of m ρ c r h1).trans rfl

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

set_option backward.isDefEq.respectTransparency.types false in
-- One region's record, from its body's triple and its contents at entry and at exit.
def regOf (p : Fin 6) (launch : Pipeline.LaunchFacts (nD := nD) (τ := τ) cfgs p) (Win Wout : Dev nD → Valuation τ sig (Elt F))
    (hbody : ∀ c, BodyObligation (pdats m ρ p c) (defs₀ (F := F)) 𝒱₀ () Set.univ)
    (hshare : ∀ c w, (pdats m ρ p c).share w = fullShare)
    (hA : ∀ c w, (pdats m ρ p c).A w = Win c (Proc.devRef .tc (Pipeline.arrRef (cfgs p).spec w)))
    (howed : ∀ c t, (pdats m ρ p c).owed t = 0)
    (hrec : ∀ c x, x ∈ (pdats m ρ p c).recorded 0)
    (hΦ0 : ∀ c, (pdats m ρ p c).Φ 0 = Pipeline.ΦA (cfgs p).spec c)
    (hΦN : ∀ c, (pdats m ρ p c).Φ (Fin.last _) = Pipeline.ΦA (cfgs p).spec c)
    (hF : ∀ c w, (pdats m ρ p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c (Proc.devRef .tc b))
  hentry c := by
    rw [Pipeline.ownSems0_none]
    have hsplit := Pipeline.arrays_of_unscopedBufs (p := p) (pcfgs (F := F)) adm (pdats m ρ) launch.win launch.arr_whole c
      (hshare c) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) (hshare c)
      (fun b => Win c (Proc.devRef .tc b)) (fun b => Wout c (Proc.devRef .tc b)) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
abbrev reg0 := regOf m ρ 0 launch0 (W1 m ρ) (W2 m ρ) (body_obligation0 (Vin0 m ρ)) (fun c => (pdats m ρ 0 c).share_full fun _ => rfl) (fun _ _ => rfl) (fun _ _ => rfl) (fun _ _ => trivial) (fun _ => rfl) (fun _ => rfl) (fun c w => (W2_arr m ρ c w).symm) (exitW_rest _ _)
set_option backward.isDefEq.respectTransparency.types false in
abbrev reg1 := regOf m ρ 1 launch1 (W3 m ρ) (W4 m ρ) (body_obligation1 (Vin1 m ρ)) (fun c => (pdats m ρ 1 c).share_full fun _ => rfl) (fun _ _ => rfl) (fun _ _ => rfl) (fun _ _ => trivial) (fun _ => rfl) (fun _ => rfl) (fun c w => (W4_arr m ρ c w).symm) (exitW_rest _ _)
set_option backward.isDefEq.respectTransparency.types false in
abbrev reg2 := regOf m ρ 2 launch2 (W5 m ρ) (W6 m ρ) (body_obligation2 (Vin2 m ρ)) (fun c => (pdats m ρ 2 c).share_full fun _ => rfl) (fun _ _ => rfl) (fun _ _ => rfl) (fun _ _ => trivial) (fun _ => rfl) (fun _ => rfl) (fun c w => (W6_arr m ρ c w).symm) (exitW_rest _ _)
set_option backward.isDefEq.respectTransparency.types false in
abbrev reg3 := regOf m ρ 3 launch3 (W7 m ρ) (W8 m ρ) (body_obligation3 (Vin3 m ρ)) (fun c => (pdats m ρ 3 c).share_full fun _ => rfl) (fun _ _ => rfl) (fun _ _ => rfl) (fun _ _ => trivial) (fun _ => rfl) (fun _ => rfl) (fun c w => (W8_arr m ρ c w).symm) (exitW_rest _ _)
set_option backward.isDefEq.respectTransparency.types false in
abbrev reg4 := regOf m ρ 4 launch4 (W9 m ρ) (W10 m ρ) (body_obligation4 (Vin4 m ρ)) (fun c => (pdats m ρ 4 c).share_full fun _ => rfl) (fun _ _ => rfl) (fun _ _ => rfl) (fun _ _ => trivial) (fun _ => rfl) (fun _ => rfl) (fun c w => (W10_arr m ρ c w).symm) (exitW_rest _ _)
set_option backward.isDefEq.respectTransparency.types false in
abbrev reg5 := regOf m ρ 5 launch5 (W11 m ρ) (W12 m ρ) (body_obligation5 (Vin5 m ρ)) (fun c => (pdats m ρ 5 c).share_full fun _ => rfl) (fun _ _ => rfl) (fun _ _ => rfl) (fun _ _ => trivial) (fun _ => rfl) (fun _ => rfl) (fun c w => (W12_arr m ρ c w).symm) (exitW_rest _ _)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)) ]

theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v115) = W14 m ρ c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W14 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v115 (by decide)),
        (h c _ (mem_uc main_arg0 (by decide))).trans (W14_arg m ρ c main_arg0),
        (h c _ (mem_uc main_arg1 (by decide))).trans (W14_arg m ρ c main_arg1),
        (h c _ (mem_uc main_arg2 (by decide))).trans (W14_arg m ρ c main_arg2),
        (h c _ (mem_uc main_arg3 (by decide))).trans (W14_arg m ρ c main_arg3),
        (h c _ (mem_uc main_arg4 (by decide))).trans (W14_arg m ρ c main_arg4),
        (h c _ (mem_uc main_arg5 (by decide))).trans (W14_arg m ρ c main_arg5),
        (h c _ (mem_uc main_arg6 (by decide))).trans (W14_arg m ρ c main_arg6),
        (h c _ (mem_uc main_arg7 (by decide))).trans (W14_arg m ρ c main_arg7),
        (h c _ (mem_uc main_arg8 (by decide))).trans (W14_arg m ρ c main_arg8),
        (h c _ (mem_uc main_arg9 (by decide))).trans (W14_arg m ρ c main_arg9),
        (h c _ (mem_uc main_arg10 (by decide))).trans (W14_arg m ρ c main_arg10),
        (h c _ (mem_uc main_arg11 (by decide))).trans (W14_arg m ρ c main_arg11),
        (h c _ (mem_uc main_arg12 (by decide))).trans (W14_arg m ρ c main_arg12),
        (h c _ (mem_uc main_arg13 (by decide))).trans (W14_arg m ρ c main_arg13),
        (h c _ (mem_uc main_arg14 (by decide))).trans (W14_arg m ρ c main_arg14),
        (h c _ (mem_uc main_arg15 (by decide))).trans (W14_arg m ρ c main_arg15),
        (h c _ (mem_uc main_arg16 (by decide))).trans (W14_arg m ρ c main_arg16),
        (h c _ (mem_uc main_arg17 (by decide))).trans (W14_arg m ρ c main_arg17),
        (h c _ (mem_uc main_arg18 (by decide))).trans (W14_arg m ρ c main_arg18),
        (h c _ (mem_uc main_arg19 (by decide))).trans (W14_arg m ρ c main_arg19),
        (h c _ (mem_uc main_arg20 (by decide))).trans (W14_arg m ρ c main_arg20),
        (h c _ (mem_uc main_arg21 (by decide))).trans (W14_arg m ρ c main_arg21),
        (h c _ (mem_uc main_arg22 (by decide))).trans (W14_arg m ρ c main_arg22),
        (h c _ (mem_uc main_arg23 (by decide))).trans (W14_arg m ρ c main_arg23),
        (h c _ (mem_uc main_arg24 (by decide))).trans (W14_arg m ρ c main_arg24),
        (h c _ (mem_uc main_arg25 (by decide))).trans (W14_arg m ρ c main_arg25),
        (h c _ (mem_uc main_arg26 (by decide))).trans (W14_arg m ρ c main_arg26),
        (h c _ (mem_uc main_arg27 (by decide))).trans (W14_arg m ρ c main_arg27)⟩)

end Cert.Kernel.Run

end
-- ==== Proof.KI.Region0.lean ====
import proofs.«423123_j317827579936_1_alg».proof.Proof.Gen.KernelIdeal.Launch
import proofs.«423123_j317827579936_1_alg».proof.Proof.Gen.KernelIdeal.Skeleton
import proofs.«423123_j317827579936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S65536x1
local notation "𝕚0" => inb_S65536x1_S65536x1_0_0
local notation "𝕊1" => S65536x1
local notation "𝕚1" => inb_S65536x1_S65536x1_0_0
local notation "𝕊2" => S65536x1
local notation "𝕚2" => inb_S65536x1_S65536x1_0_0
local notation "𝕊3" => S1x2
local notation "𝕚3" => inb_S1x2_S1x2_0_0
local notation "𝕊4" => S1x2
local notation "𝕚4" => inb_S1x2_S1x2_0_0
local notation "𝕊5" => S1x2
local notation "𝕚5" => inb_S1x2_S1x2_0_0
local notation "𝕊6" => S1x2
local notation "𝕚6" => inb_S1x2_S1x2_0_0
local notation "𝕊7" => S2x1
local notation "𝕚7" => inb_S2x1_S2x1_0_0
local notation "𝕊8" => S1x1
local notation "𝕚8" => inb_S1x1_S1x1_0_0
local notation "𝕊9" => S65536x2
local notation "𝕚9" => inb_S65536x2_S65536x2_0_0
local notation "𝕊10" => S65536x1
local notation "𝕚10" => inb_S65536x1_S65536x1_0_0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_w0 : Rect 𝕊0 := Rect.unit (s := 𝕊0) ![0, 0] (𝕊0).size 𝕚0
abbrev r0_w1 : Rect 𝕊1 := Rect.unit (s := 𝕊1) ![0, 0] (𝕊1).size 𝕚1
abbrev r0_w2 : Rect 𝕊2 := Rect.unit (s := 𝕊2) ![0, 0] (𝕊2).size 𝕚2
abbrev r0_w3 : Rect 𝕊3 := Rect.unit (s := 𝕊3) ![0, 0] (𝕊3).size 𝕚3
abbrev r0_w4 : Rect 𝕊4 := Rect.unit (s := 𝕊4) ![0, 0] (𝕊4).size 𝕚4
abbrev r0_w5 : Rect 𝕊5 := Rect.unit (s := 𝕊5) ![0, 0] (𝕊5).size 𝕚5
abbrev r0_w6 : Rect 𝕊6 := Rect.unit (s := 𝕊6) ![0, 0] (𝕊6).size 𝕚6
abbrev r0_w7 : Rect 𝕊7 := Rect.unit (s := 𝕊7) ![0, 0] (𝕊7).size 𝕚7
abbrev r0_w8 : Rect 𝕊8 := Rect.unit (s := 𝕊8) ![0, 0] (𝕊8).size 𝕚8
abbrev r0_w9 : Rect 𝕊9 := Rect.unit (s := 𝕊9) ![0, 0] (𝕊9).size 𝕚9
abbrev r0_w10 : Rect 𝕊10 := Rect.unit (s := 𝕊10) ![0, 0] (𝕊10).size 𝕚10

def out0_9 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊9 .f32 :=
  View.canon [⟨r0_w9, k0_pay2 (View.ld x0 r0_w0) (View.ld x1 r0_w1) (View.ld x2 r0_w2) (View.ld x3 r0_w3) (View.ld x4 r0_w4) (View.ld x5 r0_w5) (View.ld x6 r0_w6)⟩]

theorem cover0_9 (p0 : Vec F 𝕊9 .f32) (y : (𝕊9).Idx) :
    ∃ pc ∈ ([⟨r0_w9, p0⟩] : List (View.Piece (Elt F) 𝕊9 .f32)), y ∈ pc.1.set :=
  View.cover_of_tiled [⟨r0_w9, p0⟩] (𝕊9).size (by rfl) y

def out0_10 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊10 .f32 :=
  View.canon [⟨r0_w10, k0_pay3 (View.ld x0 r0_w0) (View.ld x1 r0_w1) (View.ld x2 r0_w2) (View.ld x3 r0_w3) (View.ld x4 r0_w4) (View.ld x5 r0_w5) (View.ld x6 r0_w6) (View.ld x7 r0_w7) (View.ld x8 r0_w8)⟩]

theorem cover0_10 (p0 : Vec F 𝕊10 .f32) (y : (𝕊10).Idx) :
    ∃ pc ∈ ([⟨r0_w10, p0⟩] : List (View.Piece (Elt F) 𝕊10 .f32)), y ∈ pc.1.set :=
  View.cover_of_tiled [⟨r0_w10, p0⟩] (𝕊10).size (by rfl) y

set_option maxHeartbeats 1000000 in
theorem sound_kernel0 (c : Dev nD) (E : Set ℕ) (i : grid0.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole) (arg7 : Memref sig .tc .vmem 𝕊6 .f32) (harg7 : arg7.IsWhole) (arg8 : Memref sig .tc .vmem 𝕊7 .f32) (harg8 : arg8.IsWhole) (arg9 : Memref sig .tc .vmem 𝕊8 .f32) (harg9 : arg9.IsWhole) (arg10 : Memref sig .tc .vmem 𝕊9 .f32) (harg10 : arg10.IsWhole) (arg11 : Memref sig .tc .vmem 𝕊10 .f32) (harg11 : arg11.IsWhole)
    (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__edge_layer_kernel i arg1 harg1 arg2 harg2 arg3 harg3 arg4 harg4 arg5 harg5 arg6 harg6 arg7 harg7 arg8 harg8 arg9 harg9 arg10 harg10 arg11 harg11) K := by
  simp only [cc0__edge_layer_kernel_eq_skeleton]; unfold cc0__edge_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by dsimp only [dat0]; unfold Dat.blockOf iblk0; try rfl) t d).trans
    (by unfold Dat.fetched Dat.blockOf iblk0; dsimp only [dat0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by dsimp only [dat0]; unfold Dat.blockOf iblk0; try rfl) t d).trans
    (by unfold Dat.fetched Dat.blockOf iblk0; dsimp only [dat0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by dsimp only [dat0]; unfold Dat.blockOf iblk0; try rfl) t d).trans
    (by unfold Dat.fetched Dat.blockOf iblk0; dsimp only [dat0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by dsimp only [dat0]; unfold Dat.blockOf iblk0; try rfl) t d).trans
    (by unfold Dat.fetched Dat.blockOf iblk0; dsimp only [dat0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by dsimp only [dat0]; unfold Dat.blockOf iblk0; try rfl) t d).trans
    (by unfold Dat.fetched Dat.blockOf iblk0; dsimp only [dat0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by dsimp only [dat0]; unfold Dat.blockOf iblk0; try rfl) t d).trans
    (by unfold Dat.fetched Dat.blockOf iblk0; dsimp only [dat0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by dsimp only [dat0]; unfold Dat.blockOf iblk0; try rfl) t d).trans
    (by unfold Dat.fetched Dat.blockOf iblk0; dsimp only [dat0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by dsimp only [dat0]; unfold Dat.blockOf iblk0; try rfl) t d).trans
    (by unfold Dat.fetched Dat.blockOf iblk0; dsimp only [dat0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by dsimp only [dat0]; unfold Dat.blockOf iblk0; try rfl) t d).trans
    (by unfold Dat.fetched Dat.blockOf iblk0; dsimp only [dat0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KI.Region1.lean ====
import proofs.«423123_j317827579936_1_alg».proof.Proof.Gen.KernelIdeal.Launch
import proofs.«423123_j317827579936_1_alg».proof.Proof.Gen.KernelIdeal.Skeleton
import proofs.«423123_j317827579936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S16384x1
local notation "𝕚0" => inb_S16384x1_S16384x1_0_0
local notation "𝕊1" => S16384x1
local notation "𝕚1" => inb_S16384x1_S16384x1_0_0
local notation "𝕊2" => S1x3
local notation "𝕚2" => inb_S1x3_S1x3_0_0
local notation "𝕊3" => S1x3
local notation "𝕚3" => inb_S1x3_S1x3_0_0
local notation "𝕊4" => S1x3
local notation "𝕚4" => inb_S1x3_S1x3_0_0
local notation "𝕊5" => S16384x3
local notation "𝕚5" => inb_S16384x3_S16384x3_0_0

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_w0 : Rect 𝕊0 := Rect.unit (s := 𝕊0) ![0, 0] (𝕊0).size 𝕚0
abbrev r1_w1 : Rect 𝕊1 := Rect.unit (s := 𝕊1) ![0, 0] (𝕊1).size 𝕚1
abbrev r1_w2 : Rect 𝕊2 := Rect.unit (s := 𝕊2) ![0, 0] (𝕊2).size 𝕚2
abbrev r1_w3 : Rect 𝕊3 := Rect.unit (s := 𝕊3) ![0, 0] (𝕊3).size 𝕚3
abbrev r1_w4 : Rect 𝕊4 := Rect.unit (s := 𝕊4) ![0, 0] (𝕊4).size 𝕚4
abbrev r1_w5 : Rect 𝕊5 := Rect.unit (s := 𝕊5) ![0, 0] (𝕊5).size 𝕚5

def out1_5 (x0 : Vec F 𝕊0 .f32) (x1 : Vec F 𝕊1 .f32) (x2 : Vec F 𝕊2 .f32) (x3 : Vec F 𝕊3 .f32) (x4 : Vec F 𝕊4 .f32) : Vec F 𝕊5 .f32 :=
  View.canon [⟨r1_w5, k1_pay1 (View.ld x0 r1_w0) (View.ld x1 r1_w1) (View.ld x2 r1_w2) (View.ld x3 r1_w3) (View.ld x4 r1_w4)⟩]

theorem cover1_5 (p0 : Vec F 𝕊5 .f32) (y : (𝕊5).Idx) :
    ∃ pc ∈ ([⟨r1_w5, p0⟩] : List (View.Piece (Elt F) 𝕊5 .f32)), y ∈ pc.1.set :=
  View.cover_of_tiled [⟨r1_w5, p0⟩] (𝕊5).size (by rfl) y

set_option maxHeartbeats 1000000 in
theorem sound_kernel1 (c : Dev nD) (E : Set ℕ) (i : grid1.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole)
    (x0 : Vec F 𝕊0 .f32) (x1 : Vec F 𝕊1 .f32) (x2 : Vec F 𝕊2 .f32) (x3 : Vec F 𝕊3 .f32) (x4 : Vec F 𝕊4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__node_conv_kernel i arg1 harg1 arg2 harg2 arg3 harg3 arg4 harg4 arg5 harg5 arg6 harg6) K := by
  simp only [cc1__node_conv_kernel_eq_skeleton]; unfold cc1__node_conv_kernel_skel

  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by dsimp only [dat1]; unfold Dat.blockOf iblk1; try rfl) t d).trans
    (by unfold Dat.fetched Dat.blockOf iblk1; dsimp only [dat1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by dsimp only [dat1]; unfold Dat.blockOf iblk1; try rfl) t d).trans
    (by unfold Dat.fetched Dat.blockOf iblk1; dsimp only [dat1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by dsimp only [dat1]; unfold Dat.blockOf iblk1; try rfl) t d).trans
    (by unfold Dat.fetched Dat.blockOf iblk1; dsimp only [dat1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by dsimp only [dat1]; unfold Dat.blockOf iblk1; try rfl) t d).trans
    (by unfold Dat.fetched Dat.blockOf iblk1; dsimp only [dat1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by dsimp only [dat1]; unfold Dat.blockOf iblk1; try rfl) t d).trans
    (by unfold Dat.fetched Dat.blockOf iblk1; dsimp only [dat1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KI.Region2.lean ====
import proofs.«423123_j317827579936_1_alg».proof.Proof.Gen.KernelIdeal.Launch
import proofs.«423123_j317827579936_1_alg».proof.Proof.Gen.KernelIdeal.Skeleton
import proofs.«423123_j317827579936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S65536x3
local notation "𝕚0" => inb_S65536x3_S65536x3_0_0
local notation "𝕊1" => S65536x3
local notation "𝕚1" => inb_S65536x3_S65536x3_0_0
local notation "𝕊2" => S65536x2
local notation "𝕚2" => inb_S65536x2_S65536x2_0_0
local notation "𝕊3" => S3x3
local notation "𝕚3" => inb_S3x3_S3x3_0_0
local notation "𝕊4" => S3x3
local notation "𝕚4" => inb_S3x3_S3x3_0_0
local notation "𝕊5" => S2x3
local notation "𝕚5" => inb_S2x3_S2x3_0_0
local notation "𝕊6" => S1x3
local notation "𝕚6" => inb_S1x3_S1x3_0_0
local notation "𝕊7" => S3x1
local notation "𝕚7" => inb_S3x1_S3x1_0_0
local notation "𝕊8" => S1x1
local notation "𝕚8" => inb_S1x1_S1x1_0_0
local notation "𝕊9" => S65536x3
local notation "𝕚9" => inb_S65536x3_S65536x3_0_0
local notation "𝕊10" => S65536x3
local notation "𝕚10" => inb_S65536x3_S65536x3_0_0

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_w0 : Rect 𝕊0 := Rect.unit (s := 𝕊0) ![0, 0] (𝕊0).size 𝕚0
abbrev r2_w1 : Rect 𝕊1 := Rect.unit (s := 𝕊1) ![0, 0] (𝕊1).size 𝕚1
abbrev r2_w2 : Rect 𝕊2 := Rect.unit (s := 𝕊2) ![0, 0] (𝕊2).size 𝕚2
abbrev r2_w3 : Rect 𝕊3 := Rect.unit (s := 𝕊3) ![0, 0] (𝕊3).size 𝕚3
abbrev r2_w4 : Rect 𝕊4 := Rect.unit (s := 𝕊4) ![0, 0] (𝕊4).size 𝕚4
abbrev r2_w5 : Rect 𝕊5 := Rect.unit (s := 𝕊5) ![0, 0] (𝕊5).size 𝕚5
abbrev r2_w6 : Rect 𝕊6 := Rect.unit (s := 𝕊6) ![0, 0] (𝕊6).size 𝕚6
abbrev r2_w7 : Rect 𝕊7 := Rect.unit (s := 𝕊7) ![0, 0] (𝕊7).size 𝕚7
abbrev r2_w8 : Rect 𝕊8 := Rect.unit (s := 𝕊8) ![0, 0] (𝕊8).size 𝕚8
abbrev r2_w9 : Rect 𝕊9 := Rect.unit (s := 𝕊9) ![0, 0] (𝕊9).size 𝕚9
abbrev r2_w10 : Rect 𝕊10 := Rect.unit (s := 𝕊10) ![0, 0] (𝕊10).size 𝕚10

def out2_9 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊9 .f32 :=
  View.canon [⟨r2_w9, k2_pay2 (View.ld x0 r2_w0) (View.ld x1 r2_w1) (View.ld x2 r2_w2) (View.ld x3 r2_w3) (View.ld x4 r2_w4) (View.ld x5 r2_w5) (View.ld x6 r2_w6)⟩]

theorem cover2_9 (p0 : Vec F 𝕊9 .f32) (y : (𝕊9).Idx) :
    ∃ pc ∈ ([⟨r2_w9, p0⟩] : List (View.Piece (Elt F) 𝕊9 .f32)), y ∈ pc.1.set :=
  View.cover_of_tiled [⟨r2_w9, p0⟩] (𝕊9).size (by rfl) y

def out2_10 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊10 .f32 :=
  View.canon [⟨r2_w10, k2_pay3 (View.ld x0 r2_w0) (View.ld x1 r2_w1) (View.ld x2 r2_w2) (View.ld x3 r2_w3) (View.ld x4 r2_w4) (View.ld x5 r2_w5) (View.ld x6 r2_w6) (View.ld x7 r2_w7) (View.ld x8 r2_w8)⟩]

theorem cover2_10 (p0 : Vec F 𝕊10 .f32) (y : (𝕊10).Idx) :
    ∃ pc ∈ ([⟨r2_w10, p0⟩] : List (View.Piece (Elt F) 𝕊10 .f32)), y ∈ pc.1.set :=
  View.cover_of_tiled [⟨r2_w10, p0⟩] (𝕊10).size (by rfl) y

set_option maxHeartbeats 1000000 in
theorem sound_kernel2 (c : Dev nD) (E : Set ℕ) (i : grid2.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole) (arg7 : Memref sig .tc .vmem 𝕊6 .f32) (harg7 : arg7.IsWhole) (arg8 : Memref sig .tc .vmem 𝕊7 .f32) (harg8 : arg8.IsWhole) (arg9 : Memref sig .tc .vmem 𝕊8 .f32) (harg9 : arg9.IsWhole) (arg10 : Memref sig .tc .vmem 𝕊9 .f32) (harg10 : arg10.IsWhole) (arg11 : Memref sig .tc .vmem 𝕊10 .f32) (harg11 : arg11.IsWhole)
    (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8) ∗ owns (c : Thread nD τ) arg11 fullShare (out2_10 x0 x1 x2 x3 x4 x5 x6 x7 x8)) -∗ K ⟨⟩))
      ⊢ wp frame (wpE (defs₀ (F := F)) Variants.none c none) E (cc2__edge_layer_kernel i arg1 harg1 arg2 harg2 arg3 harg3 arg4 harg4 arg5 harg5 arg6 harg6 arg7 harg7 arg8 harg8 arg9 harg9 arg10 harg10 arg11 harg11) K := by
  simp only [cc2__edge_layer_kernel_eq_skeleton]; unfold cc2__edge_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover2_9 _)
  iexists _; isplitr
  swap; · iexact H10
  ipureintro
  try dsimp only
  exact View.read_writes_eq_canon _ _ _ (cover2_10 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by dsimp only [dat2]; unfold Dat.blockOf iblk2; try rfl) t d).trans
    (by unfold Dat.fetched Dat.blockOf iblk2; dsimp only [dat2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by dsimp only [dat2]; unfold Dat.blockOf iblk2; try rfl) t d).trans
    (by unfold Dat.fetched Dat.blockOf iblk2; dsimp only [dat2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by dsimp only [dat2]; unfold Dat.blockOf iblk2; try rfl) t d).trans
    (by unfold Dat.fetched Dat.blockOf iblk2; dsimp only [dat2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by dsimp only [dat2]; unfold Dat.blockOf iblk2; try rfl) t d).trans
    (by unfold Dat.fetched Dat.blockOf iblk2; dsimp only [dat2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by dsimp only [dat2]; unfold Dat.blockOf iblk2; try rfl) t d).trans
    (by unfold Dat.fetched Dat.blockOf iblk2; dsimp only [dat2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by dsimp only [dat2]; unfold Dat.blockOf iblk2; try rfl) t d).trans
    (by unfold Dat.fetched Dat.blockOf iblk2; dsimp only [dat2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by dsimp only [dat2]; unfold Dat.blockOf iblk2; try rfl) t d).trans
    (by unfold Dat.fetched Dat.blockOf iblk2; dsimp only [dat2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by dsimp only [dat2]; unfold Dat.blockOf iblk2; try rfl) t d).trans
    (by unfold Dat.fetched Dat.blockOf iblk2; dsimp only [dat2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by dsimp only [dat2]; unfold Dat.blockOf iblk2; try rfl) t d).trans
    (by unfold Dat.fetched Dat.blockOf iblk2; dsimp only [dat2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.KI.Region3.lean ====
import proofs.«423123_j317827579936_1_alg».proof.Proof.Gen.KernelIdeal.Launch
import proofs.«423123_j317827579936_1_alg».proof.Proof.Gen.KernelIdeal.Skeleton
import proofs.«423123_j317827579936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S16384x3
local notation "𝕚0" => inb_S16384x3_S16384x3_0_0
local notation "𝕊1" => S16384x3
local notation "𝕚1" => inb_S16384x3_S16384x3_0_0
local notation "𝕊2" => S3x3
local notation "𝕚2" => inb_S3x3_S3x3_0_0
local notation "𝕊3" => S1x3
local notation "𝕚3" => inb_S1x3_S1x3_0_0
local notation "𝕊4" => S3x3
local notation "𝕚4" => inb_S3x3_S3x3_0_0
local notation "𝕊5" => S16384x3
local notation "𝕚5" => inb_S16384x3_S16384x3_0_0

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_w0 : Rect 𝕊0 := Rect.unit (s := 𝕊0) ![0, 0] (𝕊0).size 𝕚0
abbrev r3_w1 : Rect 𝕊1 := Rect.unit (s := 𝕊1) ![0, 0] (𝕊1).size 𝕚1
abbrev r3_w2 : Rect 𝕊2 := Rect.unit (s := 𝕊2) ![0, 0] (𝕊2).size 𝕚2
abbrev r3_w3 : Rect 𝕊3 := Rect.unit (s := 𝕊3) ![0, 0] (𝕊3).size 𝕚3
abbrev r3_w4 : Rect 𝕊4 := Rect.unit (s := 𝕊4) ![0, 0] (𝕊4).size 𝕚4
abbrev r3_w5 : Rect 𝕊5 := Rect.unit (s := 𝕊5) ![0, 0] (𝕊5).size 𝕚5

def out3_5 (x0 : Vec F 𝕊0 .f32) (x1 : Vec F 𝕊1 .f32) (x2 : Vec F 𝕊2 .f32) (x3 : Vec F 𝕊3 .f32) (x4 : Vec F 𝕊4 .f32) : Vec F 𝕊5 .f32 :=
  View.canon [⟨r3_w5, k3_pay1 (View.ld x0 r3_w0) (View.ld x1 r3_w1) (View.ld x2 r3_w2) (View.ld x3 r3_w3) (View.ld x4 r3_w4)⟩]

theorem cover3_5 (p0 : Vec F 𝕊5 .f32) (y : (𝕊5).Idx) :
    ∃ pc ∈ ([⟨r3_w5, p0⟩] : List (View.Piece (Elt F) 𝕊5 .f32)), y ∈ pc.1.set :=
  View.cover_of_tiled [⟨r3_w5, p0⟩] (𝕊5).size (by rfl) y

set_option maxHeartbeats 1000000 in
theorem sound_kernel3 (c : Dev nD) (E : Set ℕ) (i : grid3.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole)
    (x0 : Vec F 𝕊0 .f32) (x1 : Vec F 𝕊1 .f32) (x2 : Vec F 𝕊2 .f32) (x3 : Vec F 𝕊3 .f32) (x4 : Vec F 𝕊4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__node_conv_kernel i arg1 harg1 arg2 harg2 arg3 harg3 arg4 harg4 arg5 harg5 arg6 harg6) K := by
  simp only [cc3__node_conv_kernel_eq_skeleton]; unfold cc3__node_conv_kernel_skel

  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by dsimp only [dat3]; unfold Dat.blockOf iblk3; try rfl) t d).trans
    (by unfold Dat.fetched Dat.blockOf iblk3; dsimp only [dat3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by dsimp only [dat3]; unfold Dat.blockOf iblk3; try rfl) t d).trans
    (by unfold Dat.fetched Dat.blockOf iblk3; dsimp only [dat3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by dsimp only [dat3]; unfold Dat.blockOf iblk3; try rfl) t d).trans
    (by unfold Dat.fetched Dat.blockOf iblk3; dsimp only [dat3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by dsimp only [dat3]; unfold Dat.blockOf iblk3; try rfl) t d).trans
    (by unfold Dat.fetched Dat.blockOf iblk3; dsimp only [dat3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by dsimp only [dat3]; unfold Dat.blockOf iblk3; try rfl) t d).trans
    (by unfold Dat.fetched Dat.blockOf iblk3; dsimp only [dat3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.KI.Region4.lean ====
import proofs.«423123_j317827579936_1_alg».proof.Proof.Gen.KernelIdeal.Launch
import proofs.«423123_j317827579936_1_alg».proof.Proof.Gen.KernelIdeal.Skeleton
import proofs.«423123_j317827579936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S65536x3
local notation "𝕚0" => inb_S65536x3_S65536x3_0_0
local notation "𝕊1" => S65536x3
local notation "𝕚1" => inb_S65536x3_S65536x3_0_0
local notation "𝕊2" => S65536x3
local notation "𝕚2" => inb_S65536x3_S65536x3_0_0
local notation "𝕊3" => S3x4
local notation "𝕚3" => inb_S3x4_S3x4_0_0
local notation "𝕊4" => S3x4
local notation "𝕚4" => inb_S3x4_S3x4_0_0
local notation "𝕊5" => S3x4
local notation "𝕚5" => inb_S3x4_S3x4_0_0
local notation "𝕊6" => S1x4
local notation "𝕚6" => inb_S1x4_S1x4_0_0
local notation "𝕊7" => S4x1
local notation "𝕚7" => inb_S4x1_S4x1_0_0
local notation "𝕊8" => S1x1
local notation "𝕚8" => inb_S1x1_S1x1_0_0
local notation "𝕊9" => S65536x4
local notation "𝕚9" => inb_S65536x4_S65536x4_0_0
local notation "𝕊10" => S65536x3
local notation "𝕚10" => inb_S65536x3_S65536x3_0_0

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_w0 : Rect 𝕊0 := Rect.unit (s := 𝕊0) ![0, 0] (𝕊0).size 𝕚0
abbrev r4_w1 : Rect 𝕊1 := Rect.unit (s := 𝕊1) ![0, 0] (𝕊1).size 𝕚1
abbrev r4_w2 : Rect 𝕊2 := Rect.unit (s := 𝕊2) ![0, 0] (𝕊2).size 𝕚2
abbrev r4_w3 : Rect 𝕊3 := Rect.unit (s := 𝕊3) ![0, 0] (𝕊3).size 𝕚3
abbrev r4_w4 : Rect 𝕊4 := Rect.unit (s := 𝕊4) ![0, 0] (𝕊4).size 𝕚4
abbrev r4_w5 : Rect 𝕊5 := Rect.unit (s := 𝕊5) ![0, 0] (𝕊5).size 𝕚5
abbrev r4_w6 : Rect 𝕊6 := Rect.unit (s := 𝕊6) ![0, 0] (𝕊6).size 𝕚6
abbrev r4_w7 : Rect 𝕊7 := Rect.unit (s := 𝕊7) ![0, 0] (𝕊7).size 𝕚7
abbrev r4_w8 : Rect 𝕊8 := Rect.unit (s := 𝕊8) ![0, 0] (𝕊8).size 𝕚8
abbrev r4_w9 : Rect 𝕊9 := Rect.unit (s := 𝕊9) ![0, 0] (𝕊9).size 𝕚9
abbrev r4_w10 : Rect 𝕊10 := Rect.unit (s := 𝕊10) ![0, 0] (𝕊10).size 𝕚10

def out4_9 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊9 .f32 :=
  View.canon [⟨r4_w9, k4_pay2 (View.ld x0 r4_w0) (View.ld x1 r4_w1) (View.ld x2 r4_w2) (View.ld x3 r4_w3) (View.ld x4 r4_w4) (View.ld x5 r4_w5) (View.ld x6 r4_w6)⟩]

theorem cover4_9 (p0 : Vec F 𝕊9 .f32) (y : (𝕊9).Idx) :
    ∃ pc ∈ ([⟨r4_w9, p0⟩] : List (View.Piece (Elt F) 𝕊9 .f32)), y ∈ pc.1.set :=
  View.cover_of_tiled [⟨r4_w9, p0⟩] (𝕊9).size (by rfl) y

def out4_10 (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) : Vec F 𝕊10 .f32 :=
  View.canon [⟨r4_w10, k4_pay3 (View.ld x0 r4_w0) (View.ld x1 r4_w1) (View.ld x2 r4_w2) (View.ld x3 r4_w3) (View.ld x4 r4_w4) (View.ld x5 r4_w5) (View.ld x6 r4_w6) (View.ld x7 r4_w7) (View.ld x8 r4_w8)⟩]

theorem cover4_10 (p0 : Vec F 𝕊10 .f32) (y : (𝕊10).Idx) :
    ∃ pc ∈ ([⟨r4_w10, p0⟩] : List (View.Piece (Elt F) 𝕊10 .f32)), y ∈ pc.1.set :=
  View.cover_of_tiled [⟨r4_w10, p0⟩] (𝕊10).size (by rfl) y

set_option maxHeartbeats 1000000 in
theorem sound_kernel4 (c : Dev nD) (E : Set ℕ) (i : grid4.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole) (arg7 : Memref sig .tc .vmem 𝕊6 .f32) (harg7 : arg7.IsWhole) (arg8 : Memref sig .tc .vmem 𝕊7 .f32) (harg8 : arg8.IsWhole) (arg9 : Memref sig .tc .vmem 𝕊8 .f32) (harg9 : arg9.IsWhole) (arg10 : Memref sig .tc .vmem 𝕊9 .f32) (harg10 : arg10.IsWhole) (arg11 : Memref sig .tc .vmem 𝕊10 .f32) (harg11 : arg11.IsWhole)
    (x0 : Vec F 𝕊0 .f32) (x1 : Vec F 𝕊1 .f32) (x2 : Vec F 𝕊2 .f32) (x3 : Vec F 𝕊3 .f32) (x4 : Vec F 𝕊4 .f32) (x5 : Vec F 𝕊5 .f32) (x6 : Vec F 𝕊6 .f32) (x7 : Vec F 𝕊7 .f32) (x8 : Vec F 𝕊8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8) ∗ owns (c : Thread nD τ) arg11 fullShare (out4_10 x0 x1 x2 x3 x4 x5 x6 x7 x8)) -∗ K ⟨⟩))
      ⊢ wp frame (wpE (defs₀ (F := F)) Variants.none c none) E (cc4__edge_layer_kernel i arg1 harg1 arg2 harg2 arg3 harg3 arg4 harg4 arg5 harg5 arg6 harg6 arg7 harg7 arg8 harg8 arg9 harg9 arg10 harg10 arg11 harg11) K := by
  simp only [cc4__edge_layer_kernel_eq_skeleton]; unfold cc4__edge_layer_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover4_9 _)
  iexists _; isplitr
  swap; · iexact H10
  ipureintro
  try dsimp only
  exact View.read_writes_eq_canon _ _ _ (cover4_10 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by dsimp only [dat4]; unfold Dat.blockOf iblk4; try rfl) t d).trans
    (by unfold Dat.fetched Dat.blockOf iblk4; dsimp only [dat4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by dsimp only [dat4]; unfold Dat.blockOf iblk4; try rfl) t d).trans
    (by unfold Dat.fetched Dat.blockOf iblk4; dsimp only [dat4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by dsimp only [dat4]; unfold Dat.blockOf iblk4; try rfl) t d).trans
    (by unfold Dat.fetched Dat.blockOf iblk4; dsimp only [dat4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by dsimp only [dat4]; unfold Dat.blockOf iblk4; try rfl) t d).trans
    (by unfold Dat.fetched Dat.blockOf iblk4; dsimp only [dat4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by dsimp only [dat4]; unfold Dat.blockOf iblk4; try rfl) t d).trans
    (by unfold Dat.fetched Dat.blockOf iblk4; dsimp only [dat4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by dsimp only [dat4]; unfold Dat.blockOf iblk4; try rfl) t d).trans
    (by unfold Dat.fetched Dat.blockOf iblk4; dsimp only [dat4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by dsimp only [dat4]; unfold Dat.blockOf iblk4; try rfl) t d).trans
    (by unfold Dat.fetched Dat.blockOf iblk4; dsimp only [dat4]; try rfl)
theorem before4_7 (c : Dev nD) (t : Fin cfg4.N) (d) : (dat4 V c).before 7 t d = iblk4 V c 7 t :=
  ((dat4 V c).before_in_eq_fetched 7 rfl (fun _ => rfl) (fun _ _ _ => rfl) (fun t => by dsimp only [dat4]; unfold Dat.blockOf iblk4; try rfl) t d).trans
    (by unfold Dat.fetched Dat.blockOf iblk4; dsimp only [dat4]; try rfl)
theorem before4_8 (c : Dev nD) (t : Fin cfg4.N) (d) : (dat4 V c).before 8 t d = iblk4 V c 8 t :=
  ((dat4 V c).before_in_eq_fetched 8 rfl (fun _ => rfl) (fun _ _ _ => rfl) (fun t => by dsimp only [dat4]; unfold Dat.blockOf iblk4; try rfl) t d).trans
    (by unfold Dat.fetched Dat.blockOf iblk4; dsimp only [dat4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Run

end
-- ==== Proof.KI.Region5.lean ====
import proofs.«423123_j317827579936_1_alg».proof.Proof.Gen.KernelIdeal.Launch
import proofs.«423123_j317827579936_1_alg».proof.Proof.Gen.KernelIdeal.Skeleton
import proofs.«423123_j317827579936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕊0" => S16384x3
local notation "𝕚0" => inb_S16384x3_S16384x3_0_0
local notation "𝕊1" => S16384x3
local notation "𝕚1" => inb_S16384x3_S16384x3_0_0
local notation "𝕊2" => S3x5
local notation "𝕚2" => inb_S3x5_S3x5_0_0
local notation "𝕊3" => S1x5
local notation "𝕚3" => inb_S1x5_S1x5_0_0
local notation "𝕊4" => S3x5
local notation "𝕚4" => inb_S3x5_S3x5_0_0
local notation "𝕊5" => S16384x5
local notation "𝕚5" => inb_S16384x5_S16384x5_0_0

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_w0 : Rect 𝕊0 := Rect.unit (s := 𝕊0) ![0, 0] (𝕊0).size 𝕚0
abbrev r5_w1 : Rect 𝕊1 := Rect.unit (s := 𝕊1) ![0, 0] (𝕊1).size 𝕚1
abbrev r5_w2 : Rect 𝕊2 := Rect.unit (s := 𝕊2) ![0, 0] (𝕊2).size 𝕚2
abbrev r5_w3 : Rect 𝕊3 := Rect.unit (s := 𝕊3) ![0, 0] (𝕊3).size 𝕚3
abbrev r5_w4 : Rect 𝕊4 := Rect.unit (s := 𝕊4) ![0, 0] (𝕊4).size 𝕚4
abbrev r5_w5 : Rect 𝕊5 := Rect.unit (s := 𝕊5) ![0, 0] (𝕊5).size 𝕚5

def out5_5 (x0 : Vec F 𝕊0 .f32) (x1 : Vec F 𝕊1 .f32) (x2 : Vec F 𝕊2 .f32) (x3 : Vec F 𝕊3 .f32) (x4 : Vec F 𝕊4 .f32) : Vec F 𝕊5 .f32 :=
  View.canon [⟨r5_w5, k5_pay1 (View.ld x0 r5_w0) (View.ld x1 r5_w1) (View.ld x2 r5_w2) (View.ld x3 r5_w3) (View.ld x4 r5_w4)⟩]

theorem cover5_5 (p0 : Vec F 𝕊5 .f32) (y : (𝕊5).Idx) :
    ∃ pc ∈ ([⟨r5_w5, p0⟩] : List (View.Piece (Elt F) 𝕊5 .f32)), y ∈ pc.1.set :=
  View.cover_of_tiled [⟨r5_w5, p0⟩] (𝕊5).size (by rfl) y

set_option maxHeartbeats 1000000 in
theorem sound_kernel5 (c : Dev nD) (E : Set ℕ) (i : grid5.Coords) (arg1 : Memref sig .tc .vmem 𝕊0 .f32) (harg1 : arg1.IsWhole) (arg2 : Memref sig .tc .vmem 𝕊1 .f32) (harg2 : arg2.IsWhole) (arg3 : Memref sig .tc .vmem 𝕊2 .f32) (harg3 : arg3.IsWhole) (arg4 : Memref sig .tc .vmem 𝕊3 .f32) (harg4 : arg4.IsWhole) (arg5 : Memref sig .tc .vmem 𝕊4 .f32) (harg5 : arg5.IsWhole) (arg6 : Memref sig .tc .vmem 𝕊5 .f32) (harg6 : arg6.IsWhole)
    (x0 : Vec F 𝕊0 .f32) (x1 : Vec F 𝕊1 .f32) (x2 : Vec F 𝕊2 .f32) (x3 : Vec F 𝕊3 .f32) (x4 : Vec F 𝕊4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__node_conv_kernel i arg1 harg1 arg2 harg2 arg3 harg3 arg4 harg4 arg5 harg5 arg6 harg6) K := by
  simp only [cc5__node_conv_kernel_eq_skeleton]; unfold cc5__node_conv_kernel_skel

  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by dsimp only [dat5]; unfold Dat.blockOf iblk5; try rfl) t d).trans
    (by unfold Dat.fetched Dat.blockOf iblk5; dsimp only [dat5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by dsimp only [dat5]; unfold Dat.blockOf iblk5; try rfl) t d).trans
    (by unfold Dat.fetched Dat.blockOf iblk5; dsimp only [dat5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by dsimp only [dat5]; unfold Dat.blockOf iblk5; try rfl) t d).trans
    (by unfold Dat.fetched Dat.blockOf iblk5; dsimp only [dat5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by dsimp only [dat5]; unfold Dat.blockOf iblk5; try rfl) t d).trans
    (by unfold Dat.fetched Dat.blockOf iblk5; dsimp only [dat5]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by dsimp only [dat5]; unfold Dat.blockOf iblk5; try rfl) t d).trans
    (by unfold Dat.fetched Dat.blockOf iblk5; dsimp only [dat5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Run

end
-- ==== Proof.KI.Run.lean ====
import proofs.«423123_j317827579936_1_alg».proof.Proof.KI.Region0
import proofs.«423123_j317827579936_1_alg».proof.Proof.KI.Region1
import proofs.«423123_j317827579936_1_alg».proof.Proof.KI.Region2
import proofs.«423123_j317827579936_1_alg».proof.Proof.KI.Region3
import proofs.«423123_j317827579936_1_alg».proof.Proof.KI.Region4
import proofs.«423123_j317827579936_1_alg».proof.Proof.KI.Region5
import proofs.«423123_j317827579936_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit
variable {cfg : Pipeline.Cfg sig Λ₀} (dat : (c : Dev nD) → Dat τ (Elt F) Unit ℕ (UR sig nD τ) ℕ cfg c) (Win : Dev nD → Valuation τ sig (Elt F))

-- The contents after a region: each of its arrays at its final value, every other buffer unchanged.
def exitW (c : Dev nD) : Valuation τ sig (Elt F) :=
  Pipeline.withArrays cfg.spec c (Win c) fun w => (dat c).arrAt w cfg.N
theorem exitW_arr (hinj : Function.Injective (Pipeline.arrRef cfg.spec)) (c : Dev nD) (w : Fin cfg.W) :
    exitW dat Win c (Proc.devRef .tc (Pipeline.arrRef cfg.spec w)) = (dat c).arrAt w cfg.N :=
  Pipeline.withArrays_arr cfg.spec hinj c _ _ w
theorem exitW_of_ne (c : Dev nD) (b : Ref sig .tc) (hb : ∀ w, Pipeline.arrRef cfg.spec w ≠ b) :
    exitW dat Win c (Proc.devRef .tc b) = Win c (Proc.devRef .tc b) :=
  Pipeline.withArrays_of_ne cfg.spec c _ _ b hb
theorem exitW_rest (c : Dev nD) (b : Ref sig .tc) (hb : b ∉ Finset.univ.image (Pipeline.arrRef cfg.spec)) :
    exitW dat Win c (Proc.devRef .tc b) = Win c (Proc.devRef .tc b) :=
  exitW_of_ne dat Win c b fun w e => hb (Finset.mem_image.mpr ⟨w, Finset.mem_univ _, e⟩)
-- Outside its output arrays a region changes nothing.
theorem exitW_of (hinj : Function.Injective (Pipeline.arrRef cfg.spec))
    (hA : ∀ c w, (dat c).A w = Win c (Proc.devRef .tc (Pipeline.arrRef cfg.spec w))) (outs : List (Ref sig .tc))
    (hout : ∀ w, Pipeline.arrRef cfg.spec w ∉ outs → (cfg.win w).isOut = false) (c : Dev nD) (r : Ref sig .tc) (h : r ∉ outs) :
    exitW dat Win c (Proc.devRef .tc r) = Win c (Proc.devRef .tc r) := by
  by_cases hw : ∃ w, Pipeline.arrRef cfg.spec w = r
  · obtain ⟨w, rfl⟩ := hw
    exact (exitW_arr dat Win hinj c w).trans (((dat c).arrAt_in w (hout w h) _).trans (hA c w))
  · exact exitW_of_ne dat Win c r fun w e => hw ⟨w, e⟩

end Exit

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev Vin0 : (c : Dev nD) → (b : Ref sig .tc) → Buf (Elt F) ((c : Thread nD τ).loc b) := fun c b => W1 m ρ c b

abbrev W2 : Dev nD → Valuation τ sig (Elt F) := exitW (cfg := cfg0) (dat0 (Vin0 m ρ)) (W1 m ρ)
theorem W2_arr (c : Dev nD) (w : Fin cfg0.W) :
    W2 m ρ c (Proc.devRef .tc (Pipeline.arrRef spec0 w)) = (dat0 (Vin0 m ρ) c).arrAt w cfg0.N :=
  exitW_arr _ _ launch0.win.arr_inj c w

abbrev W3 : Dev nD → Valuation τ sig (Elt F) := fun c => StableHlo.after hostOps1 (W2 m ρ c)

abbrev Vin1 : (c : Dev nD) → (b : Ref sig .tc) → Buf (Elt F) ((c : Thread nD τ).loc b) := fun c b => W3 m ρ c b

abbrev W4 : Dev nD → Valuation τ sig (Elt F) := exitW (cfg := cfg1) (dat1 (Vin1 m ρ)) (W3 m ρ)
theorem W4_arr (c : Dev nD) (w : Fin cfg1.W) :
    W4 m ρ c (Proc.devRef .tc (Pipeline.arrRef spec1 w)) = (dat1 (Vin1 m ρ) c).arrAt w cfg1.N :=
  exitW_arr _ _ launch1.win.arr_inj c w

abbrev W5 : Dev nD → Valuation τ sig (Elt F) := fun c => StableHlo.after hostOps2 (W4 m ρ c)

abbrev Vin2 : (c : Dev nD) → (b : Ref sig .tc) → Buf (Elt F) ((c : Thread nD τ).loc b) := fun c b => W5 m ρ c b

abbrev W6 : Dev nD → Valuation τ sig (Elt F) := exitW (cfg := cfg2) (dat2 (Vin2 m ρ)) (W5 m ρ)
theorem W6_arr (c : Dev nD) (w : Fin cfg2.W) :
    W6 m ρ c (Proc.devRef .tc (Pipeline.arrRef spec2 w)) = (dat2 (Vin2 m ρ) c).arrAt w cfg2.N :=
  exitW_arr _ _ launch2.win.arr_inj c w

abbrev W7 : Dev nD → Valuation τ sig (Elt F) := fun c => StableHlo.after hostOps3 (W6 m ρ c)

abbrev Vin3 : (c : Dev nD) → (b : Ref sig .tc) → Buf (Elt F) ((c : Thread nD τ).loc b) := fun c b => W7 m ρ c b

abbrev W8 : Dev nD → Valuation τ sig (Elt F) := exitW (cfg := cfg3) (dat3 (Vin3 m ρ)) (W7 m ρ)
theorem W8_arr (c : Dev nD) (w : Fin cfg3.W) :
    W8 m ρ c (Proc.devRef .tc (Pipeline.arrRef spec3 w)) = (dat3 (Vin3 m ρ) c).arrAt w cfg3.N :=
  exitW_arr _ _ launch3.win.arr_inj c w

abbrev W9 : Dev nD → Valuation τ sig (Elt F) := fun c => StableHlo.after hostOps4 (W8 m ρ c)

abbrev Vin4 : (c : Dev nD) → (b : Ref sig .tc) → Buf (Elt F) ((c : Thread nD τ).loc b) := fun c b => W9 m ρ c b

abbrev W10 : Dev nD → Valuation τ sig (Elt F) := exitW (cfg := cfg4) (dat4 (Vin4 m ρ)) (W9 m ρ)
theorem W10_arr (c : Dev nD) (w : Fin cfg4.W) :
    W10 m ρ c (Proc.devRef .tc (Pipeline.arrRef spec4 w)) = (dat4 (Vin4 m ρ) c).arrAt w cfg4.N :=
  exitW_arr _ _ launch4.win.arr_inj c w

abbrev W11 : Dev nD → Valuation τ sig (Elt F) := fun c => StableHlo.after hostOps5 (W10 m ρ c)

abbrev Vin5 : (c : Dev nD) → (b : Ref sig .tc) → Buf (Elt F) ((c : Thread nD τ).loc b) := fun c b => W11 m ρ c b

abbrev W12 : Dev nD → Valuation τ sig (Elt F) := exitW (cfg := cfg5) (dat5 (Vin5 m ρ)) (W11 m ρ)
theorem W12_arr (c : Dev nD) (w : Fin cfg5.W) :
    W12 m ρ c (Proc.devRef .tc (Pipeline.arrRef spec5 w)) = (dat5 (Vin5 m ρ) c).arrAt w cfg5.N :=
  exitW_arr _ _ launch5.win.arr_inj c w

abbrev W13 : Dev nD → Valuation τ sig (Elt F) := fun c => StableHlo.after hostOps6 (W12 m ρ c)

abbrev W14 : Dev nD → Valuation τ sig (Elt F) := fun c => StableHlo.after hostOps6_1 (W13 m ρ c)

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h
theorem W9_of (c : Dev nD) (r : Ref sig .tc) (h : r ∉ hostOps4_W) : W9 m ρ c r = W8 m ρ c r :=
  StableHlo.after_of_writes_sub hostOps4 _ hostOps4_writes h
theorem W11_of (c : Dev nD) (r : Ref sig .tc) (h : r ∉ hostOps5_W) : W11 m ρ c r = W10 m ρ c r :=
  StableHlo.after_of_writes_sub hostOps5 _ hostOps5_writes h
theorem W13_of (c : Dev nD) (r : Ref sig .tc) (h : r ∉ hostOps6_W) : W13 m ρ c r = W12 m ρ c r :=
  StableHlo.after_of_writes_sub hostOps6 _ hostOps6_writes h
theorem W14_of (c : Dev nD) (r : Ref sig .tc) (h : r ∉ hostOps6_1_W) : W14 m ρ c r = W13 m ρ c r :=
  StableHlo.after_of_writes_sub hostOps6_1 _ hostOps6_1_writes h

theorem W2_of (c : Dev nD) (r : Ref sig .tc) (h : r ∉ ([main_v23_0, main_v23_1] : List (Ref sig .tc))) : W2 m ρ c r = W1 m ρ c r :=
  exitW_of _ _ launch0.win.arr_inj (A_eq0 (Vin0 m ρ)) _ (by decide) c r h

theorem W4_of (c : Dev nD) (r : Ref sig .tc) (h : r ∉ ([main_v28] : List (Ref sig .tc))) : W4 m ρ c r = W3 m ρ c r :=
  exitW_of _ _ launch1.win.arr_inj (A_eq1 (Vin1 m ρ)) _ (by decide) c r h

theorem W6_of (c : Dev nD) (r : Ref sig .tc) (h : r ∉ ([main_v48_0, main_v48_1] : List (Ref sig .tc))) : W6 m ρ c r = W5 m ρ c r :=
  exitW_of _ _ launch2.win.arr_inj (A_eq2 (Vin2 m ρ)) _ (by decide) c r h

theorem W8_of (c : Dev nD) (r : Ref sig .tc) (h : r ∉ ([main_v53] : List (Ref sig .tc))) : W8 m ρ c r = W7 m ρ c r :=
  exitW_of _ _ launch3.win.arr_inj (A_eq3 (Vin3 m ρ)) _ (by decide) c r h

theorem W10_of (c : Dev nD) (r : Ref sig .tc) (h : r ∉ ([main_v73_0, main_v73_1] : List (Ref sig .tc))) : W10 m ρ c r = W9 m ρ c r :=
  exitW_of _ _ launch4.win.arr_inj (A_eq4 (Vin4 m ρ)) _ (by decide) c r h

theorem W12_of (c : Dev nD) (r : Ref sig .tc) (h : r ∉ ([main_v78] : List (Ref sig .tc))) : W12 m ρ c r = W11 m ρ c r :=
  exitW_of _ _ launch5.win.arr_inj (A_eq5 (Vin5 m ρ)) _ (by decide) c r h

-- No item writes a buffer outside its own list of results, so such a buffer ends as launched.
theorem W14_arg (c : Dev nD) (r : Ref sig .tc)
    (h14 : r ∉ hostOps6_1_W := by decide)
    (h13 : r ∉ hostOps6_W := by decide)
    (h12 : r ∉ ([main_v78] : List (Ref sig .tc)) := by decide)
    (h11 : r ∉ hostOps5_W := by decide)
    (h10 : r ∉ ([main_v73_0, main_v73_1] : List (Ref sig .tc)) := by decide)
    (h9 : r ∉ hostOps4_W := by decide)
    (h8 : r ∉ ([main_v53] : List (Ref sig .tc)) := by decide)
    (h7 : r ∉ hostOps3_W := by decide)
    (h6 : r ∉ ([main_v48_0, main_v48_1] : List (Ref sig .tc)) := by decide)
    (h5 : r ∉ hostOps2_W := by decide)
    (h4 : r ∉ ([main_v28] : List (Ref sig .tc)) := by decide)
    (h3 : r ∉ hostOps1_W := by decide)
    (h2 : r ∉ ([main_v23_0, main_v23_1] : List (Ref sig .tc)) := by decide)
    (h1 : r ∉ hostOps0_W := by decide) :
    W14 m ρ c r = m ((c : Thread nD τ).loc r) :=
  (W14_of m ρ c r h14).trans <| (W13_of m ρ c r h13).trans <| (W12_of m ρ c r h12).trans <| (W11_of m ρ c r h11).trans <| (W10_of m ρ c r h10).trans <| (W9_of m ρ c r h9).trans <| (W8_of m ρ c r h8).trans <| (W7_of m ρ c r h7).trans <| (W6_of m ρ c r h6).trans <| (W5_of m ρ c r h5).trans <| (W4_of m ρ c r h4).trans <| (W3_of m ρ c r h3).trans <| (W2_of m ρ c r h2).trans <| (W1_of m ρ c r h1).trans rfl

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

set_option backward.isDefEq.respectTransparency.types false in
-- One region's record, from its body's triple and its contents at entry and at exit.
def regOf (p : Fin 6) (launch : Pipeline.LaunchFacts (nD := nD) (τ := τ) cfgs p) (Win Wout : Dev nD → Valuation τ sig (Elt F))
    (hbody : ∀ c, BodyObligation (pdats m ρ p c) (defs₀ (F := F)) 𝒱₀ () Set.univ)
    (hshare : ∀ c w, (pdats m ρ p c).share w = fullShare)
    (hA : ∀ c w, (pdats m ρ p c).A w = Win c (Proc.devRef .tc (Pipeline.arrRef (cfgs p).spec w)))
    (howed : ∀ c t, (pdats m ρ p c).owed t = 0)
    (hrec : ∀ c x, x ∈ (pdats m ρ p c).recorded 0)
    (hΦ0 : ∀ c, (pdats m ρ p c).Φ 0 = Pipeline.ΦA (cfgs p).spec c)
    (hΦN : ∀ c, (pdats m ρ p c).Φ (Fin.last _) = Pipeline.ΦA (cfgs p).spec c)
    (hF : ∀ c w, (pdats m ρ p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c (Proc.devRef .tc b))
  hentry c := by
    rw [Pipeline.ownSems0_none]
    have hsplit := Pipeline.arrays_of_unscopedBufs (p := p) (pcfgs (F := F)) adm (pdats m ρ) launch.win launch.arr_whole c
      (hshare c) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) (hshare c)
      (fun b => Win c (Proc.devRef .tc b)) (fun b => Wout c (Proc.devRef .tc b)) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
abbrev reg0 := regOf m ρ 0 launch0 (W1 m ρ) (W2 m ρ) (body_obligation0 (Vin0 m ρ)) (fun c => (pdats m ρ 0 c).share_full fun _ => rfl) (fun _ _ => rfl) (fun _ _ => rfl) (fun _ _ => trivial) (fun _ => rfl) (fun _ => rfl) (fun c w => (W2_arr m ρ c w).symm) (exitW_rest _ _)
set_option backward.isDefEq.respectTransparency.types false in
abbrev reg1 := regOf m ρ 1 launch1 (W3 m ρ) (W4 m ρ) (body_obligation1 (Vin1 m ρ)) (fun c => (pdats m ρ 1 c).share_full fun _ => rfl) (fun _ _ => rfl) (fun _ _ => rfl) (fun _ _ => trivial) (fun _ => rfl) (fun _ => rfl) (fun c w => (W4_arr m ρ c w).symm) (exitW_rest _ _)
set_option backward.isDefEq.respectTransparency.types false in
abbrev reg2 := regOf m ρ 2 launch2 (W5 m ρ) (W6 m ρ) (body_obligation2 (Vin2 m ρ)) (fun c => (pdats m ρ 2 c).share_full fun _ => rfl) (fun _ _ => rfl) (fun _ _ => rfl) (fun _ _ => trivial) (fun _ => rfl) (fun _ => rfl) (fun c w => (W6_arr m ρ c w).symm) (exitW_rest _ _)
set_option backward.isDefEq.respectTransparency.types false in
abbrev reg3 := regOf m ρ 3 launch3 (W7 m ρ) (W8 m ρ) (body_obligation3 (Vin3 m ρ)) (fun c => (pdats m ρ 3 c).share_full fun _ => rfl) (fun _ _ => rfl) (fun _ _ => rfl) (fun _ _ => trivial) (fun _ => rfl) (fun _ => rfl) (fun c w => (W8_arr m ρ c w).symm) (exitW_rest _ _)
set_option backward.isDefEq.respectTransparency.types false in
abbrev reg4 := regOf m ρ 4 launch4 (W9 m ρ) (W10 m ρ) (body_obligation4 (Vin4 m ρ)) (fun c => (pdats m ρ 4 c).share_full fun _ => rfl) (fun _ _ => rfl) (fun _ _ => rfl) (fun _ _ => trivial) (fun _ => rfl) (fun _ => rfl) (fun c w => (W10_arr m ρ c w).symm) (exitW_rest _ _)
set_option backward.isDefEq.respectTransparency.types false in
abbrev reg5 := regOf m ρ 5 launch5 (W11 m ρ) (W12 m ρ) (body_obligation5 (Vin5 m ρ)) (fun c => (pdats m ρ 5 c).share_full fun _ => rfl) (fun _ _ => rfl) (fun _ _ => rfl) (fun _ _ => trivial) (fun _ => rfl) (fun _ => rfl) (fun c w => (W12_arr m ρ c w).symm) (exitW_rest _ _)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .host (hseg hostOps6_1 hostOps6_1_sub hostOps6_1_fresh (W13 m ρ)) ]

theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v115) = W14 m ρ c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W14 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v115 (by decide)),
        (h c _ (mem_uc main_arg0 (by decide))).trans (W14_arg m ρ c main_arg0),
        (h c _ (mem_uc main_arg1 (by decide))).trans (W14_arg m ρ c main_arg1),
        (h c _ (mem_uc main_arg2 (by decide))).trans (W14_arg m ρ c main_arg2),
        (h c _ (mem_uc main_arg3 (by decide))).trans (W14_arg m ρ c main_arg3),
        (h c _ (mem_uc main_arg4 (by decide))).trans (W14_arg m ρ c main_arg4),
        (h c _ (mem_uc main_arg5 (by decide))).trans (W14_arg m ρ c main_arg5),
        (h c _ (mem_uc main_arg6 (by decide))).trans (W14_arg m ρ c main_arg6),
        (h c _ (mem_uc main_arg7 (by decide))).trans (W14_arg m ρ c main_arg7),
        (h c _ (mem_uc main_arg8 (by decide))).trans (W14_arg m ρ c main_arg8),
        (h c _ (mem_uc main_arg9 (by decide))).trans (W14_arg m ρ c main_arg9),
        (h c _ (mem_uc main_arg10 (by decide))).trans (W14_arg m ρ c main_arg10),
        (h c _ (mem_uc main_arg11 (by decide))).trans (W14_arg m ρ c main_arg11),
        (h c _ (mem_uc main_arg12 (by decide))).trans (W14_arg m ρ c main_arg12),
        (h c _ (mem_uc main_arg13 (by decide))).trans (W14_arg m ρ c main_arg13),
        (h c _ (mem_uc main_arg14 (by decide))).trans (W14_arg m ρ c main_arg14),
        (h c _ (mem_uc main_arg15 (by decide))).trans (W14_arg m ρ c main_arg15),
        (h c _ (mem_uc main_arg16 (by decide))).trans (W14_arg m ρ c main_arg16),
        (h c _ (mem_uc main_arg17 (by decide))).trans (W14_arg m ρ c main_arg17),
        (h c _ (mem_uc main_arg18 (by decide))).trans (W14_arg m ρ c main_arg18),
        (h c _ (mem_uc main_arg19 (by decide))).trans (W14_arg m ρ c main_arg19),
        (h c _ (mem_uc main_arg20 (by decide))).trans (W14_arg m ρ c main_arg20),
        (h c _ (mem_uc main_arg21 (by decide))).trans (W14_arg m ρ c main_arg21),
        (h c _ (mem_uc main_arg22 (by decide))).trans (W14_arg m ρ c main_arg22),
        (h c _ (mem_uc main_arg23 (by decide))).trans (W14_arg m ρ c main_arg23),
        (h c _ (mem_uc main_arg24 (by decide))).trans (W14_arg m ρ c main_arg24),
        (h c _ (mem_uc main_arg25 (by decide))).trans (W14_arg m ρ c main_arg25),
        (h c _ (mem_uc main_arg26 (by decide))).trans (W14_arg m ρ c main_arg26),
        (h c _ (mem_uc main_arg27 (by decide))).trans (W14_arg m ρ c main_arg27)⟩)

end Cert.KernelIdeal.Run

end
-- ==== Proof.Spec.lean ====
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

abbrev Arr (n c : Nat) : Type := (⟨2, ![n, c]⟩ : Shape).Idx → EReal

def act (relu : Bool) (x : EReal) : EReal := if relu then max x 0 else x

def edgeFeat {n cx cew cout : Nat} (relu : Bool) (xs xd : Arr n cx) (ew : Arr n cew) (w1 w2 : Arr cx cout) (w3 : Arr cew cout)
    (b : Arr 1 cout) : Arr n cout :=
  fun i => act relu ((((∑ k : Fin cx, xs (ix2 (i 0) k) * w1 (ix2 k (i 1))) + (∑ k : Fin cx, xd (ix2 (i 0) k) * w2 (ix2 k (i 1))))
    + (∑ k : Fin cew, ew (ix2 (i 0) k) * w3 (ix2 k (i 1)))) + b (ix2 0 (i 1)))

def edgeMsg {n cx cout : Nat} (feat : Arr n cout) (xs : Arr n cx) (nw : Arr cout 1) (nb : Arr 1 1) : Arr n cx :=
  fun i => max ((∑ k : Fin cout, feat (ix2 (i 0) k) * nw (ix2 k 0)) + nb (ix2 0 0)) 0 * xs i

def node {n cin cout : Nat} (agg x : Arr n cin) (wrel : Arr cin cout) (b : Arr 1 cout) (wroot : Arr cin cout) : Arr n cout :=
  fun i => max (((∑ k : Fin cin, agg (ix2 (i 0) k) * wrel (ix2 k (i 1))) + b (ix2 0 (i 1)))
    + (∑ k : Fin cin, x (ix2 (i 0) k) * wroot (ix2 k (i 1)))) 0

theorem zeroOffsets : (![0, 0] : Fin 2 → Nat) = fun _ => 0 :=
  funext fun a => match a with | ⟨0, _⟩ => rfl | ⟨1, _⟩ => rfl

-- The node update's entry depends only on its factors and its bias.
theorem node_congr {ι : Type} [Fintype ι] {a a' w w' x x' r r' : ι → EReal} {b b' : EReal}
    (ha : ∀ k, a k = a' k) (hw : ∀ k, w k = w' k) (hb : b = b') (hx : ∀ k, x k = x' k) (hr : ∀ k, r k = r' k) :
    max (((∑ k, a k * w k) + b) + ∑ k, x k * r k) 0 = max (((∑ k, a' k * w' k) + b') + ∑ k, x' k * r' k) 0 := by
  obtain rfl := funext ha
  obtain rfl := funext hw
  obtain rfl := funext hx
  obtain rfl := funext hr
  subst hb
  rfl

-- A concatenation of three column blocks, read in the first, second or third block.
section Pieces
variable {α : Type}

theorem cat3_apply_0 {n c0 c1 c2 c : Nat} (y0 : (⟨2, ![n, c0]⟩ : Shape).Idx → α) (y1 : (⟨2, ![n, c1]⟩ : Shape).Idx → α)
    (y2 : (⟨2, ![n, c2]⟩ : Shape).Idx → α)
    (h : Shape.Concatenates [(⟨2, ![n, c0]⟩ : Shape), ⟨2, ![n, c1]⟩, ⟨2, ![n, c2]⟩] ⟨2, ![n, c]⟩ 1)
    (r : Fin n) (k : Fin c0) (k' : Fin c) (hk : k'.val = k.val) :
    concatenate (⟨2, ![n, c]⟩ : Shape) 1 [⟨⟨2, ![n, c0]⟩, y0⟩, ⟨⟨2, ![n, c1]⟩, y1⟩, ⟨⟨2, ![n, c2]⟩, y2⟩] h (ix2 r k') = y0 (ix2 r k) := by
  refine concatenate_apply_piece (t := ⟨2, ![n, c]⟩) (1 : Fin 2)
    [⟨⟨2, ![n, c0]⟩, y0⟩, ⟨⟨2, ![n, c1]⟩, y1⟩, ⟨⟨2, ![n, c2]⟩, y2⟩] h (ix2 r k') 0 (show (0 : Nat) < 3 by omega) ⟨2, ![n, c0]⟩ y0 rfl rfl 0 rfl (ix2 r k) ?_ ?_
  · intro b hb
    match b with
    | ⟨0, _⟩ => rfl
    | ⟨1, _⟩ => exact absurd rfl hb
  · show 0 + k.val = k'.val
    omega

theorem cat3_apply_1 {n c0 c1 c2 c : Nat} (y0 : (⟨2, ![n, c0]⟩ : Shape).Idx → α) (y1 : (⟨2, ![n, c1]⟩ : Shape).Idx → α)
    (y2 : (⟨2, ![n, c2]⟩ : Shape).Idx → α)
    (h : Shape.Concatenates [(⟨2, ![n, c0]⟩ : Shape), ⟨2, ![n, c1]⟩, ⟨2, ![n, c2]⟩] ⟨2, ![n, c]⟩ 1)
    (r : Fin n) (k : Fin c1) (k' : Fin c) (hk : k'.val = c0 + k.val) :
    concatenate (⟨2, ![n, c]⟩ : Shape) 1 [⟨⟨2, ![n, c0]⟩, y0⟩, ⟨⟨2, ![n, c1]⟩, y1⟩, ⟨⟨2, ![n, c2]⟩, y2⟩] h (ix2 r k') = y1 (ix2 r k) := by
  refine concatenate_apply_piece (t := ⟨2, ![n, c]⟩) (1 : Fin 2)
    [⟨⟨2, ![n, c0]⟩, y0⟩, ⟨⟨2, ![n, c1]⟩, y1⟩, ⟨⟨2, ![n, c2]⟩, y2⟩] h (ix2 r k') 1 (show (1 : Nat) < 3 by omega) ⟨2, ![n, c1]⟩ y1 rfl rfl c0 ?_ (ix2 r k) ?_ ?_
  · show (if h : (2 : Nat) = 2 then c0 else 0) + 0 = c0
    rw [dif_pos rfl]; rfl
  · intro b hb
    match b with
    | ⟨0, _⟩ => rfl
    | ⟨1, _⟩ => exact absurd rfl hb
  · show c0 + k.val = k'.val
    omega

theorem cat3_apply_2 {n c0 c1 c2 c : Nat} (y0 : (⟨2, ![n, c0]⟩ : Shape).Idx → α) (y1 : (⟨2, ![n, c1]⟩ : Shape).Idx → α)
    (y2 : (⟨2, ![n, c2]⟩ : Shape).Idx → α)
    (h : Shape.Concatenates [(⟨2, ![n, c0]⟩ : Shape), ⟨2, ![n, c1]⟩, ⟨2, ![n, c2]⟩] ⟨2, ![n, c]⟩ 1)
    (r : Fin n) (k : Fin c2) (k' : Fin c) (hk : k'.val = c0 + c1 + k.val) :
    concatenate (⟨2, ![n, c]⟩ : Shape) 1 [⟨⟨2, ![n, c0]⟩, y0⟩, ⟨⟨2, ![n, c1]⟩, y1⟩, ⟨⟨2, ![n, c2]⟩, y2⟩] h (ix2 r k') = y2 (ix2 r k) := by
  refine concatenate_apply_piece (t := ⟨2, ![n, c]⟩) (1 : Fin 2)
    [⟨⟨2, ![n, c0]⟩, y0⟩, ⟨⟨2, ![n, c1]⟩, y1⟩, ⟨⟨2, ![n, c2]⟩, y2⟩] h (ix2 r k') 2 (show (2 : Nat) < 3 by omega) ⟨2, ![n, c2]⟩ y2 rfl rfl (c0 + c1) ?_ (ix2 r k) ?_ ?_
  · show (if h : (2 : Nat) = 2 then c0 else 0) + ((if h : (2 : Nat) = 2 then c1 else 0) + 0) = c0 + c1
    rw [dif_pos rfl]; rfl
  · intro b hb
    match b with
    | ⟨0, _⟩ => rfl
    | ⟨1, _⟩ => exact absurd rfl hb
  · show c0 + c1 + k.val = k'.val
    omega

end Pieces

end Cert.Spec

end
-- ==== Proof.KI.Final0.lean ====
import proofs.«423123_j317827579936_1_alg».proof.Proof.KI.Region0
import proofs.«423123_j317827579936_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem r0_matmul_feat_apply (a : FVec Ideal S65536x1 .f32) (b : FVec Ideal S1x2 .f32) (p : Fin 65536) (q : Fin 2) :
    matmul dot_S65536x1_S1x2_S65536x2_1_0_0_1_n_n none a b (constant (F := Ideal) S65536x2 .f32 0x00000000#32) (ix2 p q)
      = ∑ k : Fin 1, a (ix2 p k) * b (ix2 k q) :=
  (congrFun (matmul_zero_eq_dotGeneral (DotDims.plain 65536 1 2) none a b) (ix2 p q)).trans (StackMember.dotGeneral_plain_apply none a b p q)

theorem r0_matmul_msg_apply (a : FVec Ideal S65536x2 .f32) (b : FVec Ideal S2x1 .f32) (p : Fin 65536) (q : Fin 1) :
    matmul dot_S65536x2_S2x1_S65536x1_1_0_0_1_n_n none a b (constant (F := Ideal) S65536x1 .f32 0x00000000#32) (ix2 p q)
      = ∑ k : Fin 2, a (ix2 p k) * b (ix2 k q) :=
  (congrFun (matmul_zero_eq_dotGeneral (DotDims.plain 65536 2 1) none a b) (ix2 p q)).trans (StackMember.dotGeneral_plain_apply none a b p q)

theorem r0_bcast_bias_apply (b : FVec Ideal S1x2 .f32) (p : Fin 65536) (q : Fin 2) :
    broadcastTo S65536x2 b broadcasts_S1x2_S65536x2 (ix2 p q) = b (ix2 0 q) :=
  broadcastTo_1b_ab_apply b broadcasts_S1x2_S65536x2 p q
theorem r0_bcast_scalar_apply (b : FVec Ideal S1x1 .f32) (p : Fin 65536) (q : Fin 1) :
    broadcastTo S65536x1 b broadcasts_S1x1_S65536x1 (ix2 p q) = b (ix2 0 0) :=
  (broadcastTo_1b_ab_apply b broadcasts_S1x1_S65536x1 p q).trans (congrArg (fun j => b (ix2 0 j)) (Subsingleton.elim q 0))
theorem r0_feat_payload_apply (x0 x1 x2 : Vec Ideal S65536x1 .f32) (w1 w2 w3 b : Vec Ideal S1x2 .f32) (p : Fin 65536) (q : Fin 2) :
    k0_pay2 (F := Ideal) x0 x1 x2 w1 w2 w3 b (ix2 p q)
      = max ((((∑ k : Fin 1, x0 (ix2 p k) * w1 (ix2 k q)) + (∑ k : Fin 1, x1 (ix2 p k) * w2 (ix2 k q)))
          + (∑ k : Fin 1, x2 (ix2 p k) * w3 (ix2 k q))) + b (ix2 0 q)) 0 := by
  unfold k0_pay2 k0_pay1
  simp only [shapeCast_self]
  rw [maximumf_apply, addf_apply, addf_apply, addf_apply, r0_matmul_feat_apply, r0_matmul_feat_apply, r0_matmul_feat_apply, r0_bcast_bias_apply, broadcast_apply]
  show max _ (Ideal.ofBits .f32 0x00000000#32) = _
  rw [Ideal.ofBits_zero_f32]

theorem r0_msg_payload_apply (x0 x1 x2 : Vec Ideal S65536x1 .f32) (w1 w2 w3 b : Vec Ideal S1x2 .f32) (nw : Vec Ideal S2x1 .f32) (nb : Vec Ideal S1x1 .f32)
    (p : Fin 65536) (q : Fin 1) :
    k0_pay3 (F := Ideal) x0 x1 x2 w1 w2 w3 b nw nb (ix2 p q)
      = max ((∑ k : Fin 2, k0_pay2 (F := Ideal) x0 x1 x2 w1 w2 w3 b (ix2 p k) * nw (ix2 k q)) + nb (ix2 0 0)) 0 * x0 (ix2 p q) := by
  unfold k0_pay3 k0_pay1
  simp only [shapeCast_self]
  rw [mulf_apply, maximumf_apply, addf_apply, r0_matmul_msg_apply, r0_bcast_scalar_apply, broadcast_apply]
  show max _ (Ideal.ofBits .f32 0x00000000#32) * _ = _
  rw [Ideal.ofBits_zero_f32]

theorem r0_block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem r0_src_block_apply (c : Dev nD) (t : Fin cfg0.N) (p : Fin 65536) (k : Fin 1) (r : Fin 13303808) (hr : r.val = t.val * 65536 + p.val) :
    (iblk0 V c 0 t : Vec Ideal S65536x1 .f32) (ix2 p k) = (V c main_v10 : S13303808x1.Idx → EReal) (ix2 r k) := by
  have e := (r0_block_indices t).1
  show V c main_v10 (((cfg0.win 0).blk t).view.emb (ix2 p k)) = _
  refine congrArg _ (funext fun a => Fin.ext ?_)
  match a with
  | ⟨0, _⟩ => show win0_0.index t (0 : Fin 2) * 65536 + 1 * p.val = r.val; omega
  | ⟨1, _⟩ => show win0_0.index t (1 : Fin 2) * 1 + 1 * k.val = k.val; omega

theorem r0_dst_block_apply (c : Dev nD) (t : Fin cfg0.N) (p : Fin 65536) (k : Fin 1) (r : Fin 13303808) (hr : r.val = t.val * 65536 + p.val) :
    (iblk0 V c 1 t : Vec Ideal S65536x1 .f32) (ix2 p k) = (V c main_v17 : S13303808x1.Idx → EReal) (ix2 r k) := by
  have e := (r0_block_indices t).2.1
  show V c main_v17 (((cfg0.win 1).blk t).view.emb (ix2 p k)) = _
  refine congrArg _ (funext fun a => Fin.ext ?_)
  match a with
  | ⟨0, _⟩ => show win0_1.index t (0 : Fin 2) * 65536 + 1 * p.val = r.val; omega
  | ⟨1, _⟩ => show win0_1.index t (1 : Fin 2) * 1 + 1 * k.val = k.val; omega

theorem r0_prev_block_apply (c : Dev nD) (t : Fin cfg0.N) (p : Fin 65536) (k : Fin 1) (r : Fin 13303808) (hr : r.val = t.val * 65536 + p.val) :
    (iblk0 V c 2 t : Vec Ideal S65536x1 .f32) (ix2 p k) = (V c main_arg2 : S13303808x1.Idx → EReal) (ix2 r k) := by
  have e := (r0_block_indices t).2.2.1
  show V c main_arg2 (((cfg0.win 2).blk t).view.emb (ix2 p k)) = _
  refine congrArg _ (funext fun a => Fin.ext ?_)
  match a with
  | ⟨0, _⟩ => show win0_2.index t (0 : Fin 2) * 65536 + 1 * p.val = r.val; omega
  | ⟨1, _⟩ => show win0_2.index t (1 : Fin 2) * 1 + 1 * k.val = k.val; omega

theorem r0_w1_block_apply (c : Dev nD) (t : Fin cfg0.N) (k : Fin 1) (q : Fin 2) :
    (iblk0 V c 3 t : Vec Ideal S1x2 .f32) (ix2 k q) = (V c main_v18 : S1x2.Idx → EReal) (ix2 k q) := by
  have e := (r0_block_indices t).2.2.2.1
  show V c main_v18 (((cfg0.win 3).blk t).view.emb (ix2 k q)) = _
  refine congrArg _ (funext fun a => Fin.ext ?_)
  match a with
  | ⟨0, _⟩ => show win0_3.index t (0 : Fin 2) * 1 + 1 * k.val = k.val; omega
  | ⟨1, _⟩ => show win0_3.index t (1 : Fin 2) * 2 + 1 * q.val = q.val; omega

theorem r0_w2_block_apply (c : Dev nD) (t : Fin cfg0.N) (k : Fin 1) (q : Fin 2) :
    (iblk0 V c 4 t : Vec Ideal S1x2 .f32) (ix2 k q) = (V c main_v19 : S1x2.Idx → EReal) (ix2 k q) := by
  have e := (r0_block_indices t).2.2.2.2.1
  show V c main_v19 (((cfg0.win 4).blk t).view.emb (ix2 k q)) = _
  refine congrArg _ (funext fun a => Fin.ext ?_)
  match a with
  | ⟨0, _⟩ => show win0_4.index t (0 : Fin 2) * 1 + 1 * k.val = k.val; omega
  | ⟨1, _⟩ => show win0_4.index t (1 : Fin 2) * 2 + 1 * q.val = q.val; omega

theorem r0_w3_block_apply (c : Dev nD) (t : Fin cfg0.N) (k : Fin 1) (q : Fin 2) :
    (iblk0 V c 5 t : Vec Ideal S1x2 .f32) (ix2 k q) = (V c main_v20 : S1x2.Idx → EReal) (ix2 k q) := by
  have e := (r0_block_indices t).2.2.2.2.2.1
  show V c main_v20 (((cfg0.win 5).blk t).view.emb (ix2 k q)) = _
  refine congrArg _ (funext fun a => Fin.ext ?_)
  match a with
  | ⟨0, _⟩ => show win0_5.index t (0 : Fin 2) * 1 + 1 * k.val = k.val; omega
  | ⟨1, _⟩ => show win0_5.index t (1 : Fin 2) * 2 + 1 * q.val = q.val; omega

theorem r0_bias_block_apply (c : Dev nD) (t : Fin cfg0.N) (k : Fin 1) (q : Fin 2) :
    (iblk0 V c 6 t : Vec Ideal S1x2 .f32) (ix2 k q) = (V c main_v21 : S1x2.Idx → EReal) (ix2 k q) := by
  have e := (r0_block_indices t).2.2.2.2.2.2.1
  show V c main_v21 (((cfg0.win 6).blk t).view.emb (ix2 k q)) = _
  refine congrArg _ (funext fun a => Fin.ext ?_)
  match a with
  | ⟨0, _⟩ => show win0_6.index t (0 : Fin 2) * 1 + 1 * k.val = k.val; omega
  | ⟨1, _⟩ => show win0_6.index t (1 : Fin 2) * 2 + 1 * q.val = q.val; omega

theorem r0_nw_block_apply (c : Dev nD) (t : Fin cfg0.N) (k : Fin 2) (q : Fin 1) :
    (iblk0 V c 7 t : Vec Ideal S2x1 .f32) (ix2 k q) = (V c main_arg20 : S2x1.Idx → EReal) (ix2 k q) := by
  have e := (r0_block_indices t).2.2.2.2.2.2.2.1
  show V c main_arg20 (((cfg0.win 7).blk t).view.emb (ix2 k q)) = _
  refine congrArg _ (funext fun a => Fin.ext ?_)
  match a with
  | ⟨0, _⟩ => show win0_7.index t (0 : Fin 2) * 2 + 1 * k.val = k.val; omega
  | ⟨1, _⟩ => show win0_7.index t (1 : Fin 2) * 1 + 1 * q.val = q.val; omega

theorem r0_nb_block_apply (c : Dev nD) (t : Fin cfg0.N) (k : Fin 1) (q : Fin 1) :
    (iblk0 V c 8 t : Vec Ideal S1x1 .f32) (ix2 k q) = (V c main_v22 : S1x1.Idx → EReal) (ix2 k q) := by
  have e := (r0_block_indices t).2.2.2.2.2.2.2.2.1
  show V c main_v22 (((cfg0.win 8).blk t).view.emb (ix2 k q)) = _
  refine congrArg _ (funext fun a => Fin.ext ?_)
  match a with
  | ⟨0, _⟩ => show win0_8.index t (0 : Fin 2) * 1 + 1 * k.val = k.val; omega
  | ⟨1, _⟩ => show win0_8.index t (1 : Fin 2) * 1 + 1 * q.val = q.val; omega

theorem r0_feat_block_emb (t : Fin cfg0.N) (p : Fin 65536) (q : Fin 2) (r : Fin 13303808) (hr : r.val = t.val * 65536 + p.val) :
    ((cfg0.win 9).blk t).view.emb (ix2 p q) = ix2 (n0 := 13303808) (n1 := 2) r q := by
  have e := (r0_block_indices t).2.2.2.2.2.2.2.2.2.1
  refine funext fun a => Fin.ext ?_
  match a with
  | ⟨0, _⟩ => show win0_9.index t (0 : Fin 2) * 65536 + 1 * p.val = r.val; omega
  | ⟨1, _⟩ => show win0_9.index t (1 : Fin 2) * 2 + 1 * q.val = q.val; omega

theorem r0_msg_block_emb (t : Fin cfg0.N) (p : Fin 65536) (q : Fin 1) (r : Fin 13303808) (hr : r.val = t.val * 65536 + p.val) :
    ((cfg0.win 10).blk t).view.emb (ix2 p q) = ix2 (n0 := 13303808) (n1 := 1) r q := by
  have e := (r0_block_indices t).2.2.2.2.2.2.2.2.2.2
  refine funext fun a => Fin.ext ?_
  match a with
  | ⟨0, _⟩ => show win0_10.index t (0 : Fin 2) * 65536 + 1 * p.val = r.val; omega
  | ⟨1, _⟩ => show win0_10.index t (1 : Fin 2) * 1 + 1 * q.val = q.val; omega

theorem r0_edgeFeat_at {n cx cew cout : Nat} (xs xd : Cert.Spec.Arr n cx) (ew : Cert.Spec.Arr n cew) (w1 w2 : Cert.Spec.Arr cx cout)
    (w3 : Cert.Spec.Arr cew cout) (b : Cert.Spec.Arr 1 cout) (r : Fin n) (q : Fin cout) :
    Cert.Spec.edgeFeat true xs xd ew w1 w2 w3 b (ix2 r q)
      = max ((((∑ k : Fin cx, xs (ix2 r k) * w1 (ix2 k q)) + (∑ k : Fin cx, xd (ix2 r k) * w2 (ix2 k q)))
          + (∑ k : Fin cew, ew (ix2 r k) * w3 (ix2 k q))) + b (ix2 0 q)) 0 := rfl

theorem r0_edgeMsg_at {n cx cout : Nat} (feat : Cert.Spec.Arr n cout) (xs : Cert.Spec.Arr n cx) (nw : Cert.Spec.Arr cout 1) (nb : Cert.Spec.Arr 1 1)
    (r : Fin n) (q : Fin cx) :
    Cert.Spec.edgeMsg feat xs nw nb (ix2 r q)
      = max ((∑ k : Fin cout, feat (ix2 r k) * nw (ix2 k 0)) + nb (ix2 0 0)) 0 * xs (ix2 r q) := rfl

theorem r0_feat_point (c : Dev nD) (t : Fin cfg0.N) (p : Fin 65536) (q : Fin 2) (r : Fin 13303808) (hr : r.val = t.val * 65536 + p.val) :
    k0_pay2 (F := Ideal) (iblk0 V c 0 t) (iblk0 V c 1 t) (iblk0 V c 2 t) (iblk0 V c 3 t) (iblk0 V c 4 t) (iblk0 V c 5 t) (iblk0 V c 6 t) (ix2 p q)
      = Cert.Spec.edgeFeat true (V c main_v10) (V c main_v17) (V c main_arg2) (V c main_v18) (V c main_v19) (V c main_v20) (V c main_v21) (ix2 r q) := by
  refine (r0_feat_payload_apply _ _ _ _ _ _ _ p q).trans ?_
  refine Eq.trans ?_ (r0_edgeFeat_at (n := 13303808) (cx := 1) (cew := 1) (cout := 2) (V c main_v10) (V c main_v17) (V c main_arg2) (V c main_v18) (V c main_v19) (V c main_v20) (V c main_v21) r q).symm
  simp only [r0_src_block_apply V c t p _ r hr, r0_dst_block_apply V c t p _ r hr, r0_prev_block_apply V c t p _ r hr, r0_w1_block_apply V c t, r0_w2_block_apply V c t, r0_w3_block_apply V c t, r0_bias_block_apply V c t]

theorem r0_msg_point (c : Dev nD) (t : Fin cfg0.N) (p : Fin 65536) (q : Fin 1) (r : Fin 13303808) (hr : r.val = t.val * 65536 + p.val) :
    k0_pay3 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
      = Cert.Spec.edgeMsg (Cert.Spec.edgeFeat true (V c main_v10) (V c main_v17) (V c main_arg2) (V c main_v18) (V c main_v19) (V c main_v20) (V c main_v21)) (V c main_v10) (V c main_arg20) (V c main_v22) (ix2 r q) := by
  refine (r0_msg_payload_apply _ _ _ _ _ _ _ _ _ p q).trans ?_
  refine Eq.trans ?_ (r0_edgeMsg_at (n := 13303808) (cx := 1) (cout := 2) (Cert.Spec.edgeFeat true (V c main_v10) (V c main_v17) (V c main_arg2) (V c main_v18) (V c main_v19) (V c main_v20) (V c main_v21)) (V c main_v10) (V c main_arg20) (V c main_v22) r q).symm
  obtain rfl : q = 0 := Subsingleton.elim _ _
  simp only [r0_feat_point V c t p _ r hr, r0_nw_block_apply V c t, r0_nb_block_apply V c t, r0_src_block_apply V c t p _ r hr]

theorem r0_flushed_feat (c : Dev nD) (t : Fin cfg0.N) :
    (dat0 (F := Ideal) V c).flushed 9 t = ((cfg0.win 9).blk t).view.read (Elt Ideal) (Cert.Spec.edgeFeat true (V c main_v10) (V c main_v17) (V c main_arg2) (V c main_v18) (V c main_v19) (V c main_v20) (V c main_v21)) := by
  show (cfg0.win 9).cut (grid0.coords t) ((dat0 V c).after 9 t) = _
  rw [after0_9]
  unfold out0_9
  rw [View.canon_unit_zero Cert.Spec.zeroOffsets]
  simp only [View.ld_unit_zero (S := S65536x1) Cert.Spec.zeroOffsets, View.ld_unit_zero (S := S1x2) Cert.Spec.zeroOffsets]
  funext j
  obtain ⟨p, q, rfl⟩ : ∃ (p : Fin 65536) (q : Fin 2), j = ix2 p q := ⟨j 0, j 1, eq_ix2 j⟩
  have hN : cfg0.N = 203 := N_0
  have hr : t.val * 65536 + p.val < 13303808 := by have := t.isLt; omega
  show k0_pay2 (F := Ideal) (iblk0 V c 0 t) (iblk0 V c 1 t) (iblk0 V c 2 t) (iblk0 V c 3 t) (iblk0 V c 4 t) (iblk0 V c 5 t) (iblk0 V c 6 t) (ix2 p q)
    = Cert.Spec.edgeFeat true (V c main_v10) (V c main_v17) (V c main_arg2) (V c main_v18) (V c main_v19) (V c main_v20) (V c main_v21) (((cfg0.win 9).blk t).view.emb (ix2 p q))
  rw [r0_feat_block_emb t p q ⟨_, hr⟩ rfl]
  exact r0_feat_point V c t p q ⟨_, hr⟩ rfl

theorem r0_flushed_msg (c : Dev nD) (t : Fin cfg0.N) :
    (dat0 (F := Ideal) V c).flushed 10 t = ((cfg0.win 10).blk t).view.read (Elt Ideal) (Cert.Spec.edgeMsg (Cert.Spec.edgeFeat true (V c main_v10) (V c main_v17) (V c main_arg2) (V c main_v18) (V c main_v19) (V c main_v20) (V c main_v21)) (V c main_v10) (V c main_arg20) (V c main_v22)) := by
  show (cfg0.win 10).cut (grid0.coords t) ((dat0 V c).after 10 t) = _
  rw [after0_10]
  unfold out0_10
  rw [View.canon_unit_zero Cert.Spec.zeroOffsets]
  simp only [View.ld_unit_zero (S := S65536x1) Cert.Spec.zeroOffsets, View.ld_unit_zero (S := S1x2) Cert.Spec.zeroOffsets, View.ld_unit_zero (S := S2x1) Cert.Spec.zeroOffsets, View.ld_unit_zero (S := S1x1) Cert.Spec.zeroOffsets]
  funext j
  obtain ⟨p, q, rfl⟩ : ∃ (p : Fin 65536) (q : Fin 1), j = ix2 p q := ⟨j 0, j 1, eq_ix2 j⟩
  have hN : cfg0.N = 203 := N_0
  have hr : t.val * 65536 + p.val < 13303808 := by have := t.isLt; omega
  show k0_pay3 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = Cert.Spec.edgeMsg (Cert.Spec.edgeFeat true (V c main_v10) (V c main_v17) (V c main_arg2) (V c main_v18) (V c main_v19) (V c main_v20) (V c main_v21)) (V c main_v10) (V c main_arg20) (V c main_v22) (((cfg0.win 10).blk t).view.emb (ix2 p q))
  rw [r0_msg_block_emb t p q ⟨_, hr⟩ rfl]
  exact r0_msg_point V c t p q ⟨_, hr⟩ rfl

theorem r0_mem_feat_blk (t : Fin cfg0.N) (i : S13303808x2.Idx) :
    i ∈ ((cfg0.win 9).blk t).view.set ↔ ∀ a : Fin 2, win0_9.index t a * S65536x2.size a ≤ (i a).val ∧ (i a).val < win0_9.index t a * S65536x2.size a + S65536x2.size a := by
  show i ∈ ((View.whole main_v23_0).slice (win0_9.rect t)).set ↔ _
  rw [View.set_slice_whole, Rect.mem_set_unit]
  exact Iff.rfl

theorem r0_mem_msg_blk (t : Fin cfg0.N) (i : S13303808x1.Idx) :
    i ∈ ((cfg0.win 10).blk t).view.set ↔ ∀ a : Fin 2, win0_10.index t a * S65536x1.size a ≤ (i a).val ∧ (i a).val < win0_10.index t a * S65536x1.size a + S65536x1.size a := by
  show i ∈ ((View.whole main_v23_1).slice (win0_10.rect t)).set ↔ _
  rw [View.set_slice_whole, Rect.mem_set_unit]
  exact Iff.rfl

theorem r0_feat_cover (i : S13303808x2.Idx) : ∃ t : Fin cfg0.N, (cfg0.win 9).flush t = true ∧ i ∈ ((cfg0.win 9).blk t).view.set := by
  have hi0 : (i 0).val < 13303808 := (i 0).isLt
  have hi1 : (i 1).val < 2 := (i 1).isLt
  have hN : cfg0.N = 203 := N_0
  have ht : (i 0).val / 65536 < cfg0.N := by rw [hN]; omega
  refine ⟨⟨(i 0).val / 65536, ht⟩, flush0_9 _, ?_⟩
  rw [r0_mem_feat_blk]
  have e := (r0_block_indices ⟨(i 0).val / 65536, ht⟩).2.2.2.2.2.2.2.2.2.1
  have hv : (⟨(i 0).val / 65536, ht⟩ : Fin cfg0.N).val = (i 0).val / 65536 := rfl
  intro a
  match a with
  | ⟨0, _⟩ =>
    show win0_9.index ⟨(i 0).val / 65536, ht⟩ (0 : Fin 2) * 65536 ≤ (i 0).val ∧ (i 0).val < win0_9.index ⟨(i 0).val / 65536, ht⟩ (0 : Fin 2) * 65536 + 65536
    omega
  | ⟨1, _⟩ =>
    show win0_9.index ⟨(i 0).val / 65536, ht⟩ (1 : Fin 2) * 2 ≤ (i 1).val ∧ (i 1).val < win0_9.index ⟨(i 0).val / 65536, ht⟩ (1 : Fin 2) * 2 + 2
    omega

theorem r0_msg_cover (i : S13303808x1.Idx) : ∃ t : Fin cfg0.N, (cfg0.win 10).flush t = true ∧ i ∈ ((cfg0.win 10).blk t).view.set := by
  have hi0 : (i 0).val < 13303808 := (i 0).isLt
  have hi1 : (i 1).val < 1 := (i 1).isLt
  have hN : cfg0.N = 203 := N_0
  have ht : (i 0).val / 65536 < cfg0.N := by rw [hN]; omega
  refine ⟨⟨(i 0).val / 65536, ht⟩, flush0_10 _, ?_⟩
  rw [r0_mem_msg_blk]
  have e := (r0_block_indices ⟨(i 0).val / 65536, ht⟩).2.2.2.2.2.2.2.2.2.2
  have hv : (⟨(i 0).val / 65536, ht⟩ : Fin cfg0.N).val = (i 0).val / 65536 := rfl
  intro a
  match a with
  | ⟨0, _⟩ =>
    show win0_10.index ⟨(i 0).val / 65536, ht⟩ (0 : Fin 2) * 65536 ≤ (i 0).val ∧ (i 0).val < win0_10.index ⟨(i 0).val / 65536, ht⟩ (0 : Fin 2) * 65536 + 65536
    omega
  | ⟨1, _⟩ =>
    show win0_10.index ⟨(i 0).val / 65536, ht⟩ (1 : Fin 2) * 1 ≤ (i 1).val ∧ (i 1).val < win0_10.index ⟨(i 0).val / 65536, ht⟩ (1 : Fin 2) * 1 + 1
    omega

theorem final0_9 (c : Dev nD) :
    (dat0 (F := Ideal) V c).arrAt 9 cfg0.N = Cert.Spec.edgeFeat true (V c main_v10) (V c main_v17) (V c main_arg2) (V c main_v18) (V c main_v19) (V c main_v20) (V c main_v21) :=
  (dat0 (F := Ideal) V c).arrAt_eq_of_cover 9 (Cert.Spec.edgeFeat true (V c main_v10) (V c main_v17) (V c main_arg2) (V c main_v18) (V c main_v19) (V c main_v20) (V c main_v21))
    (fun t _ => r0_flushed_feat V c t) (fun i => r0_feat_cover i)

theorem final0_10 (c : Dev nD) :
    (dat0 (F := Ideal) V c).arrAt 10 cfg0.N = Cert.Spec.edgeMsg (Cert.Spec.edgeFeat true (V c main_v10) (V c main_v17) (V c main_arg2) (V c main_v18) (V c main_v19) (V c main_v20) (V c main_v21)) (V c main_v10) (V c main_arg20) (V c main_v22) :=
  (dat0 (F := Ideal) V c).arrAt_eq_of_cover 10 (Cert.Spec.edgeMsg (Cert.Spec.edgeFeat true (V c main_v10) (V c main_v17) (V c main_arg2) (V c main_v18) (V c main_v19) (V c main_v20) (V c main_v21)) (V c main_v10) (V c main_arg20) (V c main_v22))
    (fun t _ => r0_flushed_msg V c t) (fun i => r0_msg_cover i)

end Cert.KernelIdeal.Run

end
-- ==== Proof.KI.Final1.lean ====
import proofs.«423123_j317827579936_1_alg».proof.Proof.KI.Region1
import proofs.«423123_j317827579936_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)
open Idealize.ShloMosaic.ValueIdx

private theorem prod1_apply (x : Vec Ideal S16384x1 .f32) (w : Vec Ideal S1x3 .f32) (p : Fin 16384) (q : Fin 3) :
    matmul (φ₁ := .f32) (φ₂ := .f32) dot_S16384x1_S1x3_S16384x3_1_0_0_1_n_n none x w (constant (F := Ideal) S16384x3 .f32 0x00000000#32) (ix2 p q)
      = ∑ k : Fin 1, x (ix2 p k) * w (ix2 k q) :=
  (congrFun (matmul_zero_eq_dotGeneral (DotDims.plain 16384 1 3) none x w) (ix2 p q)).trans (StackMember.dotGeneral_plain_apply none x w p q)

private theorem biasRows1_apply (b : Vec Ideal S1x3 .f32) (p : Fin 16384) (q : Fin 3) :
    broadcastTo S16384x3 b broadcasts_S1x3_S16384x3 (ix2 p q) = b (ix2 0 q) :=
  broadcastTo_1b_ab_apply b broadcasts_S1x3_S16384x3 p q
private theorem nodePayload1_apply (a x : Vec Ideal S16384x1 .f32) (wrel : Vec Ideal S1x3 .f32) (b : Vec Ideal S1x3 .f32) (wroot : Vec Ideal S1x3 .f32)
    (p : Fin 16384) (q : Fin 3) :
    k1_pay1 (F := Ideal) a x wrel b wroot (ix2 p q)
      = max (((∑ k : Fin 1, a (ix2 p k) * wrel (ix2 k q)) + b (ix2 0 q)) + (∑ k : Fin 1, x (ix2 p k) * wroot (ix2 k q))) 0 := by
  unfold k1_pay1
  simp only [shapeCast_self]
  rw [maximumf_apply, addf_apply, addf_apply, broadcast_apply, prod1_apply, prod1_apply, biasRows1_apply]
  show max _ (Ideal.ofBits .f32 0x00000000#32) = _
  rw [Ideal.ofBits_zero_f32]

private theorem nodePayload1_at (a x : Vec Ideal S16384x1 .f32) (wrel : Vec Ideal S1x3 .f32) (b : Vec Ideal S1x3 .f32) (wroot : Vec Ideal S1x3 .f32)
    (j : S16384x3.Idx) :
    k1_pay1 (F := Ideal) a x wrel b wroot j
      = max (((∑ k : Fin 1, a (ix2 (j 0) k) * wrel (ix2 k (j 1))) + b (ix2 0 (j 1))) + (∑ k : Fin 1, x (ix2 (j 0) k) * wroot (ix2 k (j 1)))) 0 := by
  obtain ⟨p, q, rfl⟩ : ∃ (p : Fin 16384) (q : Fin 3), j = ix2 p q := ⟨j 0, j 1, eq_ix2 j⟩
  exact nodePayload1_apply a x wrel b wroot p q

variable (V : (c : Dev nD) → (b : Ref sig .tc) → Buf (Elt Ideal) ((c : Thread nD τ).loc b))

private theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

private theorem aggBlock1_apply (c : Dev nD) (t : Fin cfg1.N) (y : S16384x1.Idx) (k : S475136x1.Idx)
    (hk0 : (k 0).val = t.val * 16384 + (y 0).val) (hk1 : (k 1).val = (y 1).val) :
    (iblk1 (F := Ideal) V c 0 t : Vec Ideal S16384x1 .f32) y = (V c main_v26 : S475136x1.Idx → Elt Ideal .f32) k := by
  obtain ⟨e0, e1, -⟩ := blockIndex1 t
  show V c main_v26 (((cfg1.win 0).blk t).view.emb y) = V c main_v26 k
  refine congrArg _ (funext fun a => Fin.ext ?_)
  match a with
  | ⟨0, _⟩ => show win1_0.index t (0 : Fin 2) * 16384 + 1 * (y 0).val = (k 0).val; omega
  | ⟨1, _⟩ => show win1_0.index t (1 : Fin 2) * 1 + 1 * (y 1).val = (k 1).val; omega

private theorem featBlock1_apply (c : Dev nD) (t : Fin cfg1.N) (y : S16384x1.Idx) (k : S475136x1.Idx)
    (hk0 : (k 0).val = t.val * 16384 + (y 0).val) (hk1 : (k 1).val = (y 1).val) :
    (iblk1 (F := Ideal) V c 1 t : Vec Ideal S16384x1 .f32) y = (V c main_arg0 : S475136x1.Idx → Elt Ideal .f32) k := by
  obtain ⟨-, -, e0, e1, -⟩ := blockIndex1 t
  show V c main_arg0 (((cfg1.win 1).blk t).view.emb y) = V c main_arg0 k
  refine congrArg _ (funext fun a => Fin.ext ?_)
  match a with
  | ⟨0, _⟩ => show win1_1.index t (0 : Fin 2) * 16384 + 1 * (y 0).val = (k 0).val; omega
  | ⟨1, _⟩ => show win1_1.index t (1 : Fin 2) * 1 + 1 * (y 1).val = (k 1).val; omega

private theorem wrelBlock1_apply (c : Dev nD) (t : Fin cfg1.N) (y : S1x3.Idx) (k : S1x3.Idx)
    (hk0 : (k 0).val = (y 0).val) (hk1 : (k 1).val = (y 1).val) :
    (iblk1 (F := Ideal) V c 2 t : Vec Ideal S1x3 .f32) y = (V c main_arg5 : S1x3.Idx → Elt Ideal .f32) k := by
  obtain ⟨-, -, -, -, e0, e1, -⟩ := blockIndex1 t
  show V c main_arg5 (((cfg1.win 2).blk t).view.emb y) = V c main_arg5 k
  refine congrArg _ (funext fun a => Fin.ext ?_)
  match a with
  | ⟨0, _⟩ => show win1_2.index t (0 : Fin 2) * 1 + 1 * (y 0).val = (k 0).val; omega
  | ⟨1, _⟩ => show win1_2.index t (1 : Fin 2) * 3 + 1 * (y 1).val = (k 1).val; omega

private theorem biasBlock1_apply (c : Dev nD) (t : Fin cfg1.N) (y : S1x3.Idx) (k : S1x3.Idx)
    (hk0 : (k 0).val = (y 0).val) (hk1 : (k 1).val = (y 1).val) :
    (iblk1 (F := Ideal) V c 3 t : Vec Ideal S1x3 .f32) y = (V c main_v27 : S1x3.Idx → Elt Ideal .f32) k := by
  obtain ⟨-, -, -, -, -, -, e0, e1, -⟩ := blockIndex1 t
  show V c main_v27 (((cfg1.win 3).blk t).view.emb y) = V c main_v27 k
  refine congrArg _ (funext fun a => Fin.ext ?_)
  match a with
  | ⟨0, _⟩ => show win1_3.index t (0 : Fin 2) * 1 + 1 * (y 0).val = (k 0).val; omega
  | ⟨1, _⟩ => show win1_3.index t (1 : Fin 2) * 3 + 1 * (y 1).val = (k 1).val; omega

private theorem wrootBlock1_apply (c : Dev nD) (t : Fin cfg1.N) (y : S1x3.Idx) (k : S1x3.Idx)
    (hk0 : (k 0).val = (y 0).val) (hk1 : (k 1).val = (y 1).val) :
    (iblk1 (F := Ideal) V c 4 t : Vec Ideal S1x3 .f32) y = (V c main_arg7 : S1x3.Idx → Elt Ideal .f32) k := by
  obtain ⟨-, -, -, -, -, -, -, -, e0, e1, -⟩ := blockIndex1 t
  show V c main_arg7 (((cfg1.win 4).blk t).view.emb y) = V c main_arg7 k
  refine congrArg _ (funext fun a => Fin.ext ?_)
  match a with
  | ⟨0, _⟩ => show win1_4.index t (0 : Fin 2) * 1 + 1 * (y 0).val = (k 0).val; omega
  | ⟨1, _⟩ => show win1_4.index t (1 : Fin 2) * 3 + 1 * (y 1).val = (k 1).val; omega

private theorem nodeBlock1_eq (c : Dev nD) (t : Fin cfg1.N) (j : S16384x3.Idx) (i : S475136x3.Idx)
    (hi0 : (i 0).val = t.val * 16384 + (j 0).val) (hi1 : (i 1).val = (j 1).val) :
    k1_pay1 (F := Ideal) (iblk1 (F := Ideal) V c 0 t) (iblk1 (F := Ideal) V c 1 t) (iblk1 (F := Ideal) V c 2 t) (iblk1 (F := Ideal) V c 3 t) (iblk1 (F := Ideal) V c 4 t) j
      = Cert.Spec.node (V c main_v26) (V c main_arg0) (V c main_arg5) (V c main_v27) (V c main_arg7) i := by
  refine (nodePayload1_at _ _ _ _ _ j).trans ?_
  exact Cert.Spec.node_congr
    (fun k => aggBlock1_apply V c t (ix2 (j 0) k) (ix2 (i 0) k) hi0 rfl)
    (fun k => wrelBlock1_apply V c t (ix2 k (j 1)) (ix2 k (i 1)) rfl hi1)
    (biasBlock1_apply V c t (ix2 0 (j 1)) (ix2 0 (i 1)) rfl hi1)
    (fun k => featBlock1_apply V c t (ix2 (j 0) k) (ix2 (i 0) k) hi0 rfl)
    (fun k => wrootBlock1_apply V c t (ix2 k (j 1)) (ix2 k (i 1)) rfl hi1)

private theorem flushed1_5_eq (c : Dev nD) (t : Fin cfg1.N) :
    (dat1 (F := Ideal) V c).flushed 5 t = ((cfg1.win 5).blk t).view.read (Elt Ideal)
      (Cert.Spec.node (V c main_v26) (V c main_arg0) (V c main_arg5) (V c main_v27) (V c main_arg7)) := by
  show (cfg1.win 5).cut (grid1.coords t) ((dat1 (F := Ideal) V c).after 5 t) = _
  rw [after1_5]
  unfold out1_5
  rw [View.canon_unit_zero Cert.Spec.zeroOffsets]
  simp only [View.ld_unit_zero (S := S16384x1) Cert.Spec.zeroOffsets, View.ld_unit_zero (S := S1x3) Cert.Spec.zeroOffsets, View.ld_unit_zero (S := S1x3) Cert.Spec.zeroOffsets]
  obtain ⟨-, -, -, -, -, -, -, -, -, -, e0, e1⟩ := blockIndex1 t
  funext j
  show _ = Cert.Spec.node (V c main_v26) (V c main_arg0) (V c main_arg5) (V c main_v27) (V c main_arg7) (((cfg1.win 5).blk t).view.emb j)
  exact nodeBlock1_eq V c t j _
    (by show win1_5.index t (0 : Fin 2) * 16384 + 1 * (j 0).val = t.val * 16384 + (j 0).val; omega)
    (by show win1_5.index t (1 : Fin 2) * 3 + 1 * (j 1).val = (j 1).val; omega)

private theorem mem_outBlock1 (t : Fin cfg1.N) (i : S475136x3.Idx) :
    i ∈ ((cfg1.win 5).blk t).view.set ↔ ∀ a : Fin 2, win1_5.index t a * S16384x3.size a ≤ (i a).val ∧ (i a).val < win1_5.index t a * S16384x3.size a + S16384x3.size a := by
  show i ∈ ((View.whole main_v28).slice (win1_5.rect t)).set ↔ _
  rw [View.set_slice_whole, Rect.mem_set_unit]
  exact Iff.rfl

private theorem covered1 (i : S475136x3.Idx) : ∃ t : Fin cfg1.N, (cfg1.win 5).flush t = true ∧ i ∈ ((cfg1.win 5).blk t).view.set := by
  have h0 : (i 0).val < 475136 := (i 0).isLt
  have h1 : (i 1).val < 3 := (i 1).isLt
  have hlt : (i 0).val / 16384 < cfg1.N := by show _ < grid1.N; rw [N_1]; omega
  obtain ⟨-, -, -, -, -, -, -, -, -, -, e0, e1⟩ := blockIndex1 ⟨(i 0).val / 16384, hlt⟩
  have e0' : win1_5.index ⟨(i 0).val / 16384, hlt⟩ (0 : Fin 2) = (i 0).val / 16384 := e0
  refine ⟨⟨(i 0).val / 16384, hlt⟩, flush1_5 _, ?_⟩
  rw [mem_outBlock1]
  intro a
  match a with
  | ⟨0, _⟩ => show win1_5.index ⟨(i 0).val / 16384, hlt⟩ (0 : Fin 2) * 16384 ≤ (i 0).val ∧ (i 0).val < win1_5.index ⟨(i 0).val / 16384, hlt⟩ (0 : Fin 2) * 16384 + 16384; omega
  | ⟨1, _⟩ => show win1_5.index ⟨(i 0).val / 16384, hlt⟩ (1 : Fin 2) * 3 ≤ (i 1).val ∧ (i 1).val < win1_5.index ⟨(i 0).val / 16384, hlt⟩ (1 : Fin 2) * 3 + 3; omega

theorem final1_5 (c : Dev nD) :
    (dat1 (F := Ideal) V c).arrAt 5 cfg1.N = Cert.Spec.node (V c main_v26) (V c main_arg0) (V c main_arg5) (V c main_v27) (V c main_arg7) :=
  (dat1 (F := Ideal) V c).arrAt_eq_of_cover 5 _ (fun t _ => flushed1_5_eq V c t) covered1

end Cert.KernelIdeal.Run

end
-- ==== Proof.KI.Final2.lean ====
import proofs.«423123_j317827579936_1_alg».proof.Proof.KI.Region2
import proofs.«423123_j317827579936_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)
open Idealize.ShloMosaic.ValueIdx

theorem r2_prod33_apply (l : FVec Ideal S65536x3 .f32) (r : FVec Ideal S3x3 .f32) (p : Fin 65536) (q : Fin 3) :
    matmul dot_S65536x3_S3x3_S65536x3_1_0_0_1_n_n none l r (constant (F := Ideal) S65536x3 .f32 0x00000000#32) (ix2 p q) = ∑ k : Fin 3, l (ix2 p k) * r (ix2 k q) :=
  (congrFun (matmul_zero_eq_dotGeneral (DotDims.plain 65536 3 3) none l r) (ix2 p q)).trans (StackMember.dotGeneral_plain_apply none l r p q)

theorem r2_prod23_apply (l : FVec Ideal S65536x2 .f32) (r : FVec Ideal S2x3 .f32) (p : Fin 65536) (q : Fin 3) :
    matmul dot_S65536x2_S2x3_S65536x3_1_0_0_1_n_n none l r (constant (F := Ideal) S65536x3 .f32 0x00000000#32) (ix2 p q) = ∑ k : Fin 2, l (ix2 p k) * r (ix2 k q) :=
  (congrFun (matmul_zero_eq_dotGeneral (DotDims.plain 65536 2 3) none l r) (ix2 p q)).trans (StackMember.dotGeneral_plain_apply none l r p q)

theorem r2_prod31_apply (l : FVec Ideal S65536x3 .f32) (r : FVec Ideal S3x1 .f32) (p : Fin 65536) (q : Fin 1) :
    matmul dot_S65536x3_S3x1_S65536x1_1_0_0_1_n_n none l r (constant (F := Ideal) S65536x1 .f32 0x00000000#32) (ix2 p q) = ∑ k : Fin 3, l (ix2 p k) * r (ix2 k q) :=
  (congrFun (matmul_zero_eq_dotGeneral (DotDims.plain 65536 3 1) none l r) (ix2 p q)).trans (StackMember.dotGeneral_plain_apply none l r p q)

theorem r2_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem r2_feat_pay_apply (x0 x1 : Vec Ideal S65536x3 .f32) (x2 : Vec Ideal S65536x2 .f32) (x3 x4 : Vec Ideal S3x3 .f32)
    (x5 : Vec Ideal S2x3 .f32) (x6 : Vec Ideal S1x3 .f32) (p : Fin 65536) (q : Fin 3) :
    k2_pay2 (F := Ideal) x0 x1 x2 x3 x4 x5 x6 (ix2 p q)
      = max ((((∑ k : Fin 3, x0 (ix2 p k) * x3 (ix2 k q)) + (∑ k : Fin 3, x1 (ix2 p k) * x4 (ix2 k q)))
          + (∑ k : Fin 2, x2 (ix2 p k) * x5 (ix2 k q))) + x6 (ix2 (0 : Fin 1) q)) 0 := by
  unfold k2_pay2 k2_pay1
  simp only [shapeCast_self]
  rw [maximumf_apply, addf_apply, addf_apply, addf_apply, r2_prod33_apply, r2_prod33_apply, r2_prod23_apply, broadcast_apply]
  rw [show broadcastTo S65536x3 x6 broadcasts_S1x3_S65536x3 (ix2 p q) = x6 (ix2 (0 : Fin 1) q) from
    broadcastTo_1b_ab_apply x6 broadcasts_S1x3_S65536x3 p q]
  show max _ (Ideal.ofBits .f32 0x00000000#32) = _
  rw [Ideal.ofBits_zero_f32]

theorem r2_msg_pay_apply (x0 x1 : Vec Ideal S65536x3 .f32) (x2 : Vec Ideal S65536x2 .f32) (x3 x4 : Vec Ideal S3x3 .f32)
    (x5 : Vec Ideal S2x3 .f32) (x6 : Vec Ideal S1x3 .f32) (x7 : Vec Ideal S3x1 .f32) (x8 : Vec Ideal S1x1 .f32) (p : Fin 65536) (q : Fin 3) :
    k2_pay3 (F := Ideal) x0 x1 x2 x3 x4 x5 x6 x7 x8 (ix2 p q)
      = max ((∑ k : Fin 3, k2_pay2 (F := Ideal) x0 x1 x2 x3 x4 x5 x6 (ix2 p k) * x7 (ix2 k (0 : Fin 1))) + x8 (ix2 (0 : Fin 1) (0 : Fin 1))) 0
        * x0 (ix2 p q) := by
  unfold k2_pay3 k2_pay1
  simp only [shapeCast_self]
  rw [mulf_apply]
  rw [show broadcastTo S65536x3 _ broadcasts_S65536x1_S65536x3 (ix2 p q) = _ from
    r2_broadcastTo_a1_ab_apply _ broadcasts_S65536x1_S65536x3 p q]
  rw [maximumf_apply, addf_apply, r2_prod31_apply, broadcast_apply]
  rw [show broadcastTo S65536x1 x8 broadcasts_S1x1_S65536x1 (ix2 p (0 : Fin 1)) = x8 (ix2 (0 : Fin 1) (0 : Fin 1)) from
    broadcastTo_1b_ab_apply x8 broadcasts_S1x1_S65536x1 p 0]
  show max _ (Ideal.ofBits .f32 0x00000000#32) * _ = _
  rw [Ideal.ofBits_zero_f32]

theorem r2_feat_block (x0 x1 : Vec Ideal S65536x3 .f32) (x2 : Vec Ideal S65536x2 .f32) (x3 x4 : Vec Ideal S3x3 .f32)
    (x5 : Vec Ideal S2x3 .f32) (x6 : Vec Ideal S1x3 .f32)
    (xs xd : Cert.Spec.Arr 13303808 3) (ew : Cert.Spec.Arr 13303808 2) (w1 w2 : Cert.Spec.Arr 3 3) (w3 : Cert.Spec.Arr 2 3) (b : Cert.Spec.Arr 1 3)
    (p : Fin 65536) (q : Fin 3) (r : Fin 13303808)
    (h0 : ∀ k : Fin 3, x0 (ix2 p k) = xs (ix2 r k)) (h1 : ∀ k : Fin 3, x1 (ix2 p k) = xd (ix2 r k))
    (h2 : ∀ k : Fin 2, x2 (ix2 p k) = ew (ix2 r k)) (h3 : x3 = w1) (h4 : x4 = w2) (h5 : x5 = w3) (h6 : x6 = b) :
    k2_pay2 (F := Ideal) x0 x1 x2 x3 x4 x5 x6 (ix2 p q) = Cert.Spec.edgeFeat true xs xd ew w1 w2 w3 b (ix2 r q) := by
  subst h3 h4 h5 h6
  rw [r2_feat_pay_apply]
  show _ = Cert.Spec.act true ((((∑ k : Fin 3, xs (ix2 r k) * x3 (ix2 k q)) + (∑ k : Fin 3, xd (ix2 r k) * x4 (ix2 k q)))
      + (∑ k : Fin 2, ew (ix2 r k) * x5 (ix2 k q))) + x6 (ix2 0 q))
  unfold Cert.Spec.act
  rw [if_pos rfl]
  simp only [h0, h1, h2]

theorem r2_msg_block (x0 x1 : Vec Ideal S65536x3 .f32) (x2 : Vec Ideal S65536x2 .f32) (x3 x4 : Vec Ideal S3x3 .f32)
    (x5 : Vec Ideal S2x3 .f32) (x6 : Vec Ideal S1x3 .f32) (x7 : Vec Ideal S3x1 .f32) (x8 : Vec Ideal S1x1 .f32)
    (xs xd : Cert.Spec.Arr 13303808 3) (ew : Cert.Spec.Arr 13303808 2) (w1 w2 : Cert.Spec.Arr 3 3) (w3 : Cert.Spec.Arr 2 3) (b : Cert.Spec.Arr 1 3)
    (nw : Cert.Spec.Arr 3 1) (nb : Cert.Spec.Arr 1 1)
    (p : Fin 65536) (q : Fin 3) (r : Fin 13303808)
    (h0 : ∀ k : Fin 3, x0 (ix2 p k) = xs (ix2 r k)) (h1 : ∀ k : Fin 3, x1 (ix2 p k) = xd (ix2 r k))
    (h2 : ∀ k : Fin 2, x2 (ix2 p k) = ew (ix2 r k)) (h3 : x3 = w1) (h4 : x4 = w2) (h5 : x5 = w3) (h6 : x6 = b)
    (h7 : x7 = nw) (h8 : x8 = nb) :
    k2_pay3 (F := Ideal) x0 x1 x2 x3 x4 x5 x6 x7 x8 (ix2 p q)
      = Cert.Spec.edgeMsg (Cert.Spec.edgeFeat true xs xd ew w1 w2 w3 b) xs nw nb (ix2 r q) := by
  rw [r2_msg_pay_apply]
  show _ = max ((∑ k : Fin 3, Cert.Spec.edgeFeat true xs xd ew w1 w2 w3 b (ix2 r k) * nw (ix2 k 0)) + nb (ix2 0 0)) 0 * xs (ix2 r q)
  rw [h0 q, h7, h8]
  simp only [r2_feat_block x0 x1 x2 x3 x4 x5 x6 xs xd ew w1 w2 w3 b p _ r h0 h1 h2 h3 h4 h5 h6]

theorem r2_hz2 : (![0, 0] : Fin 2 → Nat) = fun _ => 0 := funext fun a => by fin_cases a <;> rfl

theorem r2_idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ (win2_10.index t (0 : Fin 2) = t.val ∧ win2_10.index t (1 : Fin 2) = 0) :=
  (by decide +kernel : ∀ t : Fin grid2.N, _)

variable (V : (c : Dev nD) → (b : Ref sig .tc) → Buf (Elt Ideal) ((c : Thread nD τ).loc b))

theorem r2_idx_rows2_0 (t : Fin cfg2.N) : win2_0.index t (0 : Fin 2) = t.val ∧ win2_0.index t (1 : Fin 2) = 0 := (r2_idx_facts2 t).1
theorem r2_idx_rows2_1 (t : Fin cfg2.N) : win2_1.index t (0 : Fin 2) = t.val ∧ win2_1.index t (1 : Fin 2) = 0 := (r2_idx_facts2 t).2.1
theorem r2_idx_rows2_2 (t : Fin cfg2.N) : win2_2.index t (0 : Fin 2) = t.val ∧ win2_2.index t (1 : Fin 2) = 0 := (r2_idx_facts2 t).2.2.1
theorem r2_idx_rows2_3 (t : Fin cfg2.N) : win2_3.index t (0 : Fin 2) = 0 ∧ win2_3.index t (1 : Fin 2) = 0 := (r2_idx_facts2 t).2.2.2.1
theorem r2_idx_rows2_4 (t : Fin cfg2.N) : win2_4.index t (0 : Fin 2) = 0 ∧ win2_4.index t (1 : Fin 2) = 0 := (r2_idx_facts2 t).2.2.2.2.1
theorem r2_idx_rows2_5 (t : Fin cfg2.N) : win2_5.index t (0 : Fin 2) = 0 ∧ win2_5.index t (1 : Fin 2) = 0 := (r2_idx_facts2 t).2.2.2.2.2.1
theorem r2_idx_rows2_6 (t : Fin cfg2.N) : win2_6.index t (0 : Fin 2) = 0 ∧ win2_6.index t (1 : Fin 2) = 0 := (r2_idx_facts2 t).2.2.2.2.2.2.1
theorem r2_idx_rows2_7 (t : Fin cfg2.N) : win2_7.index t (0 : Fin 2) = 0 ∧ win2_7.index t (1 : Fin 2) = 0 := (r2_idx_facts2 t).2.2.2.2.2.2.2.1
theorem r2_idx_rows2_8 (t : Fin cfg2.N) : win2_8.index t (0 : Fin 2) = 0 ∧ win2_8.index t (1 : Fin 2) = 0 := (r2_idx_facts2 t).2.2.2.2.2.2.2.2.1
theorem r2_idx_rows2_9 (t : Fin cfg2.N) : win2_9.index t (0 : Fin 2) = t.val ∧ win2_9.index t (1 : Fin 2) = 0 := (r2_idx_facts2 t).2.2.2.2.2.2.2.2.2.1
theorem r2_idx_rows2_10 (t : Fin cfg2.N) : win2_10.index t (0 : Fin 2) = t.val ∧ win2_10.index t (1 : Fin 2) = 0 := (r2_idx_facts2 t).2.2.2.2.2.2.2.2.2.2

theorem r2_iblk0_apply (c : Dev nD) (t : Fin cfg2.N) (p : Fin 65536) (k : Fin 3) (r : Fin 13303808) (hr : r.val = t.val * 65536 + p.val) :
    (iblk2 (F := Ideal) V c 0 t : Vec Ideal S65536x3 .f32) (ix2 p k) = (V c main_v35 : Cert.Spec.Arr 13303808 3) (ix2 r k) := by
  obtain ⟨e0, e1⟩ := r2_idx_rows2_0 t
  show V c main_v35 (((cfg2.win 0).blk t).view.emb (ix2 p k)) = V c main_v35 (ix2 r k)
  refine congrArg _ (funext fun a => Fin.ext ?_)
  match a with
  | ⟨0, _⟩ => show win2_0.index t (0 : Fin 2) * 65536 + 1 * p.val = r.val; omega
  | ⟨1, _⟩ => show win2_0.index t (1 : Fin 2) * 3 + 1 * k.val = k.val; omega

theorem r2_iblk1_apply (c : Dev nD) (t : Fin cfg2.N) (p : Fin 65536) (k : Fin 3) (r : Fin 13303808) (hr : r.val = t.val * 65536 + p.val) :
    (iblk2 (F := Ideal) V c 1 t : Vec Ideal S65536x3 .f32) (ix2 p k) = (V c main_v42 : Cert.Spec.Arr 13303808 3) (ix2 r k) := by
  obtain ⟨e0, e1⟩ := r2_idx_rows2_1 t
  show V c main_v42 (((cfg2.win 1).blk t).view.emb (ix2 p k)) = V c main_v42 (ix2 r k)
  refine congrArg _ (funext fun a => Fin.ext ?_)
  match a with
  | ⟨0, _⟩ => show win2_1.index t (0 : Fin 2) * 65536 + 1 * p.val = r.val; omega
  | ⟨1, _⟩ => show win2_1.index t (1 : Fin 2) * 3 + 1 * k.val = k.val; omega

theorem r2_iblk2_apply (c : Dev nD) (t : Fin cfg2.N) (p : Fin 65536) (k : Fin 2) (r : Fin 13303808) (hr : r.val = t.val * 65536 + p.val) :
    (iblk2 (F := Ideal) V c 2 t : Vec Ideal S65536x2 .f32) (ix2 p k) = (V c main_v23_0 : Cert.Spec.Arr 13303808 2) (ix2 r k) := by
  obtain ⟨e0, e1⟩ := r2_idx_rows2_2 t
  show V c main_v23_0 (((cfg2.win 2).blk t).view.emb (ix2 p k)) = V c main_v23_0 (ix2 r k)
  refine congrArg _ (funext fun a => Fin.ext ?_)
  match a with
  | ⟨0, _⟩ => show win2_2.index t (0 : Fin 2) * 65536 + 1 * p.val = r.val; omega
  | ⟨1, _⟩ => show win2_2.index t (1 : Fin 2) * 2 + 1 * k.val = k.val; omega

theorem r2_iblk3_eq (c : Dev nD) (t : Fin cfg2.N) :
    (iblk2 (F := Ideal) V c 3 t : Vec Ideal S3x3 .f32) = (V c main_v43 : Cert.Spec.Arr 3 3) := by
  obtain ⟨e0, e1⟩ := r2_idx_rows2_3 t
  funext y
  show V c main_v43 (((cfg2.win 3).blk t).view.emb y) = V c main_v43 y
  refine congrArg _ (funext fun ax => Fin.ext ?_)
  match ax with
  | ⟨0, _⟩ => show win2_3.index t (0 : Fin 2) * 3 + 1 * (y 0).val = (y 0).val; omega
  | ⟨1, _⟩ => show win2_3.index t (1 : Fin 2) * 3 + 1 * (y 1).val = (y 1).val; omega

theorem r2_iblk4_eq (c : Dev nD) (t : Fin cfg2.N) :
    (iblk2 (F := Ideal) V c 4 t : Vec Ideal S3x3 .f32) = (V c main_v44 : Cert.Spec.Arr 3 3) := by
  obtain ⟨e0, e1⟩ := r2_idx_rows2_4 t
  funext y
  show V c main_v44 (((cfg2.win 4).blk t).view.emb y) = V c main_v44 y
  refine congrArg _ (funext fun ax => Fin.ext ?_)
  match ax with
  | ⟨0, _⟩ => show win2_4.index t (0 : Fin 2) * 3 + 1 * (y 0).val = (y 0).val; omega
  | ⟨1, _⟩ => show win2_4.index t (1 : Fin 2) * 3 + 1 * (y 1).val = (y 1).val; omega

theorem r2_iblk5_eq (c : Dev nD) (t : Fin cfg2.N) :
    (iblk2 (F := Ideal) V c 5 t : Vec Ideal S2x3 .f32) = (V c main_v45 : Cert.Spec.Arr 2 3) := by
  obtain ⟨e0, e1⟩ := r2_idx_rows2_5 t
  funext y
  show V c main_v45 (((cfg2.win 5).blk t).view.emb y) = V c main_v45 y
  refine congrArg _ (funext fun ax => Fin.ext ?_)
  match ax with
  | ⟨0, _⟩ => show win2_5.index t (0 : Fin 2) * 2 + 1 * (y 0).val = (y 0).val; omega
  | ⟨1, _⟩ => show win2_5.index t (1 : Fin 2) * 3 + 1 * (y 1).val = (y 1).val; omega

theorem r2_iblk6_eq (c : Dev nD) (t : Fin cfg2.N) :
    (iblk2 (F := Ideal) V c 6 t : Vec Ideal S1x3 .f32) = (V c main_v46 : Cert.Spec.Arr 1 3) := by
  obtain ⟨e0, e1⟩ := r2_idx_rows2_6 t
  funext y
  show V c main_v46 (((cfg2.win 6).blk t).view.emb y) = V c main_v46 y
  refine congrArg _ (funext fun ax => Fin.ext ?_)
  match ax with
  | ⟨0, _⟩ => show win2_6.index t (0 : Fin 2) * 1 + 1 * (y 0).val = (y 0).val; omega
  | ⟨1, _⟩ => show win2_6.index t (1 : Fin 2) * 3 + 1 * (y 1).val = (y 1).val; omega

theorem r2_iblk7_eq (c : Dev nD) (t : Fin cfg2.N) :
    (iblk2 (F := Ideal) V c 7 t : Vec Ideal S3x1 .f32) = (V c main_arg22 : Cert.Spec.Arr 3 1) := by
  obtain ⟨e0, e1⟩ := r2_idx_rows2_7 t
  funext y
  show V c main_arg22 (((cfg2.win 7).blk t).view.emb y) = V c main_arg22 y
  refine congrArg _ (funext fun ax => Fin.ext ?_)
  match ax with
  | ⟨0, _⟩ => show win2_7.index t (0 : Fin 2) * 3 + 1 * (y 0).val = (y 0).val; omega
  | ⟨1, _⟩ => show win2_7.index t (1 : Fin 2) * 1 + 1 * (y 1).val = (y 1).val; omega

theorem r2_iblk8_eq (c : Dev nD) (t : Fin cfg2.N) :
    (iblk2 (F := Ideal) V c 8 t : Vec Ideal S1x1 .f32) = (V c main_v47 : Cert.Spec.Arr 1 1) := by
  obtain ⟨e0, e1⟩ := r2_idx_rows2_8 t
  funext y
  show V c main_v47 (((cfg2.win 8).blk t).view.emb y) = V c main_v47 y
  refine congrArg _ (funext fun ax => Fin.ext ?_)
  match ax with
  | ⟨0, _⟩ => show win2_8.index t (0 : Fin 2) * 1 + 1 * (y 0).val = (y 0).val; omega
  | ⟨1, _⟩ => show win2_8.index t (1 : Fin 2) * 1 + 1 * (y 1).val = (y 1).val; omega

theorem r2_flushed9_eq (c : Dev nD) (t : Fin cfg2.N) :
    (dat2 (F := Ideal) V c).flushed 9 t = ((cfg2.win 9).blk t).view.read (Elt Ideal) (Cert.Spec.edgeFeat true (V c main_v35) (V c main_v42) (V c main_v23_0) (V c main_v43) (V c main_v44) (V c main_v45) (V c main_v46)) := by
  show (cfg2.win 9).cut (grid2.coords t) ((dat2 (F := Ideal) V c).after 9 t) = _
  rw [after2_9]
  unfold out2_9
  rw [View.canon_unit_zero r2_hz2]
  simp only [View.ld_unit_zero (S := S65536x3) r2_hz2, View.ld_unit_zero (S := S65536x2) r2_hz2, View.ld_unit_zero (S := S3x3) r2_hz2,
    View.ld_unit_zero (S := S2x3) r2_hz2, View.ld_unit_zero (S := S1x3) r2_hz2, View.ld_unit_zero (S := S3x1) r2_hz2, View.ld_unit_zero (S := S1x1) r2_hz2]
  have hN : cfg2.N = 203 := N_2
  have ht : t.val < 203 := hN ▸ t.isLt
  obtain ⟨e0, e1⟩ := r2_idx_rows2_9 t
  funext j
  obtain ⟨p, q, rfl⟩ : ∃ (p : Fin 65536) (q : Fin 3), j = ix2 p q := ⟨j 0, j 1, eq_ix2 j⟩
  have hp := p.isLt
  show k2_pay2 (F := Ideal) (iblk2 V c 0 t) (iblk2 V c 1 t) (iblk2 V c 2 t) (iblk2 V c 3 t) (iblk2 V c 4 t) (iblk2 V c 5 t) (iblk2 V c 6 t) (ix2 p q) = _
  refine (r2_feat_block _ _ _ _ _ _ _ (V c main_v35) (V c main_v42) (V c main_v23_0) (V c main_v43) (V c main_v44) (V c main_v45) (V c main_v46) p q ⟨t.val * 65536 + p.val, by omega⟩
    (fun k => r2_iblk0_apply V c t p k _ rfl) (fun k => r2_iblk1_apply V c t p k _ rfl) (fun k => r2_iblk2_apply V c t p k _ rfl)
    (r2_iblk3_eq V c t) (r2_iblk4_eq V c t) (r2_iblk5_eq V c t) (r2_iblk6_eq V c t)).trans ?_
  show (Cert.Spec.edgeFeat true (V c main_v35) (V c main_v42) (V c main_v23_0) (V c main_v43) (V c main_v44) (V c main_v45) (V c main_v46)) _ = (Cert.Spec.edgeFeat true (V c main_v35) (V c main_v42) (V c main_v23_0) (V c main_v43) (V c main_v44) (V c main_v45) (V c main_v46)) (((cfg2.win 9).blk t).view.emb (ix2 p q))
  refine congrArg _ (funext fun a => Fin.ext ?_)
  match a with
  | ⟨0, _⟩ => show t.val * 65536 + p.val = win2_9.index t (0 : Fin 2) * 65536 + 1 * p.val; omega
  | ⟨1, _⟩ => show q.val = win2_9.index t (1 : Fin 2) * 3 + 1 * q.val; omega

theorem r2_mem_blk9 (t : Fin cfg2.N) (i : S13303808x3.Idx) :
    i ∈ ((cfg2.win 9).blk t).view.set ↔ ∀ a : Fin 2, win2_9.index t a * S65536x3.size a ≤ (i a).val ∧ (i a).val < win2_9.index t a * S65536x3.size a + S65536x3.size a := by
  show i ∈ ((View.whole main_v48_0).slice (win2_9.rect t)).set ↔ _
  rw [View.set_slice_whole, Rect.mem_set_unit]
  exact Iff.rfl

theorem r2_cover9 (i : S13303808x3.Idx) : ∃ t : Fin cfg2.N, (cfg2.win 9).flush t = true ∧ i ∈ ((cfg2.win 9).blk t).view.set := by
  have hN : cfg2.N = 203 := N_2
  have hi0 : (i 0).val < 13303808 := (i 0).isLt
  have hi1 : (i 1).val < 3 := (i 1).isLt
  have hlt : (i 0).val / 65536 < cfg2.N := by rw [hN]; omega
  obtain ⟨e0, e1⟩ := r2_idx_rows2_9 ⟨(i 0).val / 65536, hlt⟩
  have e0' : win2_9.index ⟨(i 0).val / 65536, hlt⟩ (0 : Fin 2) = (i 0).val / 65536 := e0
  refine ⟨⟨(i 0).val / 65536, hlt⟩, flush2_9 _, ?_⟩
  rw [r2_mem_blk9]
  intro a
  match a with
  | ⟨0, _⟩ =>
    show win2_9.index ⟨(i 0).val / 65536, hlt⟩ (0 : Fin 2) * 65536 ≤ (i 0).val ∧ (i 0).val < win2_9.index ⟨(i 0).val / 65536, hlt⟩ (0 : Fin 2) * 65536 + 65536
    omega
  | ⟨1, _⟩ =>
    show win2_9.index ⟨(i 0).val / 65536, hlt⟩ (1 : Fin 2) * 3 ≤ (i 1).val ∧ (i 1).val < win2_9.index ⟨(i 0).val / 65536, hlt⟩ (1 : Fin 2) * 3 + 3
    omega

theorem r2_flushed10_eq (c : Dev nD) (t : Fin cfg2.N) :
    (dat2 (F := Ideal) V c).flushed 10 t = ((cfg2.win 10).blk t).view.read (Elt Ideal) (Cert.Spec.edgeMsg (Cert.Spec.edgeFeat true (V c main_v35) (V c main_v42) (V c main_v23_0) (V c main_v43) (V c main_v44) (V c main_v45) (V c main_v46)) (V c main_v35) (V c main_arg22) (V c main_v47)) := by
  show (cfg2.win 10).cut (grid2.coords t) ((dat2 (F := Ideal) V c).after 10 t) = _
  rw [after2_10]
  unfold out2_10
  rw [View.canon_unit_zero r2_hz2]
  simp only [View.ld_unit_zero (S := S65536x3) r2_hz2, View.ld_unit_zero (S := S65536x2) r2_hz2, View.ld_unit_zero (S := S3x3) r2_hz2,
    View.ld_unit_zero (S := S2x3) r2_hz2, View.ld_unit_zero (S := S1x3) r2_hz2, View.ld_unit_zero (S := S3x1) r2_hz2, View.ld_unit_zero (S := S1x1) r2_hz2]
  have hN : cfg2.N = 203 := N_2
  have ht : t.val < 203 := hN ▸ t.isLt
  obtain ⟨e0, e1⟩ := r2_idx_rows2_10 t
  funext j
  obtain ⟨p, q, rfl⟩ : ∃ (p : Fin 65536) (q : Fin 3), j = ix2 p q := ⟨j 0, j 1, eq_ix2 j⟩
  have hp := p.isLt
  show k2_pay3 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (ix2 p q) = _
  refine (r2_msg_block _ _ _ _ _ _ _ _ _ (V c main_v35) (V c main_v42) (V c main_v23_0) (V c main_v43) (V c main_v44) (V c main_v45) (V c main_v46) (V c main_arg22) (V c main_v47) p q ⟨t.val * 65536 + p.val, by omega⟩
    (fun k => r2_iblk0_apply V c t p k _ rfl) (fun k => r2_iblk1_apply V c t p k _ rfl) (fun k => r2_iblk2_apply V c t p k _ rfl)
    (r2_iblk3_eq V c t) (r2_iblk4_eq V c t) (r2_iblk5_eq V c t) (r2_iblk6_eq V c t) (r2_iblk7_eq V c t) (r2_iblk8_eq V c t)).trans ?_
  show (Cert.Spec.edgeMsg (Cert.Spec.edgeFeat true (V c main_v35) (V c main_v42) (V c main_v23_0) (V c main_v43) (V c main_v44) (V c main_v45) (V c main_v46)) (V c main_v35) (V c main_arg22) (V c main_v47)) _ = (Cert.Spec.edgeMsg (Cert.Spec.edgeFeat true (V c main_v35) (V c main_v42) (V c main_v23_0) (V c main_v43) (V c main_v44) (V c main_v45) (V c main_v46)) (V c main_v35) (V c main_arg22) (V c main_v47)) (((cfg2.win 10).blk t).view.emb (ix2 p q))
  refine congrArg _ (funext fun a => Fin.ext ?_)
  match a with
  | ⟨0, _⟩ => show t.val * 65536 + p.val = win2_10.index t (0 : Fin 2) * 65536 + 1 * p.val; omega
  | ⟨1, _⟩ => show q.val = win2_10.index t (1 : Fin 2) * 3 + 1 * q.val; omega

theorem r2_mem_blk10 (t : Fin cfg2.N) (i : S13303808x3.Idx) :
    i ∈ ((cfg2.win 10).blk t).view.set ↔ ∀ a : Fin 2, win2_10.index t a * S65536x3.size a ≤ (i a).val ∧ (i a).val < win2_10.index t a * S65536x3.size a + S65536x3.size a := by
  show i ∈ ((View.whole main_v48_1).slice (win2_10.rect t)).set ↔ _
  rw [View.set_slice_whole, Rect.mem_set_unit]
  exact Iff.rfl

theorem r2_cover10 (i : S13303808x3.Idx) : ∃ t : Fin cfg2.N, (cfg2.win 10).flush t = true ∧ i ∈ ((cfg2.win 10).blk t).view.set := by
  have hN : cfg2.N = 203 := N_2
  have hi0 : (i 0).val < 13303808 := (i 0).isLt
  have hi1 : (i 1).val < 3 := (i 1).isLt
  have hlt : (i 0).val / 65536 < cfg2.N := by rw [hN]; omega
  obtain ⟨e0, e1⟩ := r2_idx_rows2_10 ⟨(i 0).val / 65536, hlt⟩
  have e0' : win2_10.index ⟨(i 0).val / 65536, hlt⟩ (0 : Fin 2) = (i 0).val / 65536 := e0
  refine ⟨⟨(i 0).val / 65536, hlt⟩, flush2_10 _, ?_⟩
  rw [r2_mem_blk10]
  intro a
  match a with
  | ⟨0, _⟩ =>
    show win2_10.index ⟨(i 0).val / 65536, hlt⟩ (0 : Fin 2) * 65536 ≤ (i 0).val ∧ (i 0).val < win2_10.index ⟨(i 0).val / 65536, hlt⟩ (0 : Fin 2) * 65536 + 65536
    omega
  | ⟨1, _⟩ =>
    show win2_10.index ⟨(i 0).val / 65536, hlt⟩ (1 : Fin 2) * 3 ≤ (i 1).val ∧ (i 1).val < win2_10.index ⟨(i 0).val / 65536, hlt⟩ (1 : Fin 2) * 3 + 3
    omega

theorem final2_9 (c : Dev nD) :
    (dat2 (F := Ideal) V c).arrAt 9 cfg2.N = Cert.Spec.edgeFeat true (V c main_v35) (V c main_v42) (V c main_v23_0) (V c main_v43) (V c main_v44) (V c main_v45) (V c main_v46) :=
  (dat2 (F := Ideal) V c).arrAt_eq_of_cover 9 _ (fun t _ => r2_flushed9_eq V c t) r2_cover9

theorem final2_10 (c : Dev nD) :
    (dat2 (F := Ideal) V c).arrAt 10 cfg2.N = Cert.Spec.edgeMsg (Cert.Spec.edgeFeat true (V c main_v35) (V c main_v42) (V c main_v23_0) (V c main_v43) (V c main_v44) (V c main_v45) (V c main_v46)) (V c main_v35) (V c main_arg22) (V c main_v47) :=
  (dat2 (F := Ideal) V c).arrAt_eq_of_cover 10 _ (fun t _ => r2_flushed10_eq V c t) r2_cover10

end Cert.KernelIdeal.Run

end
-- ==== Proof.KI.Final3.lean ====
import proofs.«423123_j317827579936_1_alg».proof.Proof.KI.Region3
import proofs.«423123_j317827579936_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)
open Idealize.ShloMosaic.ValueIdx

private theorem prod3_apply (x : Vec Ideal S16384x3 .f32) (w : Vec Ideal S3x3 .f32) (p : Fin 16384) (q : Fin 3) :
    matmul (φ₁ := .f32) (φ₂ := .f32) dot_S16384x3_S3x3_S16384x3_1_0_0_1_n_n none x w (constant (F := Ideal) S16384x3 .f32 0x00000000#32) (ix2 p q)
      = ∑ k : Fin 3, x (ix2 p k) * w (ix2 k q) :=
  (congrFun (matmul_zero_eq_dotGeneral (DotDims.plain 16384 3 3) none x w) (ix2 p q)).trans (StackMember.dotGeneral_plain_apply none x w p q)

private theorem biasRows3_apply (b : Vec Ideal S1x3 .f32) (p : Fin 16384) (q : Fin 3) :
    broadcastTo S16384x3 b broadcasts_S1x3_S16384x3 (ix2 p q) = b (ix2 0 q) :=
  broadcastTo_1b_ab_apply b broadcasts_S1x3_S16384x3 p q
private theorem nodePayload3_apply (a x : Vec Ideal S16384x3 .f32) (wrel : Vec Ideal S3x3 .f32) (b : Vec Ideal S1x3 .f32) (wroot : Vec Ideal S3x3 .f32)
    (p : Fin 16384) (q : Fin 3) :
    k3_pay1 (F := Ideal) a x wrel b wroot (ix2 p q)
      = max (((∑ k : Fin 3, a (ix2 p k) * wrel (ix2 k q)) + b (ix2 0 q)) + (∑ k : Fin 3, x (ix2 p k) * wroot (ix2 k q))) 0 := by
  unfold k3_pay1
  simp only [shapeCast_self]
  rw [maximumf_apply, addf_apply, addf_apply, broadcast_apply, prod3_apply, prod3_apply, biasRows3_apply]
  show max _ (Ideal.ofBits .f32 0x00000000#32) = _
  rw [Ideal.ofBits_zero_f32]

private theorem nodePayload3_at (a x : Vec Ideal S16384x3 .f32) (wrel : Vec Ideal S3x3 .f32) (b : Vec Ideal S1x3 .f32) (wroot : Vec Ideal S3x3 .f32)
    (j : S16384x3.Idx) :
    k3_pay1 (F := Ideal) a x wrel b wroot j
      = max (((∑ k : Fin 3, a (ix2 (j 0) k) * wrel (ix2 k (j 1))) + b (ix2 0 (j 1))) + (∑ k : Fin 3, x (ix2 (j 0) k) * wroot (ix2 k (j 1)))) 0 := by
  obtain ⟨p, q, rfl⟩ : ∃ (p : Fin 16384) (q : Fin 3), j = ix2 p q := ⟨j 0, j 1, eq_ix2 j⟩
  exact nodePayload3_apply a x wrel b wroot p q

variable (V : (c : Dev nD) → (b : Ref sig .tc) → Buf (Elt Ideal) ((c : Thread nD τ).loc b))

private theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

private theorem aggBlock3_apply (c : Dev nD) (t : Fin cfg3.N) (y : S16384x3.Idx) (k : S475136x3.Idx)
    (hk0 : (k 0).val = t.val * 16384 + (y 0).val) (hk1 : (k 1).val = (y 1).val) :
    (iblk3 (F := Ideal) V c 0 t : Vec Ideal S16384x3 .f32) y = (V c main_v51 : S475136x3.Idx → Elt Ideal .f32) k := by
  obtain ⟨e0, e1, -⟩ := blockIndex3 t
  show V c main_v51 (((cfg3.win 0).blk t).view.emb y) = V c main_v51 k
  refine congrArg _ (funext fun a => Fin.ext ?_)
  match a with
  | ⟨0, _⟩ => show win3_0.index t (0 : Fin 2) * 16384 + 1 * (y 0).val = (k 0).val; omega
  | ⟨1, _⟩ => show win3_0.index t (1 : Fin 2) * 3 + 1 * (y 1).val = (k 1).val; omega

private theorem featBlock3_apply (c : Dev nD) (t : Fin cfg3.N) (y : S16384x3.Idx) (k : S475136x3.Idx)
    (hk0 : (k 0).val = t.val * 16384 + (y 0).val) (hk1 : (k 1).val = (y 1).val) :
    (iblk3 (F := Ideal) V c 1 t : Vec Ideal S16384x3 .f32) y = (V c main_v28 : S475136x3.Idx → Elt Ideal .f32) k := by
  obtain ⟨-, -, e0, e1, -⟩ := blockIndex3 t
  show V c main_v28 (((cfg3.win 1).blk t).view.emb y) = V c main_v28 k
  refine congrArg _ (funext fun a => Fin.ext ?_)
  match a with
  | ⟨0, _⟩ => show win3_1.index t (0 : Fin 2) * 16384 + 1 * (y 0).val = (k 0).val; omega
  | ⟨1, _⟩ => show win3_1.index t (1 : Fin 2) * 3 + 1 * (y 1).val = (k 1).val; omega

private theorem wrelBlock3_apply (c : Dev nD) (t : Fin cfg3.N) (y : S3x3.Idx) (k : S3x3.Idx)
    (hk0 : (k 0).val = (y 0).val) (hk1 : (k 1).val = (y 1).val) :
    (iblk3 (F := Ideal) V c 2 t : Vec Ideal S3x3 .f32) y = (V c main_arg8 : S3x3.Idx → Elt Ideal .f32) k := by
  obtain ⟨-, -, -, -, e0, e1, -⟩ := blockIndex3 t
  show V c main_arg8 (((cfg3.win 2).blk t).view.emb y) = V c main_arg8 k
  refine congrArg _ (funext fun a => Fin.ext ?_)
  match a with
  | ⟨0, _⟩ => show win3_2.index t (0 : Fin 2) * 3 + 1 * (y 0).val = (k 0).val; omega
  | ⟨1, _⟩ => show win3_2.index t (1 : Fin 2) * 3 + 1 * (y 1).val = (k 1).val; omega

private theorem biasBlock3_apply (c : Dev nD) (t : Fin cfg3.N) (y : S1x3.Idx) (k : S1x3.Idx)
    (hk0 : (k 0).val = (y 0).val) (hk1 : (k 1).val = (y 1).val) :
    (iblk3 (F := Ideal) V c 3 t : Vec Ideal S1x3 .f32) y = (V c main_v52 : S1x3.Idx → Elt Ideal .f32) k := by
  obtain ⟨-, -, -, -, -, -, e0, e1, -⟩ := blockIndex3 t
  show V c main_v52 (((cfg3.win 3).blk t).view.emb y) = V c main_v52 k
  refine congrArg _ (funext fun a => Fin.ext ?_)
  match a with
  | ⟨0, _⟩ => show win3_3.index t (0 : Fin 2) * 1 + 1 * (y 0).val = (k 0).val; omega
  | ⟨1, _⟩ => show win3_3.index t (1 : Fin 2) * 3 + 1 * (y 1).val = (k 1).val; omega

private theorem wrootBlock3_apply (c : Dev nD) (t : Fin cfg3.N) (y : S3x3.Idx) (k : S3x3.Idx)
    (hk0 : (k 0).val = (y 0).val) (hk1 : (k 1).val = (y 1).val) :
    (iblk3 (F := Ideal) V c 4 t : Vec Ideal S3x3 .f32) y = (V c main_arg10 : S3x3.Idx → Elt Ideal .f32) k := by
  obtain ⟨-, -, -, -, -, -, -, -, e0, e1, -⟩ := blockIndex3 t
  show V c main_arg10 (((cfg3.win 4).blk t).view.emb y) = V c main_arg10 k
  refine congrArg _ (funext fun a => Fin.ext ?_)
  match a with
  | ⟨0, _⟩ => show win3_4.index t (0 : Fin 2) * 3 + 1 * (y 0).val = (k 0).val; omega
  | ⟨1, _⟩ => show win3_4.index t (1 : Fin 2) * 3 + 1 * (y 1).val = (k 1).val; omega

private theorem nodeBlock3_eq (c : Dev nD) (t : Fin cfg3.N) (j : S16384x3.Idx) (i : S475136x3.Idx)
    (hi0 : (i 0).val = t.val * 16384 + (j 0).val) (hi1 : (i 1).val = (j 1).val) :
    k3_pay1 (F := Ideal) (iblk3 (F := Ideal) V c 0 t) (iblk3 (F := Ideal) V c 1 t) (iblk3 (F := Ideal) V c 2 t) (iblk3 (F := Ideal) V c 3 t) (iblk3 (F := Ideal) V c 4 t) j
      = Cert.Spec.node (V c main_v51) (V c main_v28) (V c main_arg8) (V c main_v52) (V c main_arg10) i := by
  refine (nodePayload3_at _ _ _ _ _ j).trans ?_
  exact Cert.Spec.node_congr
    (fun k => aggBlock3_apply V c t (ix2 (j 0) k) (ix2 (i 0) k) hi0 rfl)
    (fun k => wrelBlock3_apply V c t (ix2 k (j 1)) (ix2 k (i 1)) rfl hi1)
    (biasBlock3_apply V c t (ix2 0 (j 1)) (ix2 0 (i 1)) rfl hi1)
    (fun k => featBlock3_apply V c t (ix2 (j 0) k) (ix2 (i 0) k) hi0 rfl)
    (fun k => wrootBlock3_apply V c t (ix2 k (j 1)) (ix2 k (i 1)) rfl hi1)

private theorem flushed3_5_eq (c : Dev nD) (t : Fin cfg3.N) :
    (dat3 (F := Ideal) V c).flushed 5 t = ((cfg3.win 5).blk t).view.read (Elt Ideal)
      (Cert.Spec.node (V c main_v51) (V c main_v28) (V c main_arg8) (V c main_v52) (V c main_arg10)) := by
  show (cfg3.win 5).cut (grid3.coords t) ((dat3 (F := Ideal) V c).after 5 t) = _
  rw [after3_5]
  unfold out3_5
  rw [View.canon_unit_zero Cert.Spec.zeroOffsets]
  simp only [View.ld_unit_zero (S := S16384x3) Cert.Spec.zeroOffsets, View.ld_unit_zero (S := S3x3) Cert.Spec.zeroOffsets, View.ld_unit_zero (S := S1x3) Cert.Spec.zeroOffsets]
  obtain ⟨-, -, -, -, -, -, -, -, -, -, e0, e1⟩ := blockIndex3 t
  funext j
  show _ = Cert.Spec.node (V c main_v51) (V c main_v28) (V c main_arg8) (V c main_v52) (V c main_arg10) (((cfg3.win 5).blk t).view.emb j)
  exact nodeBlock3_eq V c t j _
    (by show win3_5.index t (0 : Fin 2) * 16384 + 1 * (j 0).val = t.val * 16384 + (j 0).val; omega)
    (by show win3_5.index t (1 : Fin 2) * 3 + 1 * (j 1).val = (j 1).val; omega)

private theorem mem_outBlock3 (t : Fin cfg3.N) (i : S475136x3.Idx) :
    i ∈ ((cfg3.win 5).blk t).view.set ↔ ∀ a : Fin 2, win3_5.index t a * S16384x3.size a ≤ (i a).val ∧ (i a).val < win3_5.index t a * S16384x3.size a + S16384x3.size a := by
  show i ∈ ((View.whole main_v53).slice (win3_5.rect t)).set ↔ _
  rw [View.set_slice_whole, Rect.mem_set_unit]
  exact Iff.rfl

private theorem covered3 (i : S475136x3.Idx) : ∃ t : Fin cfg3.N, (cfg3.win 5).flush t = true ∧ i ∈ ((cfg3.win 5).blk t).view.set := by
  have h0 : (i 0).val < 475136 := (i 0).isLt
  have h1 : (i 1).val < 3 := (i 1).isLt
  have hlt : (i 0).val / 16384 < cfg3.N := by show _ < grid3.N; rw [N_3]; omega
  obtain ⟨-, -, -, -, -, -, -, -, -, -, e0, e1⟩ := blockIndex3 ⟨(i 0).val / 16384, hlt⟩
  have e0' : win3_5.index ⟨(i 0).val / 16384, hlt⟩ (0 : Fin 2) = (i 0).val / 16384 := e0
  refine ⟨⟨(i 0).val / 16384, hlt⟩, flush3_5 _, ?_⟩
  rw [mem_outBlock3]
  intro a
  match a with
  | ⟨0, _⟩ => show win3_5.index ⟨(i 0).val / 16384, hlt⟩ (0 : Fin 2) * 16384 ≤ (i 0).val ∧ (i 0).val < win3_5.index ⟨(i 0).val / 16384, hlt⟩ (0 : Fin 2) * 16384 + 16384; omega
  | ⟨1, _⟩ => show win3_5.index ⟨(i 0).val / 16384, hlt⟩ (1 : Fin 2) * 3 ≤ (i 1).val ∧ (i 1).val < win3_5.index ⟨(i 0).val / 16384, hlt⟩ (1 : Fin 2) * 3 + 3; omega

theorem final3_5 (c : Dev nD) :
    (dat3 (F := Ideal) V c).arrAt 5 cfg3.N = Cert.Spec.node (V c main_v51) (V c main_v28) (V c main_arg8) (V c main_v52) (V c main_arg10) :=
  (dat3 (F := Ideal) V c).arrAt_eq_of_cover 5 _ (fun t _ => flushed3_5_eq V c t) covered3

end Cert.KernelIdeal.Run

end
-- ==== Proof.KI.Final4.lean ====
import proofs.«423123_j317827579936_1_alg».proof.Proof.KI.Region4
import proofs.«423123_j317827579936_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)
open Idealize.ShloMosaic.ValueIdx

theorem r4_rows_mul_apply (x : FVec Ideal S65536x3 .f32) (w : FVec Ideal S3x4 .f32) (p : Fin 65536) (q : Fin 4) :
    matmul dot_S65536x3_S3x4_S65536x4_1_0_0_1_n_n none x w (constant (F := Ideal) S65536x4 .f32 0x00000000#32) (ix2 p q)
      = ∑ k : Fin 3, x (ix2 p k) * w (ix2 k q) :=
  (congrFun (matmul_zero_eq_dotGeneral (DotDims.plain 65536 3 4) none x w) (ix2 p q)).trans (StackMember.dotGeneral_plain_apply none x w p q)

theorem r4_feat_mul_apply (x : FVec Ideal S65536x4 .f32) (w : FVec Ideal S4x1 .f32) (p : Fin 65536) (q : Fin 1) :
    matmul dot_S65536x4_S4x1_S65536x1_1_0_0_1_n_n none x w (constant (F := Ideal) S65536x1 .f32 0x00000000#32) (ix2 p q)
      = ∑ k : Fin 4, x (ix2 p k) * w (ix2 k q) :=
  (congrFun (matmul_zero_eq_dotGeneral (DotDims.plain 65536 4 1) none x w) (ix2 p q)).trans (StackMember.dotGeneral_plain_apply none x w p q)

theorem r4_column_broadcast_apply {α : Type} {a b : ℕ} (v : (⟨2, ![a, 1]⟩ : Shape).Idx → α) (h : (⟨2, ![a, 1]⟩ : Shape).Broadcasts ⟨2, ![a, b]⟩)
    (ha : a ≠ 1) (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    rw [if_neg ha]
  | ⟨1, _⟩ => rfl

theorem r4_feat_payload_apply (x0 x1 x2 : Vec Ideal S65536x3 .f32) (w1 w2 w3 : Vec Ideal S3x4 .f32) (b : Vec Ideal S1x4 .f32)
    (p : Fin 65536) (q : Fin 4) :
    k4_pay2 (F := Ideal) x0 x1 x2 w1 w2 w3 b (ix2 p q)
      = (((∑ k : Fin 3, x0 (ix2 p k) * w1 (ix2 k q)) + (∑ k : Fin 3, x1 (ix2 p k) * w2 (ix2 k q)))
          + (∑ k : Fin 3, x2 (ix2 p k) * w3 (ix2 k q))) + b (ix2 0 q) := by
  unfold k4_pay2 k4_pay1
  simp only [shapeCast_self]
  rw [addf_apply, addf_apply, addf_apply, r4_rows_mul_apply, r4_rows_mul_apply, r4_rows_mul_apply, broadcastTo_1b_ab_apply]

theorem r4_msg_payload_apply (x0 x1 x2 : Vec Ideal S65536x3 .f32) (w1 w2 w3 : Vec Ideal S3x4 .f32) (b : Vec Ideal S1x4 .f32)
    (nw : Vec Ideal S4x1 .f32) (nb : Vec Ideal S1x1 .f32) (p : Fin 65536) (q : Fin 3) :
    k4_pay3 (F := Ideal) x0 x1 x2 w1 w2 w3 b nw nb (ix2 p q)
      = max ((∑ k : Fin 4, k4_pay2 (F := Ideal) x0 x1 x2 w1 w2 w3 b (ix2 p k) * nw (ix2 k 0)) + nb (ix2 0 0)) 0 * x0 (ix2 p q) := by
  unfold k4_pay3 k4_pay1
  simp only [shapeCast_self]
  rw [mulf_apply, r4_column_broadcast_apply _ _ (by decide), maximumf_apply, addf_apply, r4_feat_mul_apply, broadcastTo_1b_ab_apply,
    broadcast_apply]
  show max (_ + _) (Ideal.ofBits .f32 0x00000000#32) * _ = _
  rw [Ideal.ofBits_zero_f32]

theorem r4_edgeFeat_apply {n cx cew cout : Nat} (xs xd : Cert.Spec.Arr n cx) (ew : Cert.Spec.Arr n cew) (w1 w2 : Cert.Spec.Arr cx cout)
    (w3 : Cert.Spec.Arr cew cout) (b : Cert.Spec.Arr 1 cout) (r : Fin n) (q : Fin cout) :
    Cert.Spec.edgeFeat false xs xd ew w1 w2 w3 b (ix2 r q)
      = (((∑ k : Fin cx, xs (ix2 r k) * w1 (ix2 k q)) + (∑ k : Fin cx, xd (ix2 r k) * w2 (ix2 k q)))
          + (∑ k : Fin cew, ew (ix2 r k) * w3 (ix2 k q))) + b (ix2 0 q) := rfl

theorem r4_edgeMsg_apply {n cx cout : Nat} (feat : Cert.Spec.Arr n cout) (xs : Cert.Spec.Arr n cx) (nw : Cert.Spec.Arr cout 1)
    (nb : Cert.Spec.Arr 1 1) (r : Fin n) (q : Fin cx) :
    Cert.Spec.edgeMsg feat xs nw nb (ix2 r q)
      = max ((∑ k : Fin cout, feat (ix2 r k) * nw (ix2 k 0)) + nb (ix2 0 0)) 0 * xs (ix2 r q) := rfl

theorem r4_origin2 : (![0, 0] : Fin 2 → Nat) = fun _ => 0 := funext fun a => by fin_cases a <;> rfl

theorem r4_block_index4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = t.val ∧ win4_10.index t (1 : Fin 2) = 0) :=
  (by decide +kernel : ∀ t : Fin grid4.N, _)

theorem r4_point_lt (t : Fin cfg4.N) : t.val < 203 := lt_of_lt_of_eq t.isLt (N_4 : cfg4.N = 203)

variable (V : (c : Dev nD) → (b : Ref sig .tc) → Buf (Elt Ideal) ((c : Thread nD τ).loc b))

theorem r4_read4_0 (c : Dev nD) (t : Fin cfg4.N) (p : Fin 65536) (k : Fin 3) (r : Fin 13303808) (hr : r.val = t.val * 65536 + p.val) :
    (iblk4 V c 0 t : Vec Ideal S65536x3 .f32) (ix2 p k) = (V c main_v60 : S13303808x3.Idx → EReal) (ix2 r k) := by
  obtain ⟨⟨e0, e1⟩, -⟩ := r4_block_index4 t
  unfold iblk4
  rw [View.read_apply]
  refine congrArg (V c main_v60 : S13303808x3.Idx → EReal) (funext fun a => Fin.ext ?_)
  match a with
  | ⟨0, _⟩ => show win4_0.index t (0 : Fin 2) * 65536 + 1 * p.val = r.val; omega
  | ⟨1, _⟩ => show win4_0.index t (1 : Fin 2) * 3 + 1 * k.val = k.val; omega

theorem r4_read4_1 (c : Dev nD) (t : Fin cfg4.N) (p : Fin 65536) (k : Fin 3) (r : Fin 13303808) (hr : r.val = t.val * 65536 + p.val) :
    (iblk4 V c 1 t : Vec Ideal S65536x3 .f32) (ix2 p k) = (V c main_v67 : S13303808x3.Idx → EReal) (ix2 r k) := by
  obtain ⟨-, ⟨e0, e1⟩, -⟩ := r4_block_index4 t
  unfold iblk4
  rw [View.read_apply]
  refine congrArg (V c main_v67 : S13303808x3.Idx → EReal) (funext fun a => Fin.ext ?_)
  match a with
  | ⟨0, _⟩ => show win4_1.index t (0 : Fin 2) * 65536 + 1 * p.val = r.val; omega
  | ⟨1, _⟩ => show win4_1.index t (1 : Fin 2) * 3 + 1 * k.val = k.val; omega

theorem r4_read4_2 (c : Dev nD) (t : Fin cfg4.N) (p : Fin 65536) (k : Fin 3) (r : Fin 13303808) (hr : r.val = t.val * 65536 + p.val) :
    (iblk4 V c 2 t : Vec Ideal S65536x3 .f32) (ix2 p k) = (V c main_v48_0 : S13303808x3.Idx → EReal) (ix2 r k) := by
  obtain ⟨-, -, ⟨e0, e1⟩, -⟩ := r4_block_index4 t
  unfold iblk4
  rw [View.read_apply]
  refine congrArg (V c main_v48_0 : S13303808x3.Idx → EReal) (funext fun a => Fin.ext ?_)
  match a with
  | ⟨0, _⟩ => show win4_2.index t (0 : Fin 2) * 65536 + 1 * p.val = r.val; omega
  | ⟨1, _⟩ => show win4_2.index t (1 : Fin 2) * 3 + 1 * k.val = k.val; omega

theorem r4_read4_3 (c : Dev nD) (t : Fin cfg4.N) (k : Fin 3) (q : Fin 4) :
    (iblk4 V c 3 t : Vec Ideal S3x4 .f32) (ix2 k q) = (V c main_v68 : S3x4.Idx → EReal) (ix2 k q) := by
  obtain ⟨-, -, -, ⟨e0, e1⟩, -⟩ := r4_block_index4 t
  unfold iblk4
  rw [View.read_apply]
  refine congrArg (V c main_v68 : S3x4.Idx → EReal) (funext fun a => Fin.ext ?_)
  match a with
  | ⟨0, _⟩ => show win4_3.index t (0 : Fin 2) * 3 + 1 * k.val = k.val; omega
  | ⟨1, _⟩ => show win4_3.index t (1 : Fin 2) * 4 + 1 * q.val = q.val; omega

theorem r4_read4_4 (c : Dev nD) (t : Fin cfg4.N) (k : Fin 3) (q : Fin 4) :
    (iblk4 V c 4 t : Vec Ideal S3x4 .f32) (ix2 k q) = (V c main_v69 : S3x4.Idx → EReal) (ix2 k q) := by
  obtain ⟨-, -, -, -, ⟨e0, e1⟩, -⟩ := r4_block_index4 t
  unfold iblk4
  rw [View.read_apply]
  refine congrArg (V c main_v69 : S3x4.Idx → EReal) (funext fun a => Fin.ext ?_)
  match a with
  | ⟨0, _⟩ => show win4_4.index t (0 : Fin 2) * 3 + 1 * k.val = k.val; omega
  | ⟨1, _⟩ => show win4_4.index t (1 : Fin 2) * 4 + 1 * q.val = q.val; omega

theorem r4_read4_5 (c : Dev nD) (t : Fin cfg4.N) (k : Fin 3) (q : Fin 4) :
    (iblk4 V c 5 t : Vec Ideal S3x4 .f32) (ix2 k q) = (V c main_v70 : S3x4.Idx → EReal) (ix2 k q) := by
  obtain ⟨-, -, -, -, -, ⟨e0, e1⟩, -⟩ := r4_block_index4 t
  unfold iblk4
  rw [View.read_apply]
  refine congrArg (V c main_v70 : S3x4.Idx → EReal) (funext fun a => Fin.ext ?_)
  match a with
  | ⟨0, _⟩ => show win4_5.index t (0 : Fin 2) * 3 + 1 * k.val = k.val; omega
  | ⟨1, _⟩ => show win4_5.index t (1 : Fin 2) * 4 + 1 * q.val = q.val; omega

theorem r4_read4_6 (c : Dev nD) (t : Fin cfg4.N) (u : Fin 1) (q : Fin 4) :
    (iblk4 V c 6 t : Vec Ideal S1x4 .f32) (ix2 u q) = (V c main_v71 : S1x4.Idx → EReal) (ix2 u q) := by
  obtain ⟨-, -, -, -, -, -, ⟨e0, e1⟩, -⟩ := r4_block_index4 t
  unfold iblk4
  rw [View.read_apply]
  refine congrArg (V c main_v71 : S1x4.Idx → EReal) (funext fun a => Fin.ext ?_)
  match a with
  | ⟨0, _⟩ => show win4_6.index t (0 : Fin 2) * 1 + 1 * u.val = u.val; omega
  | ⟨1, _⟩ => show win4_6.index t (1 : Fin 2) * 4 + 1 * q.val = q.val; omega

theorem r4_read4_7 (c : Dev nD) (t : Fin cfg4.N) (k : Fin 4) (u : Fin 1) :
    (iblk4 V c 7 t : Vec Ideal S4x1 .f32) (ix2 k u) = (V c main_arg24 : S4x1.Idx → EReal) (ix2 k u) := by
  obtain ⟨-, -, -, -, -, -, -, ⟨e0, e1⟩, -⟩ := r4_block_index4 t
  unfold iblk4
  rw [View.read_apply]
  refine congrArg (V c main_arg24 : S4x1.Idx → EReal) (funext fun a => Fin.ext ?_)
  match a with
  | ⟨0, _⟩ => show win4_7.index t (0 : Fin 2) * 4 + 1 * k.val = k.val; omega
  | ⟨1, _⟩ => show win4_7.index t (1 : Fin 2) * 1 + 1 * u.val = u.val; omega

theorem r4_read4_8 (c : Dev nD) (t : Fin cfg4.N) (u u' : Fin 1) :
    (iblk4 V c 8 t : Vec Ideal S1x1 .f32) (ix2 u u') = (V c main_v72 : S1x1.Idx → EReal) (ix2 u u') := by
  obtain ⟨-, -, -, -, -, -, -, -, ⟨e0, e1⟩, -⟩ := r4_block_index4 t
  unfold iblk4
  rw [View.read_apply]
  refine congrArg (V c main_v72 : S1x1.Idx → EReal) (funext fun a => Fin.ext ?_)
  match a with
  | ⟨0, _⟩ => show win4_8.index t (0 : Fin 2) * 1 + 1 * u.val = u.val; omega
  | ⟨1, _⟩ => show win4_8.index t (1 : Fin 2) * 1 + 1 * u'.val = u'.val; omega

theorem r4_emb4_9 (t : Fin cfg4.N) (p : Fin 65536) (q : Fin 4) (r : Fin 13303808) (hr : r.val = t.val * 65536 + p.val) :
    ((cfg4.win 9).blk t).view.emb (ix2 p q) = (ix2 r q : S13303808x4.Idx) := by
  obtain ⟨-, -, -, -, -, -, -, -, -, ⟨e0, e1⟩, -⟩ := r4_block_index4 t
  funext a; apply Fin.ext
  match a with
  | ⟨0, _⟩ => show win4_9.index t (0 : Fin 2) * 65536 + 1 * p.val = r.val; omega
  | ⟨1, _⟩ => show win4_9.index t (1 : Fin 2) * 4 + 1 * q.val = q.val; omega

theorem r4_emb4_10 (t : Fin cfg4.N) (p : Fin 65536) (q : Fin 3) (r : Fin 13303808) (hr : r.val = t.val * 65536 + p.val) :
    ((cfg4.win 10).blk t).view.emb (ix2 p q) = (ix2 r q : S13303808x3.Idx) := by
  obtain ⟨-, -, -, -, -, -, -, -, -, -, e0, e1⟩ := r4_block_index4 t
  funext a; apply Fin.ext
  match a with
  | ⟨0, _⟩ => show win4_10.index t (0 : Fin 2) * 65536 + 1 * p.val = r.val; omega
  | ⟨1, _⟩ => show win4_10.index t (1 : Fin 2) * 3 + 1 * q.val = q.val; omega

theorem r4_feat_block_apply (c : Dev nD) (t : Fin cfg4.N) (p : Fin 65536) (q : Fin 4) (r : Fin 13303808) (hr : r.val = t.val * 65536 + p.val) :
    k4_pay2 (F := Ideal) (iblk4 V c 0 t) (iblk4 V c 1 t) (iblk4 V c 2 t) (iblk4 V c 3 t) (iblk4 V c 4 t) (iblk4 V c 5 t) (iblk4 V c 6 t) (ix2 p q)
      = Cert.Spec.edgeFeat false (V c main_v60) (V c main_v67) (V c main_v48_0) (V c main_v68) (V c main_v69) (V c main_v70) (V c main_v71) (ix2 r q) := by
  refine (r4_feat_payload_apply (iblk4 V c 0 t) (iblk4 V c 1 t) (iblk4 V c 2 t) (iblk4 V c 3 t) (iblk4 V c 4 t) (iblk4 V c 5 t) (iblk4 V c 6 t) p q).trans ?_
  refine Eq.trans ?_ (r4_edgeFeat_apply (n := 13303808) (cx := 3) (cew := 3) (cout := 4) (V c main_v60) (V c main_v67) (V c main_v48_0) (V c main_v68) (V c main_v69) (V c main_v70) (V c main_v71) r q).symm
  refine congrArg₂ (· + ·) (congrArg₂ (· + ·) (congrArg₂ (· + ·) ?_ ?_) ?_) ?_
  · exact Finset.sum_congr rfl fun k _ => congrArg₂ (· * ·) (r4_read4_0 V c t p k r hr) (r4_read4_3 V c t k q)
  · exact Finset.sum_congr rfl fun k _ => congrArg₂ (· * ·) (r4_read4_1 V c t p k r hr) (r4_read4_4 V c t k q)
  · exact Finset.sum_congr rfl fun k _ => congrArg₂ (· * ·) (r4_read4_2 V c t p k r hr) (r4_read4_5 V c t k q)
  · exact r4_read4_6 V c t 0 q

theorem r4_flushed4_9_eq (c : Dev nD) (t : Fin cfg4.N) :
    (dat4 (F := Ideal) V c).flushed 9 t = ((cfg4.win 9).blk t).view.read (Elt Ideal)
      (Cert.Spec.edgeFeat false (V c main_v60) (V c main_v67) (V c main_v48_0) (V c main_v68) (V c main_v69) (V c main_v70) (V c main_v71)) := by
  show (cfg4.win 9).cut (grid4.coords t) ((dat4 V c).after 9 t) = _
  rw [after4_9]
  unfold out4_9
  rw [View.canon_unit_zero r4_origin2]
  simp only [View.ld_unit_zero (S := S65536x3) r4_origin2, View.ld_unit_zero (S := S3x4) r4_origin2, View.ld_unit_zero (S := S1x4) r4_origin2]
  funext j
  obtain ⟨p, q, rfl⟩ : ∃ (p : Fin 65536) (q : Fin 4), j = ix2 p q := ⟨j 0, j 1, eq_ix2 (n0 := 65536) (n1 := 4) j⟩
  have ht := r4_point_lt t
  have hp := p.isLt
  rw [View.read_apply, r4_emb4_9 t p q ⟨t.val * 65536 + p.val, by omega⟩ rfl]
  exact r4_feat_block_apply V c t p q _ rfl

theorem r4_flushed4_10_eq (c : Dev nD) (t : Fin cfg4.N) :
    (dat4 (F := Ideal) V c).flushed 10 t = ((cfg4.win 10).blk t).view.read (Elt Ideal)
      (Cert.Spec.edgeMsg (Cert.Spec.edgeFeat false (V c main_v60) (V c main_v67) (V c main_v48_0) (V c main_v68) (V c main_v69) (V c main_v70) (V c main_v71)) (V c main_v60) (V c main_arg24) (V c main_v72)) := by
  show (cfg4.win 10).cut (grid4.coords t) ((dat4 V c).after 10 t) = _
  rw [after4_10]
  unfold out4_10
  rw [View.canon_unit_zero r4_origin2]
  simp only [View.ld_unit_zero (S := S65536x3) r4_origin2, View.ld_unit_zero (S := S3x4) r4_origin2, View.ld_unit_zero (S := S1x4) r4_origin2,
    View.ld_unit_zero (S := S4x1) r4_origin2, View.ld_unit_zero (S := S1x1) r4_origin2]
  funext j
  obtain ⟨p, q, rfl⟩ : ∃ (p : Fin 65536) (q : Fin 3), j = ix2 p q := ⟨j 0, j 1, eq_ix2 (n0 := 65536) (n1 := 3) j⟩
  have ht := r4_point_lt t
  have hp := p.isLt
  rw [View.read_apply, r4_emb4_10 t p q ⟨t.val * 65536 + p.val, by omega⟩ rfl]
  refine (r4_msg_payload_apply (iblk4 V c 0 t) (iblk4 V c 1 t) (iblk4 V c 2 t) (iblk4 V c 3 t) (iblk4 V c 4 t) (iblk4 V c 5 t) (iblk4 V c 6 t) (iblk4 V c 7 t) (iblk4 V c 8 t) p q).trans ?_
  refine Eq.trans ?_ (r4_edgeMsg_apply (n := 13303808) (cx := 3) (cout := 4) _ (V c main_v60) (V c main_arg24) (V c main_v72) ⟨t.val * 65536 + p.val, by omega⟩ q).symm
  refine congrArg₂ (· * ·) (congrArg (fun x : EReal => max x 0) (congrArg₂ (· + ·) ?_ ?_)) ?_
  · exact Finset.sum_congr rfl fun k _ => congrArg₂ (· * ·) (r4_feat_block_apply V c t p k _ rfl) (r4_read4_7 V c t k 0)
  · exact r4_read4_8 V c t 0 0
  · exact r4_read4_0 V c t p q _ rfl

theorem r4_mem_blk4_9 (t : Fin cfg4.N) (i : S13303808x4.Idx) :
    i ∈ ((cfg4.win 9).blk t).view.set ↔ ∀ a : Fin 2, win4_9.index t a * S65536x4.size a ≤ (i a).val ∧ (i a).val < win4_9.index t a * S65536x4.size a + S65536x4.size a := by
  show i ∈ ((View.whole main_v73_0).slice (win4_9.rect t)).set ↔ _
  rw [View.set_slice_whole, Rect.mem_set_unit]
  exact Iff.rfl

theorem r4_mem_blk4_10 (t : Fin cfg4.N) (i : S13303808x3.Idx) :
    i ∈ ((cfg4.win 10).blk t).view.set ↔ ∀ a : Fin 2, win4_10.index t a * S65536x3.size a ≤ (i a).val ∧ (i a).val < win4_10.index t a * S65536x3.size a + S65536x3.size a := by
  show i ∈ ((View.whole main_v73_1).slice (win4_10.rect t)).set ↔ _
  rw [View.set_slice_whole, Rect.mem_set_unit]
  exact Iff.rfl

theorem r4_rows_covered4_9 (i : S13303808x4.Idx) :
    ∃ t : Fin cfg4.N, (cfg4.win 9).flush t = true ∧ i ∈ ((cfg4.win 9).blk t).view.set := by
  have hi0 : (i 0).val < 13303808 := (i 0).isLt
  have hi1 : (i 1).val < 4 := (i 1).isLt
  have hN : cfg4.N = 203 := N_4
  obtain ⟨t, htv⟩ : ∃ t : Fin cfg4.N, t.val = (i 0).val / 65536 := ⟨⟨(i 0).val / 65536, by rw [hN]; omega⟩, rfl⟩
  obtain ⟨-, -, -, -, -, -, -, -, -, ⟨e0, e1⟩, -⟩ := r4_block_index4 t
  refine ⟨t, flush4_9 t, ?_⟩
  rw [r4_mem_blk4_9]
  intro a
  match a with
  | ⟨0, _⟩ => show win4_9.index t (0 : Fin 2) * 65536 ≤ (i 0).val ∧ (i 0).val < win4_9.index t (0 : Fin 2) * 65536 + 65536; omega
  | ⟨1, _⟩ => show win4_9.index t (1 : Fin 2) * 4 ≤ (i 1).val ∧ (i 1).val < win4_9.index t (1 : Fin 2) * 4 + 4; omega

theorem r4_rows_covered4_10 (i : S13303808x3.Idx) :
    ∃ t : Fin cfg4.N, (cfg4.win 10).flush t = true ∧ i ∈ ((cfg4.win 10).blk t).view.set := by
  have hi0 : (i 0).val < 13303808 := (i 0).isLt
  have hi1 : (i 1).val < 3 := (i 1).isLt
  have hN : cfg4.N = 203 := N_4
  obtain ⟨t, htv⟩ : ∃ t : Fin cfg4.N, t.val = (i 0).val / 65536 := ⟨⟨(i 0).val / 65536, by rw [hN]; omega⟩, rfl⟩
  obtain ⟨-, -, -, -, -, -, -, -, -, -, e0, e1⟩ := r4_block_index4 t
  refine ⟨t, flush4_10 t, ?_⟩
  rw [r4_mem_blk4_10]
  intro a
  match a with
  | ⟨0, _⟩ => show win4_10.index t (0 : Fin 2) * 65536 ≤ (i 0).val ∧ (i 0).val < win4_10.index t (0 : Fin 2) * 65536 + 65536; omega
  | ⟨1, _⟩ => show win4_10.index t (1 : Fin 2) * 3 ≤ (i 1).val ∧ (i 1).val < win4_10.index t (1 : Fin 2) * 3 + 3; omega

theorem final4_9 (c : Dev nD) :
    (dat4 (F := Ideal) V c).arrAt 9 cfg4.N = Cert.Spec.edgeFeat false (V c main_v60) (V c main_v67) (V c main_v48_0) (V c main_v68) (V c main_v69) (V c main_v70) (V c main_v71) :=
  (dat4 (F := Ideal) V c).arrAt_eq_of_cover 9 _ (fun t _ => r4_flushed4_9_eq V c t) r4_rows_covered4_9

theorem final4_10 (c : Dev nD) :
    (dat4 (F := Ideal) V c).arrAt 10 cfg4.N = Cert.Spec.edgeMsg (Cert.Spec.edgeFeat false (V c main_v60) (V c main_v67) (V c main_v48_0) (V c main_v68) (V c main_v69) (V c main_v70) (V c main_v71)) (V c main_v60) (V c main_arg24) (V c main_v72) :=
  (dat4 (F := Ideal) V c).arrAt_eq_of_cover 10 _ (fun t _ => r4_flushed4_10_eq V c t) r4_rows_covered4_10

end Cert.KernelIdeal.Run

end
-- ==== Proof.KI.Final5.lean ====
import proofs.«423123_j317827579936_1_alg».proof.Proof.KI.Region5
import proofs.«423123_j317827579936_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)
open Idealize.ShloMosaic.ValueIdx

private theorem prod5_apply (x : Vec Ideal S16384x3 .f32) (w : Vec Ideal S3x5 .f32) (p : Fin 16384) (q : Fin 5) :
    matmul (φ₁ := .f32) (φ₂ := .f32) dot_S16384x3_S3x5_S16384x5_1_0_0_1_n_n none x w (constant (F := Ideal) S16384x5 .f32 0x00000000#32) (ix2 p q)
      = ∑ k : Fin 3, x (ix2 p k) * w (ix2 k q) :=
  (congrFun (matmul_zero_eq_dotGeneral (DotDims.plain 16384 3 5) none x w) (ix2 p q)).trans (StackMember.dotGeneral_plain_apply none x w p q)

private theorem biasRows5_apply (b : Vec Ideal S1x5 .f32) (p : Fin 16384) (q : Fin 5) :
    broadcastTo S16384x5 b broadcasts_S1x5_S16384x5 (ix2 p q) = b (ix2 0 q) :=
  broadcastTo_1b_ab_apply b broadcasts_S1x5_S16384x5 p q
private theorem nodePayload5_apply (a x : Vec Ideal S16384x3 .f32) (wrel : Vec Ideal S3x5 .f32) (b : Vec Ideal S1x5 .f32) (wroot : Vec Ideal S3x5 .f32)
    (p : Fin 16384) (q : Fin 5) :
    k5_pay1 (F := Ideal) a x wrel b wroot (ix2 p q)
      = max (((∑ k : Fin 3, a (ix2 p k) * wrel (ix2 k q)) + b (ix2 0 q)) + (∑ k : Fin 3, x (ix2 p k) * wroot (ix2 k q))) 0 := by
  unfold k5_pay1
  simp only [shapeCast_self]
  rw [maximumf_apply, addf_apply, addf_apply, broadcast_apply, prod5_apply, prod5_apply, biasRows5_apply]
  show max _ (Ideal.ofBits .f32 0x00000000#32) = _
  rw [Ideal.ofBits_zero_f32]

private theorem nodePayload5_at (a x : Vec Ideal S16384x3 .f32) (wrel : Vec Ideal S3x5 .f32) (b : Vec Ideal S1x5 .f32) (wroot : Vec Ideal S3x5 .f32)
    (j : S16384x5.Idx) :
    k5_pay1 (F := Ideal) a x wrel b wroot j
      = max (((∑ k : Fin 3, a (ix2 (j 0) k) * wrel (ix2 k (j 1))) + b (ix2 0 (j 1))) + (∑ k : Fin 3, x (ix2 (j 0) k) * wroot (ix2 k (j 1)))) 0 := by
  obtain ⟨p, q, rfl⟩ : ∃ (p : Fin 16384) (q : Fin 5), j = ix2 p q := ⟨j 0, j 1, eq_ix2 j⟩
  exact nodePayload5_apply a x wrel b wroot p q

variable (V : (c : Dev nD) → (b : Ref sig .tc) → Buf (Elt Ideal) ((c : Thread nD τ).loc b))

private theorem blockIndex5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

private theorem aggBlock5_apply (c : Dev nD) (t : Fin cfg5.N) (y : S16384x3.Idx) (k : S475136x3.Idx)
    (hk0 : (k 0).val = t.val * 16384 + (y 0).val) (hk1 : (k 1).val = (y 1).val) :
    (iblk5 (F := Ideal) V c 0 t : Vec Ideal S16384x3 .f32) y = (V c main_v76 : S475136x3.Idx → Elt Ideal .f32) k := by
  obtain ⟨e0, e1, -⟩ := blockIndex5 t
  show V c main_v76 (((cfg5.win 0).blk t).view.emb y) = V c main_v76 k
  refine congrArg _ (funext fun a => Fin.ext ?_)
  match a with
  | ⟨0, _⟩ => show win5_0.index t (0 : Fin 2) * 16384 + 1 * (y 0).val = (k 0).val; omega
  | ⟨1, _⟩ => show win5_0.index t (1 : Fin 2) * 3 + 1 * (y 1).val = (k 1).val; omega

private theorem featBlock5_apply (c : Dev nD) (t : Fin cfg5.N) (y : S16384x3.Idx) (k : S475136x3.Idx)
    (hk0 : (k 0).val = t.val * 16384 + (y 0).val) (hk1 : (k 1).val = (y 1).val) :
    (iblk5 (F := Ideal) V c 1 t : Vec Ideal S16384x3 .f32) y = (V c main_v53 : S475136x3.Idx → Elt Ideal .f32) k := by
  obtain ⟨-, -, e0, e1, -⟩ := blockIndex5 t
  show V c main_v53 (((cfg5.win 1).blk t).view.emb y) = V c main_v53 k
  refine congrArg _ (funext fun a => Fin.ext ?_)
  match a with
  | ⟨0, _⟩ => show win5_1.index t (0 : Fin 2) * 16384 + 1 * (y 0).val = (k 0).val; omega
  | ⟨1, _⟩ => show win5_1.index t (1 : Fin 2) * 3 + 1 * (y 1).val = (k 1).val; omega

private theorem wrelBlock5_apply (c : Dev nD) (t : Fin cfg5.N) (y : S3x5.Idx) (k : S3x5.Idx)
    (hk0 : (k 0).val = (y 0).val) (hk1 : (k 1).val = (y 1).val) :
    (iblk5 (F := Ideal) V c 2 t : Vec Ideal S3x5 .f32) y = (V c main_arg11 : S3x5.Idx → Elt Ideal .f32) k := by
  obtain ⟨-, -, -, -, e0, e1, -⟩ := blockIndex5 t
  show V c main_arg11 (((cfg5.win 2).blk t).view.emb y) = V c main_arg11 k
  refine congrArg _ (funext fun a => Fin.ext ?_)
  match a with
  | ⟨0, _⟩ => show win5_2.index t (0 : Fin 2) * 3 + 1 * (y 0).val = (k 0).val; omega
  | ⟨1, _⟩ => show win5_2.index t (1 : Fin 2) * 5 + 1 * (y 1).val = (k 1).val; omega

private theorem biasBlock5_apply (c : Dev nD) (t : Fin cfg5.N) (y : S1x5.Idx) (k : S1x5.Idx)
    (hk0 : (k 0).val = (y 0).val) (hk1 : (k 1).val = (y 1).val) :
    (iblk5 (F := Ideal) V c 3 t : Vec Ideal S1x5 .f32) y = (V c main_v77 : S1x5.Idx → Elt Ideal .f32) k := by
  obtain ⟨-, -, -, -, -, -, e0, e1, -⟩ := blockIndex5 t
  show V c main_v77 (((cfg5.win 3).blk t).view.emb y) = V c main_v77 k
  refine congrArg _ (funext fun a => Fin.ext ?_)
  match a with
  | ⟨0, _⟩ => show win5_3.index t (0 : Fin 2) * 1 + 1 * (y 0).val = (k 0).val; omega
  | ⟨1, _⟩ => show win5_3.index t (1 : Fin 2) * 5 + 1 * (y 1).val = (k 1).val; omega

private theorem wrootBlock5_apply (c : Dev nD) (t : Fin cfg5.N) (y : S3x5.Idx) (k : S3x5.Idx)
    (hk0 : (k 0).val = (y 0).val) (hk1 : (k 1).val = (y 1).val) :
    (iblk5 (F := Ideal) V c 4 t : Vec Ideal S3x5 .f32) y = (V c main_arg13 : S3x5.Idx → Elt Ideal .f32) k := by
  obtain ⟨-, -, -, -, -, -, -, -, e0, e1, -⟩ := blockIndex5 t
  show V c main_arg13 (((cfg5.win 4).blk t).view.emb y) = V c main_arg13 k
  refine congrArg _ (funext fun a => Fin.ext ?_)
  match a with
  | ⟨0, _⟩ => show win5_4.index t (0 : Fin 2) * 3 + 1 * (y 0).val = (k 0).val; omega
  | ⟨1, _⟩ => show win5_4.index t (1 : Fin 2) * 5 + 1 * (y 1).val = (k 1).val; omega

private theorem nodeBlock5_eq (c : Dev nD) (t : Fin cfg5.N) (j : S16384x5.Idx) (i : S475136x5.Idx)
    (hi0 : (i 0).val = t.val * 16384 + (j 0).val) (hi1 : (i 1).val = (j 1).val) :
    k5_pay1 (F := Ideal) (iblk5 (F := Ideal) V c 0 t) (iblk5 (F := Ideal) V c 1 t) (iblk5 (F := Ideal) V c 2 t) (iblk5 (F := Ideal) V c 3 t) (iblk5 (F := Ideal) V c 4 t) j
      = Cert.Spec.node (V c main_v76) (V c main_v53) (V c main_arg11) (V c main_v77) (V c main_arg13) i := by
  refine (nodePayload5_at _ _ _ _ _ j).trans ?_
  exact Cert.Spec.node_congr
    (fun k => aggBlock5_apply V c t (ix2 (j 0) k) (ix2 (i 0) k) hi0 rfl)
    (fun k => wrelBlock5_apply V c t (ix2 k (j 1)) (ix2 k (i 1)) rfl hi1)
    (biasBlock5_apply V c t (ix2 0 (j 1)) (ix2 0 (i 1)) rfl hi1)
    (fun k => featBlock5_apply V c t (ix2 (j 0) k) (ix2 (i 0) k) hi0 rfl)
    (fun k => wrootBlock5_apply V c t (ix2 k (j 1)) (ix2 k (i 1)) rfl hi1)

private theorem flushed5_5_eq (c : Dev nD) (t : Fin cfg5.N) :
    (dat5 (F := Ideal) V c).flushed 5 t = ((cfg5.win 5).blk t).view.read (Elt Ideal)
      (Cert.Spec.node (V c main_v76) (V c main_v53) (V c main_arg11) (V c main_v77) (V c main_arg13)) := by
  show (cfg5.win 5).cut (grid5.coords t) ((dat5 (F := Ideal) V c).after 5 t) = _
  rw [after5_5]
  unfold out5_5
  rw [View.canon_unit_zero Cert.Spec.zeroOffsets]
  simp only [View.ld_unit_zero (S := S16384x3) Cert.Spec.zeroOffsets, View.ld_unit_zero (S := S3x5) Cert.Spec.zeroOffsets, View.ld_unit_zero (S := S1x5) Cert.Spec.zeroOffsets]
  obtain ⟨-, -, -, -, -, -, -, -, -, -, e0, e1⟩ := blockIndex5 t
  funext j
  show _ = Cert.Spec.node (V c main_v76) (V c main_v53) (V c main_arg11) (V c main_v77) (V c main_arg13) (((cfg5.win 5).blk t).view.emb j)
  exact nodeBlock5_eq V c t j _
    (by show win5_5.index t (0 : Fin 2) * 16384 + 1 * (j 0).val = t.val * 16384 + (j 0).val; omega)
    (by show win5_5.index t (1 : Fin 2) * 5 + 1 * (j 1).val = (j 1).val; omega)

private theorem mem_outBlock5 (t : Fin cfg5.N) (i : S475136x5.Idx) :
    i ∈ ((cfg5.win 5).blk t).view.set ↔ ∀ a : Fin 2, win5_5.index t a * S16384x5.size a ≤ (i a).val ∧ (i a).val < win5_5.index t a * S16384x5.size a + S16384x5.size a := by
  show i ∈ ((View.whole main_v78).slice (win5_5.rect t)).set ↔ _
  rw [View.set_slice_whole, Rect.mem_set_unit]
  exact Iff.rfl

private theorem covered5 (i : S475136x5.Idx) : ∃ t : Fin cfg5.N, (cfg5.win 5).flush t = true ∧ i ∈ ((cfg5.win 5).blk t).view.set := by
  have h0 : (i 0).val < 475136 := (i 0).isLt
  have h1 : (i 1).val < 5 := (i 1).isLt
  have hlt : (i 0).val / 16384 < cfg5.N := by show _ < grid5.N; rw [N_5]; omega
  obtain ⟨-, -, -, -, -, -, -, -, -, -, e0, e1⟩ := blockIndex5 ⟨(i 0).val / 16384, hlt⟩
  have e0' : win5_5.index ⟨(i 0).val / 16384, hlt⟩ (0 : Fin 2) = (i 0).val / 16384 := e0
  refine ⟨⟨(i 0).val / 16384, hlt⟩, flush5_5 _, ?_⟩
  rw [mem_outBlock5]
  intro a
  match a with
  | ⟨0, _⟩ => show win5_5.index ⟨(i 0).val / 16384, hlt⟩ (0 : Fin 2) * 16384 ≤ (i 0).val ∧ (i 0).val < win5_5.index ⟨(i 0).val / 16384, hlt⟩ (0 : Fin 2) * 16384 + 16384; omega
  | ⟨1, _⟩ => show win5_5.index ⟨(i 0).val / 16384, hlt⟩ (1 : Fin 2) * 5 ≤ (i 1).val ∧ (i 1).val < win5_5.index ⟨(i 0).val / 16384, hlt⟩ (1 : Fin 2) * 5 + 5; omega

theorem final5_5 (c : Dev nD) :
    (dat5 (F := Ideal) V c).arrAt 5 cfg5.N = Cert.Spec.node (V c main_v76) (V c main_v53) (V c main_arg11) (V c main_v77) (V c main_arg13) :=
  (dat5 (F := Ideal) V c).arrAt_eq_of_cover 5 _ (fun t _ => flushed5_5_eq V c t) covered5

end Cert.KernelIdeal.Run

end
-- ==== Proof.RefLayer1.lean ====
import proofs.«423123_j317827579936_1_alg».proof.Proof.RefRead
import proofs.«423123_j317827579936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.ReadP
open Idealize.ShloMosaic Idealize.ShloMosaic.TcCoe
open Idealize.ShloMosaic.ValueIdx

theorem l1_v18_col0 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (r : Fin 13303808) :
    val_main_v18 (F := Ideal) x0 x1 x2 (ix2 r (0 : Fin 3)) = val_main_v10 (F := Ideal) x0 x1 (ix2 r (0 : Fin 1)) := by
  unfold val_main_v18
  exact Cert.Spec.cat3_apply_0 _ _ _ Gen.concatenates_S13303808x1_S13303808x1_S13303808x1_S13303808x3_d1 r 0 0 rfl

theorem l1_v18_col1 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (r : Fin 13303808) :
    val_main_v18 (F := Ideal) x0 x1 x2 (ix2 r (1 : Fin 3)) = val_main_v17 (F := Ideal) x0 x1 (ix2 r (0 : Fin 1)) := by
  unfold val_main_v18
  exact Cert.Spec.cat3_apply_1 _ _ _ Gen.concatenates_S13303808x1_S13303808x1_S13303808x1_S13303808x3_d1 r 0 1 rfl

theorem l1_v18_col2 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (r : Fin 13303808) :
    val_main_v18 (F := Ideal) x0 x1 x2 (ix2 r (2 : Fin 3)) = x2 (ix2 r (0 : Fin 1)) := by
  unfold val_main_v18
  exact Cert.Spec.cat3_apply_2 _ _ _ Gen.concatenates_S13303808x1_S13303808x1_S13303808x1_S13303808x3_d1 r 0 2 rfl

theorem feat1 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x14 : (⟨S3x2, .f32⟩ : BufTy).Contents (Elt Ideal)) (x15 : (⟨S2, .f32⟩ : BufTy).Contents (Elt Ideal))
    (w1 w2 : Cert.Spec.Arr 1 2) (w3 : Cert.Spec.Arr 1 2) (b : Cert.Spec.Arr 1 2)
    (h1 : ∀ (k : Fin 1) (j : Fin 2), w1 (ix2 k j) = x14 (ix2 (⟨k.val, by have := k.isLt; omega⟩ : Fin 3) j))
    (h2 : ∀ (k : Fin 1) (j : Fin 2), w2 (ix2 k j) = x14 (ix2 (⟨1 + k.val, by have := k.isLt; omega⟩ : Fin 3) j))
    (h3 : ∀ (k : Fin 1) (j : Fin 2), w3 (ix2 k j) = x14 (ix2 (⟨2 + k.val, by have := k.isLt; omega⟩ : Fin 3) j))
    (hb : ∀ j : Fin 2, b (ix2 0 j) = x15 (ix1 j)) :
    Cert.Spec.edgeFeat true (val_main_v10 (F := Ideal) x0 x1) (val_main_v17 (F := Ideal) x0 x1) x2 w1 w2 w3 b = val_main_v23 (F := Ideal) x0 x1 x2 x14 x15 := by
  funext i
  obtain ⟨r, c, rfl⟩ : ∃ (r : Fin 13303808) (c : Fin 2), i = ix2 r c := ⟨i 0, i 1, eq_ix2 i⟩
  rw [val_main_v23_apply, val_main_v22_apply, val_main_v19_apply, val_main_v21_apply, val_main_v20_apply,
    val_main_call0_v0_apply, val_main_call0_cst_apply]
  have hl : ∀ k : Fin 3, lidx_main_v19 (ix2 r c) k = ix2 r k := fun k =>
    funext fun a => Fin.ext (by match a with | ⟨0, _⟩ => rfl | ⟨1, _⟩ => rfl)
  have hr : ∀ k : Fin 3, ridx_main_v19 (ix2 r c) k = ix2 k c := fun k =>
    funext fun a => Fin.ext (by match a with | ⟨0, _⟩ => rfl | ⟨1, _⟩ => rfl)
  have hbi : idx_main_v20 (idx_main_v21 (ix2 r c)) = ix1 c :=
    funext fun a => Fin.ext (by match a with | ⟨0, _⟩ => rfl)
  have e1 : w1 (ix2 0 c) = x14 (ix2 0 c) := h1 0 c
  have e2 : w2 (ix2 0 c) = x14 (ix2 1 c) := h2 0 c
  have e3 : w3 (ix2 0 c) = x14 (ix2 2 c) := h3 0 c
  rw [Fin.sum_univ_three, hl, hl, hl, hr, hr, hr, hbi, l1_v18_col0, l1_v18_col1, l1_v18_col2]
  show max ((((∑ k : Fin 1, val_main_v10 (F := Ideal) x0 x1 (ix2 r k) * w1 (ix2 k c))
      + (∑ k : Fin 1, val_main_v17 (F := Ideal) x0 x1 (ix2 r k) * w2 (ix2 k c)))
      + (∑ k : Fin 1, x2 (ix2 r k) * w3 (ix2 k c))) + b (ix2 0 c)) 0 = _
  rw [Fin.sum_univ_one, Fin.sum_univ_one, Fin.sum_univ_one, e1, e2, e3, hb]
  show _ = max (_ + _) (Ideal.ofBits .f32 0x00000000#32)
  rw [Ideal.ofBits_zero_f32]

theorem msg1 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x14 : (⟨S3x2, .f32⟩ : BufTy).Contents (Elt Ideal)) (x15 : (⟨S2, .f32⟩ : BufTy).Contents (Elt Ideal)) (x20 : (⟨S2x1, .f32⟩ : BufTy).Contents (Elt Ideal)) (x21 : (⟨S1, .f32⟩ : BufTy).Contents (Elt Ideal))
    (nb : Cert.Spec.Arr 1 1) (hnb : nb (ix2 0 0) = x21 (ix1 0)) :
    Cert.Spec.edgeMsg (val_main_v23 (F := Ideal) x0 x1 x2 x14 x15) (val_main_v10 (F := Ideal) x0 x1) x20 nb = val_main_v36 (F := Ideal) x0 x1 x2 x14 x15 x20 x21 := by
  funext i
  obtain ⟨r, c, rfl⟩ : ∃ (r : Fin 13303808) (c : Fin 1), i = ix2 r c := ⟨i 0, i 1, eq_ix2 i⟩
  obtain rfl : c = 0 := Subsingleton.elim _ _
  have h35 : val_main_v35 (F := Ideal) x0 x1 = val_main_v10 (F := Ideal) x0 x1 := rfl
  rw [val_main_v36_apply, val_main_v28_apply, val_main_v27_apply, val_main_v24_apply, val_main_v26_apply,
    val_main_v25_apply, val_main_call1_v0_apply, val_main_call1_cst_apply, h35]
  have hl : ∀ k : Fin 2, lidx_main_v24 (ix2 r (0 : Fin 1)) k = ix2 r k := fun k =>
    funext fun a => Fin.ext (by match a with | ⟨0, _⟩ => rfl | ⟨1, _⟩ => rfl)
  have hr : ∀ k : Fin 2, ridx_main_v24 (ix2 r (0 : Fin 1)) k = ix2 k (0 : Fin 1) := fun k =>
    funext fun a => Fin.ext (by match a with | ⟨0, _⟩ => rfl | ⟨1, _⟩ => rfl)
  have hbi : idx_main_v25 (idx_main_v26 (ix2 r (0 : Fin 1))) = ix1 (0 : Fin 1) :=
    funext fun a => Fin.ext (by match a with | ⟨0, _⟩ => rfl)
  simp only [hl, hr]
  rw [hbi]
  show max ((∑ k : Fin 2, val_main_v23 (F := Ideal) x0 x1 x2 x14 x15 (ix2 r k) * x20 (ix2 k 0)) + nb (ix2 0 0)) 0
      * val_main_v10 (F := Ideal) x0 x1 (ix2 r 0) = _
  rw [hnb]
  show _ = max (_ + _) (Ideal.ofBits .f32 0x00000000#32) * _
  rw [Ideal.ofBits_zero_f32]

theorem node1 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x14 : (⟨S3x2, .f32⟩ : BufTy).Contents (Elt Ideal)) (x15 : (⟨S2, .f32⟩ : BufTy).Contents (Elt Ideal)) (x20 : (⟨S2x1, .f32⟩ : BufTy).Contents (Elt Ideal)) (x21 : (⟨S1, .f32⟩ : BufTy).Contents (Elt Ideal))
    (b : Cert.Spec.Arr 1 3) (hb : ∀ j : Fin 3, b (ix2 0 j) = x6 (ix1 j)) :
    Cert.Spec.node (val_main_v39 (F := Ideal) x0 x1 x2 x14 x15 x20 x21) x0 x5 b x7 = val_main_v46 (F := Ideal) x0 x1 x2 x5 x6 x7 x14 x15 x20 x21 := by
  funext i
  obtain ⟨r, c, rfl⟩ : ∃ (r : Fin 475136) (c : Fin 3), i = ix2 r c := ⟨i 0, i 1, eq_ix2 i⟩
  rw [val_main_v46_apply, val_main_v45_apply, val_main_v43_apply, val_main_v40_apply, val_main_v42_apply,
    val_main_v41_apply, val_main_v44_apply, val_main_call2_v0_apply, val_main_call2_cst_apply]
  have hl40 : ∀ k : Fin 1, lidx_main_v40 (ix2 r c) k = ix2 r k := fun k =>
    funext fun a => Fin.ext (by match a with | ⟨0, _⟩ => rfl | ⟨1, _⟩ => rfl)
  have hr40 : ∀ k : Fin 1, ridx_main_v40 (ix2 r c) k = ix2 k c := fun k =>
    funext fun a => Fin.ext (by match a with | ⟨0, _⟩ => rfl | ⟨1, _⟩ => rfl)
  have hl44 : ∀ k : Fin 1, lidx_main_v44 (ix2 r c) k = ix2 r k := fun k =>
    funext fun a => Fin.ext (by match a with | ⟨0, _⟩ => rfl | ⟨1, _⟩ => rfl)
  have hr44 : ∀ k : Fin 1, ridx_main_v44 (ix2 r c) k = ix2 k c := fun k =>
    funext fun a => Fin.ext (by match a with | ⟨0, _⟩ => rfl | ⟨1, _⟩ => rfl)
  have hbi : idx_main_v41 (idx_main_v42 (ix2 r c)) = ix1 c :=
    funext fun a => Fin.ext (by match a with | ⟨0, _⟩ => rfl)
  simp only [hl40, hr40, hl44, hr44]
  rw [hbi]
  show max (((∑ k : Fin 1, val_main_v39 (F := Ideal) x0 x1 x2 x14 x15 x20 x21 (ix2 r k) * x5 (ix2 k c)) + b (ix2 0 c))
      + (∑ k : Fin 1, x0 (ix2 r k) * x7 (ix2 k c))) 0 = _
  rw [hb]
  show _ = max ((_ + _) + _) (Ideal.ofBits .f32 0x00000000#32)
  rw [Ideal.ofBits_zero_f32]

end Cert.ReferenceIdeal.Layers

end
-- ==== Proof.RefLayer2.lean ====
import proofs.«423123_j317827579936_1_alg».proof.Proof.RefRead
import proofs.«423123_j317827579936_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.ReferenceIdeal.Layers

open Cert.ReferenceIdeal Cert.ReferenceIdeal.ReadP
open Idealize.ShloMosaic Idealize.ShloMosaic.TcCoe
open Idealize.ShloMosaic.ValueIdx

theorem l2_sum_split_3_3_2 {M : Type} [AddCommMonoid M] (f : Fin 8 → M) :
    ∑ k : Fin 8, f k
      = ((∑ k : Fin 3, f ⟨k.val, by have := k.isLt; omega⟩) + (∑ k : Fin 3, f ⟨3 + k.val, by have := k.isLt; omega⟩))
        + (∑ k : Fin 2, f ⟨6 + k.val, by have := k.isLt; omega⟩) := by
  rw [Fin.sum_univ_eight, Fin.sum_univ_three, Fin.sum_univ_three, Fin.sum_univ_two]
  simp only [add_assoc]
  rfl

theorem l2_act_true (x : EReal) : Cert.Spec.act true x = max x 0 := if_pos rfl

theorem feat2 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x14 : (⟨S3x2, .f32⟩ : BufTy).Contents (Elt Ideal)) (x15 : (⟨S2, .f32⟩ : BufTy).Contents (Elt Ideal)) (x16 : (⟨S8x3, .f32⟩ : BufTy).Contents (Elt Ideal)) (x17 : (⟨S3, .f32⟩ : BufTy).Contents (Elt Ideal)) (x20 : (⟨S2x1, .f32⟩ : BufTy).Contents (Elt Ideal)) (x21 : (⟨S1, .f32⟩ : BufTy).Contents (Elt Ideal))
    (w1 w2 : Cert.Spec.Arr 3 3) (w3 : Cert.Spec.Arr 2 3) (b : Cert.Spec.Arr 1 3)
    (h1 : ∀ (k : Fin 3) (j : Fin 3), w1 (ix2 k j) = x16 (ix2 (⟨k.val, by have := k.isLt; omega⟩ : Fin 8) j))
    (h2 : ∀ (k : Fin 3) (j : Fin 3), w2 (ix2 k j) = x16 (ix2 (⟨3 + k.val, by have := k.isLt; omega⟩ : Fin 8) j))
    (h3 : ∀ (k : Fin 2) (j : Fin 3), w3 (ix2 k j) = x16 (ix2 (⟨6 + k.val, by have := k.isLt; omega⟩ : Fin 8) j))
    (hb : ∀ j : Fin 3, b (ix2 0 j) = x17 (ix1 j)) :
    Cert.Spec.edgeFeat true (val_main_v53 (F := Ideal) x0 x1 x2 x5 x6 x7 x14 x15 x20 x21) (val_main_v60 (F := Ideal) x0 x1 x2 x5 x6 x7 x14 x15 x20 x21) (val_main_v23 (F := Ideal) x0 x1 x2 x14 x15) w1 w2 w3 b = val_main_v66 (F := Ideal) x0 x1 x2 x5 x6 x7 x14 x15 x16 x17 x20 x21 := by
  funext i
  obtain ⟨r, j, rfl⟩ : ∃ (r : Fin 13303808) (j : Fin 3), i = ix2 r j := ⟨i 0, i 1, eq_ix2 i⟩

  have c0 : ∀ k : Fin 3, val_main_v61 (F := Ideal) x0 x1 x2 x5 x6 x7 x14 x15 x20 x21 (ix2 r (⟨k.val, by have := k.isLt; omega⟩ : Fin 8))
      = val_main_v53 (F := Ideal) x0 x1 x2 x5 x6 x7 x14 x15 x20 x21 (ix2 r k) := fun k =>
    Cert.Spec.cat3_apply_0 _ _ _ Gen.concatenates_S13303808x3_S13303808x3_S13303808x2_S13303808x8_d1 r k _ rfl
  have c1 : ∀ k : Fin 3, val_main_v61 (F := Ideal) x0 x1 x2 x5 x6 x7 x14 x15 x20 x21 (ix2 r (⟨3 + k.val, by have := k.isLt; omega⟩ : Fin 8))
      = val_main_v60 (F := Ideal) x0 x1 x2 x5 x6 x7 x14 x15 x20 x21 (ix2 r k) := fun k =>
    Cert.Spec.cat3_apply_1 _ _ _ Gen.concatenates_S13303808x3_S13303808x3_S13303808x2_S13303808x8_d1 r k _ rfl
  have c2 : ∀ k : Fin 2, val_main_v61 (F := Ideal) x0 x1 x2 x5 x6 x7 x14 x15 x20 x21 (ix2 r (⟨6 + k.val, by have := k.isLt; omega⟩ : Fin 8))
      = val_main_v23 (F := Ideal) x0 x1 x2 x14 x15 (ix2 r k) := fun k =>
    Cert.Spec.cat3_apply_2 _ _ _ Gen.concatenates_S13303808x3_S13303808x3_S13303808x2_S13303808x8_d1 r k _ rfl

  have hl : ∀ k : Fin 8, lidx_main_v62 (ix2 r j) k = ix2 r k := fun k => funext fun a => Fin.ext (by
    match a with
    | ⟨0, _⟩ => rfl
    | ⟨1, _⟩ => rfl)
  have hr : ∀ k : Fin 8, ridx_main_v62 (ix2 r j) k = ix2 k j := fun k => funext fun a => Fin.ext (by
    match a with
    | ⟨0, _⟩ => rfl
    | ⟨1, _⟩ => rfl)
  have hbias : idx_main_v63 (idx_main_v64 (ix2 r j)) = ix1 j := funext fun a => Fin.ext (by
    match a with
    | ⟨0, _⟩ => rfl)
  rw [val_main_v66_apply, val_main_v65_apply, val_main_v62_apply, val_main_v64_apply, val_main_v63_apply,
    val_main_call3_v0_apply, val_main_call3_cst_apply, Ideal.maximumf_def, Ideal.addf_def, Ideal.ofBits_def,
    Ideal.ofBits_zero_f32, hbias]
  simp only [hl, hr]
  rw [l2_sum_split_3_3_2]
  simp only [c0, c1, c2, ← h1, ← h2, ← h3, ← hb]
  unfold Cert.Spec.edgeFeat
  rw [l2_act_true]

theorem msg2 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x14 : (⟨S3x2, .f32⟩ : BufTy).Contents (Elt Ideal)) (x15 : (⟨S2, .f32⟩ : BufTy).Contents (Elt Ideal)) (x16 : (⟨S8x3, .f32⟩ : BufTy).Contents (Elt Ideal)) (x17 : (⟨S3, .f32⟩ : BufTy).Contents (Elt Ideal)) (x20 : (⟨S2x1, .f32⟩ : BufTy).Contents (Elt Ideal)) (x21 : (⟨S1, .f32⟩ : BufTy).Contents (Elt Ideal)) (x22 : (⟨S3x1, .f32⟩ : BufTy).Contents (Elt Ideal)) (x23 : (⟨S1, .f32⟩ : BufTy).Contents (Elt Ideal))
    (nb : Cert.Spec.Arr 1 1) (hnb : nb (ix2 0 0) = x23 (ix1 0)) :
    Cert.Spec.edgeMsg (val_main_v66 (F := Ideal) x0 x1 x2 x5 x6 x7 x14 x15 x16 x17 x20 x21) (val_main_v53 (F := Ideal) x0 x1 x2 x5 x6 x7 x14 x15 x20 x21) x22 nb = val_main_v80 (F := Ideal) x0 x1 x2 x5 x6 x7 x14 x15 x16 x17 x20 x21 x22 x23 := by
  funext i
  obtain ⟨r, j, rfl⟩ : ∃ (r : Fin 13303808) (j : Fin 3), i = ix2 r j := ⟨i 0, i 1, eq_ix2 i⟩

  have hrow : idx_main_v79 (ix2 r j) = ix2 r (0 : Fin 1) := funext fun a => Fin.ext (by
    match a with
    | ⟨0, _⟩ => rfl
    | ⟨1, _⟩ => rfl)
  have hl : ∀ k : Fin 3, lidx_main_v67 (ix2 r (0 : Fin 1)) k = ix2 r k := fun k => funext fun a => Fin.ext (by
    match a with
    | ⟨0, _⟩ => rfl
    | ⟨1, _⟩ => rfl)
  have hr : ∀ k : Fin 3, ridx_main_v67 (ix2 r (0 : Fin 1)) k = ix2 k (0 : Fin 1) := fun k => funext fun a => Fin.ext (by
    match a with
    | ⟨0, _⟩ => rfl
    | ⟨1, _⟩ => rfl)
  have hbias : idx_main_v68 (idx_main_v69 (ix2 r (0 : Fin 1))) = ix1 (0 : Fin 1) := funext fun a => Fin.ext (by
    match a with
    | ⟨0, _⟩ => rfl)

  have hsrc : val_main_v78 (F := Ideal) x0 x1 x2 x5 x6 x7 x14 x15 x20 x21 = val_main_v53 (F := Ideal) x0 x1 x2 x5 x6 x7 x14 x15 x20 x21 := rfl
  rw [val_main_v80_apply, val_main_v79_apply, hrow, val_main_v71_apply, val_main_v70_apply, val_main_v67_apply,
    val_main_v69_apply, val_main_v68_apply, val_main_call4_v0_apply, val_main_call4_cst_apply, Ideal.mulf_def,
    Ideal.maximumf_def, Ideal.addf_def, Ideal.ofBits_def, Ideal.ofBits_zero_f32, hbias, hsrc, ← hnb]
  simp only [hl, hr]
  rfl

theorem node2 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x8 : (⟨S3x3, .f32⟩ : BufTy).Contents (Elt Ideal)) (x9 : (⟨S3, .f32⟩ : BufTy).Contents (Elt Ideal)) (x10 : (⟨S3x3, .f32⟩ : BufTy).Contents (Elt Ideal)) (x14 : (⟨S3x2, .f32⟩ : BufTy).Contents (Elt Ideal)) (x15 : (⟨S2, .f32⟩ : BufTy).Contents (Elt Ideal)) (x16 : (⟨S8x3, .f32⟩ : BufTy).Contents (Elt Ideal)) (x17 : (⟨S3, .f32⟩ : BufTy).Contents (Elt Ideal)) (x20 : (⟨S2x1, .f32⟩ : BufTy).Contents (Elt Ideal)) (x21 : (⟨S1, .f32⟩ : BufTy).Contents (Elt Ideal)) (x22 : (⟨S3x1, .f32⟩ : BufTy).Contents (Elt Ideal)) (x23 : (⟨S1, .f32⟩ : BufTy).Contents (Elt Ideal))
    (b : Cert.Spec.Arr 1 3) (hb : ∀ j : Fin 3, b (ix2 0 j) = x9 (ix1 j)) :
    Cert.Spec.node (val_main_v83 (F := Ideal) x0 x1 x2 x5 x6 x7 x14 x15 x16 x17 x20 x21 x22 x23) (val_main_v46 (F := Ideal) x0 x1 x2 x5 x6 x7 x14 x15 x20 x21) x8 b x10 = val_main_v90 (F := Ideal) x0 x1 x2 x5 x6 x7 x8 x9 x10 x14 x15 x16 x17 x20 x21 x22 x23 := by
  funext i
  obtain ⟨r, j, rfl⟩ : ∃ (r : Fin 475136) (j : Fin 3), i = ix2 r j := ⟨i 0, i 1, eq_ix2 i⟩
  have hl : ∀ k : Fin 3, lidx_main_v84 (ix2 r j) k = ix2 r k := fun k => funext fun a => Fin.ext (by
    match a with
    | ⟨0, _⟩ => rfl
    | ⟨1, _⟩ => rfl)
  have hr : ∀ k : Fin 3, ridx_main_v84 (ix2 r j) k = ix2 k j := fun k => funext fun a => Fin.ext (by
    match a with
    | ⟨0, _⟩ => rfl
    | ⟨1, _⟩ => rfl)
  have hl' : ∀ k : Fin 3, lidx_main_v88 (ix2 r j) k = ix2 r k := fun k => funext fun a => Fin.ext (by
    match a with
    | ⟨0, _⟩ => rfl
    | ⟨1, _⟩ => rfl)
  have hr' : ∀ k : Fin 3, ridx_main_v88 (ix2 r j) k = ix2 k j := fun k => funext fun a => Fin.ext (by
    match a with
    | ⟨0, _⟩ => rfl
    | ⟨1, _⟩ => rfl)
  have hbias : idx_main_v85 (idx_main_v86 (ix2 r j)) = ix1 j := funext fun a => Fin.ext (by
    match a with
    | ⟨0, _⟩ => rfl)
  rw [val_main_v90_apply, val_main_v89_apply, val_main_v87_apply, val_main_v84_apply, val_main_v86_apply,
    val_main_v85_apply, val_main_v88_apply, val_main_call5_v0_apply, val_main_call5_cst_apply, Ideal.maximumf_def,
    Ideal.addf_def, Ideal.addf_def, Ideal.ofBits_def, Ideal.ofBits_zero_f32, hbias, ← hb]
  simp only [hl, hr, hl', hr']
  rfl

end Cert.ReferenceIdeal.Layers

end
-- ==== Proof.RefLayer3.lean ====
import proofs.«423123_j317827579936_1_alg».proof.Proof.RefRead
import proofs.«423123_j317827579936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.ReadP
open Idealize.ShloMosaic Idealize.ShloMosaic.TcCoe
open Idealize.ShloMosaic.ValueIdx

theorem l3_sum_nine_split (f : Fin 9 → EReal) :
    ∑ k : Fin 9, f k = (∑ k : Fin 3, f ⟨k.val, by have := k.isLt; omega⟩)
      + (∑ k : Fin 3, f ⟨3 + k.val, by have := k.isLt; omega⟩) + (∑ k : Fin 3, f ⟨6 + k.val, by have := k.isLt; omega⟩) := by
  simp only [Fin.sum_univ_succ, Fin.sum_univ_zero, add_zero, add_assoc]
  rfl

theorem feat3 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x8 : (⟨S3x3, .f32⟩ : BufTy).Contents (Elt Ideal)) (x9 : (⟨S3, .f32⟩ : BufTy).Contents (Elt Ideal)) (x10 : (⟨S3x3, .f32⟩ : BufTy).Contents (Elt Ideal)) (x14 : (⟨S3x2, .f32⟩ : BufTy).Contents (Elt Ideal)) (x15 : (⟨S2, .f32⟩ : BufTy).Contents (Elt Ideal)) (x16 : (⟨S8x3, .f32⟩ : BufTy).Contents (Elt Ideal)) (x17 : (⟨S3, .f32⟩ : BufTy).Contents (Elt Ideal)) (x18 : (⟨S9x4, .f32⟩ : BufTy).Contents (Elt Ideal)) (x19 : (⟨S4, .f32⟩ : BufTy).Contents (Elt Ideal)) (x20 : (⟨S2x1, .f32⟩ : BufTy).Contents (Elt Ideal)) (x21 : (⟨S1, .f32⟩ : BufTy).Contents (Elt Ideal)) (x22 : (⟨S3x1, .f32⟩ : BufTy).Contents (Elt Ideal)) (x23 : (⟨S1, .f32⟩ : BufTy).Contents (Elt Ideal))
    (w1 w2 : Cert.Spec.Arr 3 4) (w3 : Cert.Spec.Arr 3 4) (b : Cert.Spec.Arr 1 4)
    (h1 : ∀ (k : Fin 3) (j : Fin 4), w1 (ix2 k j) = x18 (ix2 (⟨k.val, by have := k.isLt; omega⟩ : Fin 9) j))
    (h2 : ∀ (k : Fin 3) (j : Fin 4), w2 (ix2 k j) = x18 (ix2 (⟨3 + k.val, by have := k.isLt; omega⟩ : Fin 9) j))
    (h3 : ∀ (k : Fin 3) (j : Fin 4), w3 (ix2 k j) = x18 (ix2 (⟨6 + k.val, by have := k.isLt; omega⟩ : Fin 9) j))
    (hb : ∀ j : Fin 4, b (ix2 0 j) = x19 (ix1 j)) :
    Cert.Spec.edgeFeat false (val_main_v97 (F := Ideal) x0 x1 x2 x5 x6 x7 x8 x9 x10 x14 x15 x16 x17 x20 x21 x22 x23) (val_main_v104 (F := Ideal) x0 x1 x2 x5 x6 x7 x8 x9 x10 x14 x15 x16 x17 x20 x21 x22 x23) (val_main_v66 (F := Ideal) x0 x1 x2 x5 x6 x7 x14 x15 x16 x17 x20 x21) w1 w2 w3 b = val_main_v109 (F := Ideal) x0 x1 x2 x5 x6 x7 x8 x9 x10 x14 x15 x16 x17 x18 x19 x20 x21 x22 x23 := by
  funext i
  obtain ⟨a, c, rfl⟩ : ∃ (a : Fin 13303808) (c : Fin 4), i = ix2 a c := ⟨i 0, i 1, eq_ix2 i⟩
  have hl : ∀ k : Fin 9, lidx_main_v106 (ix2 a c) k = ix2 a k := fun k => funext fun d => Fin.ext (by match d with | ⟨0, _⟩ => rfl | ⟨1, _⟩ => rfl)
  have hr : ∀ k : Fin 9, ridx_main_v106 (ix2 a c) k = ix2 k c := fun k => funext fun d => Fin.ext (by match d with | ⟨0, _⟩ => rfl | ⟨1, _⟩ => rfl)
  have hbi : idx_main_v107 (idx_main_v108 (ix2 a c)) = ix1 c :=
    funext fun d => Fin.ext (by match d with | ⟨0, _⟩ => rfl)
  have hc1 : ∀ k : Fin 3, val_main_v105 (F := Ideal) x0 x1 x2 x5 x6 x7 x8 x9 x10 x14 x15 x16 x17 x20 x21 x22 x23 (ix2 a (⟨k.val, by have := k.isLt; omega⟩ : Fin 9))
      = val_main_v97 (F := Ideal) x0 x1 x2 x5 x6 x7 x8 x9 x10 x14 x15 x16 x17 x20 x21 x22 x23 (ix2 a k) := fun k => Cert.Spec.cat3_apply_0 _ _ _ Gen.concatenates_S13303808x3_S13303808x3_S13303808x3_S13303808x9_d1 a k _ rfl
  have hc2 : ∀ k : Fin 3, val_main_v105 (F := Ideal) x0 x1 x2 x5 x6 x7 x8 x9 x10 x14 x15 x16 x17 x20 x21 x22 x23 (ix2 a (⟨3 + k.val, by have := k.isLt; omega⟩ : Fin 9))
      = val_main_v104 (F := Ideal) x0 x1 x2 x5 x6 x7 x8 x9 x10 x14 x15 x16 x17 x20 x21 x22 x23 (ix2 a k) := fun k => Cert.Spec.cat3_apply_1 _ _ _ Gen.concatenates_S13303808x3_S13303808x3_S13303808x3_S13303808x9_d1 a k _ rfl
  have hc3 : ∀ k : Fin 3, val_main_v105 (F := Ideal) x0 x1 x2 x5 x6 x7 x8 x9 x10 x14 x15 x16 x17 x20 x21 x22 x23 (ix2 a (⟨6 + k.val, by have := k.isLt; omega⟩ : Fin 9))
      = val_main_v66 (F := Ideal) x0 x1 x2 x5 x6 x7 x14 x15 x16 x17 x20 x21 (ix2 a k) := fun k => Cert.Spec.cat3_apply_2 _ _ _ Gen.concatenates_S13303808x3_S13303808x3_S13303808x3_S13303808x9_d1 a k _ rfl
  rw [val_main_v109_apply, val_main_v106_apply, val_main_v108_apply, val_main_v107_apply, hbi, ← hb c, l3_sum_nine_split]
  simp only [hl, hr, hc1, hc2, hc3, ← h1, ← h2, ← h3, Ideal.addf_def]
  rfl

theorem msg3 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x8 : (⟨S3x3, .f32⟩ : BufTy).Contents (Elt Ideal)) (x9 : (⟨S3, .f32⟩ : BufTy).Contents (Elt Ideal)) (x10 : (⟨S3x3, .f32⟩ : BufTy).Contents (Elt Ideal)) (x14 : (⟨S3x2, .f32⟩ : BufTy).Contents (Elt Ideal)) (x15 : (⟨S2, .f32⟩ : BufTy).Contents (Elt Ideal)) (x16 : (⟨S8x3, .f32⟩ : BufTy).Contents (Elt Ideal)) (x17 : (⟨S3, .f32⟩ : BufTy).Contents (Elt Ideal)) (x18 : (⟨S9x4, .f32⟩ : BufTy).Contents (Elt Ideal)) (x19 : (⟨S4, .f32⟩ : BufTy).Contents (Elt Ideal)) (x20 : (⟨S2x1, .f32⟩ : BufTy).Contents (Elt Ideal)) (x21 : (⟨S1, .f32⟩ : BufTy).Contents (Elt Ideal)) (x22 : (⟨S3x1, .f32⟩ : BufTy).Contents (Elt Ideal)) (x23 : (⟨S1, .f32⟩ : BufTy).Contents (Elt Ideal)) (x24 : (⟨S4x1, .f32⟩ : BufTy).Contents (Elt Ideal)) (x25 : (⟨S1, .f32⟩ : BufTy).Contents (Elt Ideal))
    (nb : Cert.Spec.Arr 1 1) (hnb : nb (ix2 0 0) = x25 (ix1 0)) :
    Cert.Spec.edgeMsg (val_main_v109 (F := Ideal) x0 x1 x2 x5 x6 x7 x8 x9 x10 x14 x15 x16 x17 x18 x19 x20 x21 x22 x23) (val_main_v97 (F := Ideal) x0 x1 x2 x5 x6 x7 x8 x9 x10 x14 x15 x16 x17 x20 x21 x22 x23) x24 nb = val_main_v123 (F := Ideal) x0 x1 x2 x5 x6 x7 x8 x9 x10 x14 x15 x16 x17 x18 x19 x20 x21 x22 x23 x24 x25 := by
  funext i
  obtain ⟨a, c, rfl⟩ : ∃ (a : Fin 13303808) (c : Fin 3), i = ix2 a c := ⟨i 0, i 1, eq_ix2 i⟩
  have hg : val_main_v121 (F := Ideal) x0 x1 x2 x5 x6 x7 x8 x9 x10 x14 x15 x16 x17 x20 x21 x22 x23 = val_main_v97 (F := Ideal) x0 x1 x2 x5 x6 x7 x8 x9 x10 x14 x15 x16 x17 x20 x21 x22 x23 := rfl
  have hl : ∀ k : Fin 4, lidx_main_v110 (idx_main_v122 (ix2 a c)) k = ix2 a k := fun k => funext fun d => Fin.ext (by match d with | ⟨0, _⟩ => rfl | ⟨1, _⟩ => rfl)
  have hr : ∀ k : Fin 4, ridx_main_v110 (idx_main_v122 (ix2 a c)) k = ix2 k 0 := fun k => funext fun d => Fin.ext (by match d with | ⟨0, _⟩ => rfl | ⟨1, _⟩ => rfl)
  have hbi : idx_main_v111 (idx_main_v112 (idx_main_v122 (ix2 a c))) = ix1 0 :=
    funext fun d => Fin.ext (by match d with | ⟨0, _⟩ => rfl)
  rw [val_main_v123_apply, val_main_v122_apply, val_main_v114_apply, val_main_v113_apply, val_main_v110_apply,
    val_main_v112_apply, val_main_v111_apply, val_main_call6_v0_apply, val_main_call6_cst_apply, hbi, ← hnb, hg]
  simp only [hl, hr, Ideal.addf_def, Ideal.mulf_def, Ideal.maximumf_def, Ideal.ofBits_def, Ideal.ofBits_zero_f32]
  rfl

theorem node3 (x0 : (⟨S475136x1, .f32⟩ : BufTy).Contents (Elt Ideal)) (x1 : (⟨S2x13303808, .i32⟩ : BufTy).Contents (Elt Ideal)) (x2 : (⟨S13303808x1, .f32⟩ : BufTy).Contents (Elt Ideal)) (x5 : (⟨S1x3, .f32⟩ : BufTy).Contents (Elt Ideal)) (x6 : (⟨S3, .f32⟩ : BufTy).Contents (Elt Ideal)) (x7 : (⟨S1x3, .f32⟩ : BufTy).Contents (Elt Ideal)) (x8 : (⟨S3x3, .f32⟩ : BufTy).Contents (Elt Ideal)) (x9 : (⟨S3, .f32⟩ : BufTy).Contents (Elt Ideal)) (x10 : (⟨S3x3, .f32⟩ : BufTy).Contents (Elt Ideal)) (x11 : (⟨S3x5, .f32⟩ : BufTy).Contents (Elt Ideal)) (x12 : (⟨S5, .f32⟩ : BufTy).Contents (Elt Ideal)) (x13 : (⟨S3x5, .f32⟩ : BufTy).Contents (Elt Ideal)) (x14 : (⟨S3x2, .f32⟩ : BufTy).Contents (Elt Ideal)) (x15 : (⟨S2, .f32⟩ : BufTy).Contents (Elt Ideal)) (x16 : (⟨S8x3, .f32⟩ : BufTy).Contents (Elt Ideal)) (x17 : (⟨S3, .f32⟩ : BufTy).Contents (Elt Ideal)) (x18 : (⟨S9x4, .f32⟩ : BufTy).Contents (Elt Ideal)) (x19 : (⟨S4, .f32⟩ : BufTy).Contents (Elt Ideal)) (x20 : (⟨S2x1, .f32⟩ : BufTy).Contents (Elt Ideal)) (x21 : (⟨S1, .f32⟩ : BufTy).Contents (Elt Ideal)) (x22 : (⟨S3x1, .f32⟩ : BufTy).Contents (Elt Ideal)) (x23 : (⟨S1, .f32⟩ : BufTy).Contents (Elt Ideal)) (x24 : (⟨S4x1, .f32⟩ : BufTy).Contents (Elt Ideal)) (x25 : (⟨S1, .f32⟩ : BufTy).Contents (Elt Ideal))
    (b : Cert.Spec.Arr 1 5) (hb : ∀ j : Fin 5, b (ix2 0 j) = x12 (ix1 j)) :
    Cert.Spec.node (val_main_v126 (F := Ideal) x0 x1 x2 x5 x6 x7 x8 x9 x10 x14 x15 x16 x17 x18 x19 x20 x21 x22 x23 x24 x25) (val_main_v90 (F := Ideal) x0 x1 x2 x5 x6 x7 x8 x9 x10 x14 x15 x16 x17 x20 x21 x22 x23) x11 b x13 = val_main_v133 (F := Ideal) x0 x1 x2 x5 x6 x7 x8 x9 x10 x11 x12 x13 x14 x15 x16 x17 x18 x19 x20 x21 x22 x23 x24 x25 := by
  funext i
  obtain ⟨a, c, rfl⟩ : ∃ (a : Fin 475136) (c : Fin 5), i = ix2 a c := ⟨i 0, i 1, eq_ix2 i⟩
  have hl : ∀ k : Fin 3, lidx_main_v127 (ix2 a c) k = ix2 a k := fun k => funext fun d => Fin.ext (by match d with | ⟨0, _⟩ => rfl | ⟨1, _⟩ => rfl)
  have hr : ∀ k : Fin 3, ridx_main_v127 (ix2 a c) k = ix2 k c := fun k => funext fun d => Fin.ext (by match d with | ⟨0, _⟩ => rfl | ⟨1, _⟩ => rfl)
  have hl' : ∀ k : Fin 3, lidx_main_v131 (ix2 a c) k = ix2 a k := fun k => funext fun d => Fin.ext (by match d with | ⟨0, _⟩ => rfl | ⟨1, _⟩ => rfl)
  have hr' : ∀ k : Fin 3, ridx_main_v131 (ix2 a c) k = ix2 k c := fun k => funext fun d => Fin.ext (by match d with | ⟨0, _⟩ => rfl | ⟨1, _⟩ => rfl)
  have hbi : idx_main_v128 (idx_main_v129 (ix2 a c)) = ix1 c :=
    funext fun d => Fin.ext (by match d with | ⟨0, _⟩ => rfl)
  rw [val_main_v133_apply, val_main_v132_apply, val_main_v130_apply, val_main_v127_apply, val_main_v131_apply,
    val_main_v129_apply, val_main_v128_apply, val_main_call7_v0_apply, val_main_call7_cst_apply, hbi, ← hb c]
  simp only [hl, hr, hl', hr', Ideal.addf_def, Ideal.maximumf_def, Ideal.ofBits_def, Ideal.ofBits_zero_f32]
  rfl

end Cert.ReferenceIdeal.Layers

end
-- ==== Proof.KI.Tail.lean ====
import proofs.«423123_j317827579936_1_alg».proof.Proof.Gen.KernelIdeal.Launch
import proofs.«423123_j317827579936_1_alg».proof.Proof.RefRead
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo

variable {F : FTy → Type} [FloatOps F]

structure tail_Args (F : FTy → Type) where
  x0 : (⟨Cert.ReferenceIdeal.S475136x1, .f32⟩ : BufTy).Contents (Elt F)
  x1 : (⟨Cert.ReferenceIdeal.S2x13303808, .i32⟩ : BufTy).Contents (Elt F)
  x2 : (⟨Cert.ReferenceIdeal.S13303808x1, .f32⟩ : BufTy).Contents (Elt F)
  x3 : (⟨Cert.ReferenceIdeal.S4096x1, .f32⟩ : BufTy).Contents (Elt F)
  x4 : (⟨Cert.ReferenceIdeal.S475136, .i32⟩ : BufTy).Contents (Elt F)
  x5 : (⟨Cert.ReferenceIdeal.S1x3, .f32⟩ : BufTy).Contents (Elt F)
  x6 : (⟨Cert.ReferenceIdeal.S3, .f32⟩ : BufTy).Contents (Elt F)
  x7 : (⟨Cert.ReferenceIdeal.S1x3, .f32⟩ : BufTy).Contents (Elt F)
  x8 : (⟨Cert.ReferenceIdeal.S3x3, .f32⟩ : BufTy).Contents (Elt F)
  x9 : (⟨Cert.ReferenceIdeal.S3, .f32⟩ : BufTy).Contents (Elt F)
  x10 : (⟨Cert.ReferenceIdeal.S3x3, .f32⟩ : BufTy).Contents (Elt F)
  x11 : (⟨Cert.ReferenceIdeal.S3x5, .f32⟩ : BufTy).Contents (Elt F)
  x12 : (⟨Cert.ReferenceIdeal.S5, .f32⟩ : BufTy).Contents (Elt F)
  x13 : (⟨Cert.ReferenceIdeal.S3x5, .f32⟩ : BufTy).Contents (Elt F)
  x14 : (⟨Cert.ReferenceIdeal.S3x2, .f32⟩ : BufTy).Contents (Elt F)
  x15 : (⟨Cert.ReferenceIdeal.S2, .f32⟩ : BufTy).Contents (Elt F)
  x16 : (⟨Cert.ReferenceIdeal.S8x3, .f32⟩ : BufTy).Contents (Elt F)
  x17 : (⟨Cert.ReferenceIdeal.S3, .f32⟩ : BufTy).Contents (Elt F)
  x18 : (⟨Cert.ReferenceIdeal.S9x4, .f32⟩ : BufTy).Contents (Elt F)
  x19 : (⟨Cert.ReferenceIdeal.S4, .f32⟩ : BufTy).Contents (Elt F)
  x20 : (⟨Cert.ReferenceIdeal.S2x1, .f32⟩ : BufTy).Contents (Elt F)
  x21 : (⟨Cert.ReferenceIdeal.S1, .f32⟩ : BufTy).Contents (Elt F)
  x22 : (⟨Cert.ReferenceIdeal.S3x1, .f32⟩ : BufTy).Contents (Elt F)
  x23 : (⟨Cert.ReferenceIdeal.S1, .f32⟩ : BufTy).Contents (Elt F)
  x24 : (⟨Cert.ReferenceIdeal.S4x1, .f32⟩ : BufTy).Contents (Elt F)
  x25 : (⟨Cert.ReferenceIdeal.S1, .f32⟩ : BufTy).Contents (Elt F)
  x26 : (⟨Cert.ReferenceIdeal.S23x2, .f32⟩ : BufTy).Contents (Elt F)
  x27 : (⟨Cert.ReferenceIdeal.S2, .f32⟩ : BufTy).Contents (Elt F)

section TailLemmas
variable {Val : EltTy → Type}

theorem tail_nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl
theorem tail_nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  tail_nary3_result f hxs hy V

theorem tail_after_app : ∀ (l₁ l₂ : List (HloOp τ sig Val)) (V : Valuation τ sig Val), after (l₁ ++ l₂) V = after l₂ (after l₁ V)
  | [], _, _ => rfl
  | op :: l₁, l₂, V => by rw [List.cons_append, after_cons, after_cons, tail_after_app l₁ l₂]

end TailLemmas

local macro "tail_stage_results" : tactic =>
  `(tactic| (simp (disch := decide) only [after_cons, after_nil,
      nullary_result', unary_result', binary_result', ternary_result', reshape_result', tail_nary3_result', nary4_result',
      nullary_result_ne', unary_result_ne', binary_result_ne', ternary_result_ne', reshape_result_ne', nary_result_ne']))

local macro "tail_writes_one" : tactic =>
  `(tactic| (simp only [StableHlo.nullary_writes, StableHlo.unary_writes, StableHlo.binary_writes, StableHlo.ternary_writes, StableHlo.reshape_writes, StableHlo.nary_writes, Finset.singleton_subset_iff, List.mem_toFinset]; exact List.mem_map_of_mem (by decide)))

def tail_Inv0 (a : tail_Args F) (W : Valuation τ sig (Elt F)) : Prop :=
  (W (Proc.devRef .tc main_arg0) = a.x0)
  ∧ (W (Proc.devRef .tc main_arg2) = a.x2)
  ∧ (W (Proc.devRef .tc main_arg3) = a.x3)
  ∧ (W (Proc.devRef .tc main_arg4) = a.x4)
  ∧ (W (Proc.devRef .tc main_arg26) = a.x26)
  ∧ (W (Proc.devRef .tc main_arg27) = a.x27)
  ∧ (W (Proc.devRef .tc main_v1) = (Cert.ReferenceIdeal.ReadP.val_main_v1 (F := F) a.x1))
  ∧ (W (Proc.devRef .tc main_v28) = (Cert.ReferenceIdeal.ReadP.val_main_v46 (F := F) a.x0 a.x1 a.x2 a.x5 a.x6 a.x7 a.x14 a.x15 a.x20 a.x21))
  ∧ (W (Proc.devRef .tc main_v53) = (Cert.ReferenceIdeal.ReadP.val_main_v90 (F := F) a.x0 a.x1 a.x2 a.x5 a.x6 a.x7 a.x8 a.x9 a.x10 a.x14 a.x15 a.x16 a.x17 a.x20 a.x21 a.x22 a.x23))
  ∧ (W (Proc.devRef .tc main_v78) = (Cert.ReferenceIdeal.ReadP.val_main_v133 (F := F) a.x0 a.x1 a.x2 a.x5 a.x6 a.x7 a.x8 a.x9 a.x10 a.x11 a.x12 a.x13 a.x14 a.x15 a.x16 a.x17 a.x18 a.x19 a.x20 a.x21 a.x22 a.x23 a.x24 a.x25))
  ∧ (W (Proc.devRef .tc main_v23_0) = (Cert.ReferenceIdeal.ReadP.val_main_v23 (F := F) a.x0 a.x1 a.x2 a.x14 a.x15))
  ∧ (W (Proc.devRef .tc main_v48_0) = (Cert.ReferenceIdeal.ReadP.val_main_v66 (F := F) a.x0 a.x1 a.x2 a.x5 a.x6 a.x7 a.x14 a.x15 a.x16 a.x17 a.x20 a.x21))
  ∧ (W (Proc.devRef .tc main_v73_0) = (Cert.ReferenceIdeal.ReadP.val_main_v109 (F := F) a.x0 a.x1 a.x2 a.x5 a.x6 a.x7 a.x8 a.x9 a.x10 a.x14 a.x15 a.x16 a.x17 a.x18 a.x19 a.x20 a.x21 a.x22 a.x23))

abbrev tail_s1 : List (HloOp τ sig (Elt F)) :=
  [ StableHlo.nary ![main_arg0, main_v28, main_v53, main_v78] main_v79 (fun u => concatenate S475136x12 1 [⟨S475136x1, u 0⟩, ⟨S475136x3, u 1⟩, ⟨S475136x3, u 2⟩, ⟨S475136x5, u 3⟩] concatenates_S475136x1_S475136x3_S475136x3_S475136x5_S475136x12_d1) ]

abbrev tail_sW1 : List (Ref sig .tc) := [main_v79]
theorem tail_s1_writes : (tail_s1 : List (HloOp τ sig (Elt F))).Forall fun op => op.writes ⊆ (tail_sW1.map (Proc.devRef (τ := τ) .tc)).toFinset := by
  simp only [List.Forall]; tail_writes_one

def tail_Inv1 (a : tail_Args F) (W : Valuation τ sig (Elt F)) : Prop :=
  (W (Proc.devRef .tc main_arg2) = a.x2)
  ∧ (W (Proc.devRef .tc main_arg3) = a.x3)
  ∧ (W (Proc.devRef .tc main_arg4) = a.x4)
  ∧ (W (Proc.devRef .tc main_arg26) = a.x26)
  ∧ (W (Proc.devRef .tc main_arg27) = a.x27)
  ∧ (W (Proc.devRef .tc main_v1) = (Cert.ReferenceIdeal.ReadP.val_main_v1 (F := F) a.x1))
  ∧ (W (Proc.devRef .tc main_v23_0) = (Cert.ReferenceIdeal.ReadP.val_main_v23 (F := F) a.x0 a.x1 a.x2 a.x14 a.x15))
  ∧ (W (Proc.devRef .tc main_v48_0) = (Cert.ReferenceIdeal.ReadP.val_main_v66 (F := F) a.x0 a.x1 a.x2 a.x5 a.x6 a.x7 a.x14 a.x15 a.x16 a.x17 a.x20 a.x21))
  ∧ (W (Proc.devRef .tc main_v73_0) = (Cert.ReferenceIdeal.ReadP.val_main_v109 (F := F) a.x0 a.x1 a.x2 a.x5 a.x6 a.x7 a.x8 a.x9 a.x10 a.x14 a.x15 a.x16 a.x17 a.x18 a.x19 a.x20 a.x21 a.x22 a.x23))
  ∧ (W (Proc.devRef .tc main_v79) = (Cert.ReferenceIdeal.ReadP.val_main_v134 (F := F) a.x0 a.x1 a.x2 a.x5 a.x6 a.x7 a.x8 a.x9 a.x10 a.x11 a.x12 a.x13 a.x14 a.x15 a.x16 a.x17 a.x18 a.x19 a.x20 a.x21 a.x22 a.x23 a.x24 a.x25))
theorem tail_step1 (a : tail_Args F) (W : Valuation τ sig (Elt F)) (h : tail_Inv0 a W) : tail_Inv1 a (after tail_s1 W) := by
  obtain ⟨h_arg0, h_arg2, h_arg3, h_arg4, h_arg26, h_arg27, h_v1, h_v28, h_v53, h_v78, h_v23_0, h_v48_0, h_v73_0⟩ := h
  refine ⟨?_, ?_, ?_, ?_, ?_, ?_, ?_, ?_, ?_, ?_⟩
  · exact (after_of_writes_sub tail_s1 W tail_s1_writes (by decide)).trans h_arg2
  · exact (after_of_writes_sub tail_s1 W tail_s1_writes (by decide)).trans h_arg3
  · exact (after_of_writes_sub tail_s1 W tail_s1_writes (by decide)).trans h_arg4
  · exact (after_of_writes_sub tail_s1 W tail_s1_writes (by decide)).trans h_arg26
  · exact (after_of_writes_sub tail_s1 W tail_s1_writes (by decide)).trans h_arg27
  · exact (after_of_writes_sub tail_s1 W tail_s1_writes (by decide)).trans h_v1
  · exact (after_of_writes_sub tail_s1 W tail_s1_writes (by decide)).trans h_v23_0
  · exact (after_of_writes_sub tail_s1 W tail_s1_writes (by decide)).trans h_v48_0
  · exact (after_of_writes_sub tail_s1 W tail_s1_writes (by decide)).trans h_v73_0
  · tail_stage_results
    rw [h_arg0, h_v28, h_v53, h_v78]
    rfl

abbrev tail_s2 : List (HloOp τ sig (Elt F)) :=
  [ StableHlo.nary ![main_arg2, main_v23_0, main_v48_0, main_v73_0] main_v80 (fun u => concatenate S13303808x10 1 [⟨S13303808x1, u 0⟩, ⟨S13303808x2, u 1⟩, ⟨S13303808x3, u 2⟩, ⟨S13303808x4, u 3⟩] concatenates_S13303808x1_S13303808x2_S13303808x3_S13303808x4_S13303808x10_d1),
    StableHlo.nullary main_c_13 (constantI S_ 32 0#32),
    StableHlo.unary main_c_13 main_v81 (broadcastInDim S13303808 ![] bcast_S_S13303808 : (⟨S_, .i32⟩ : BufTy).Contents (Elt F) → (⟨S13303808, .i32⟩ : BufTy).Contents (Elt F)),
    StableHlo.binary main_v1 main_v81 main_v82 (cmpi .slt : (⟨S13303808, .i32⟩ : BufTy).Contents (Elt F) → (⟨S13303808, .i32⟩ : BufTy).Contents (Elt F) → (⟨S13303808, .i1⟩ : BufTy).Contents (Elt F)),
    StableHlo.nullary main_c_14 (constantI S_ 32 475136#32),
    StableHlo.unary main_c_14 main_v83 (broadcastInDim S13303808 ![] bcast_S_S13303808 : (⟨S_, .i32⟩ : BufTy).Contents (Elt F) → (⟨S13303808, .i32⟩ : BufTy).Contents (Elt F)),
    StableHlo.binary main_v1 main_v83 main_v84 (addi : (⟨S13303808, .i32⟩ : BufTy).Contents (Elt F) → (⟨S13303808, .i32⟩ : BufTy).Contents (Elt F) → (⟨S13303808, .i32⟩ : BufTy).Contents (Elt F)),
    StableHlo.ternary main_v82 main_v84 main_v1 main_v85 (select : (⟨S13303808, .i1⟩ : BufTy).Contents (Elt F) → (⟨S13303808, .i32⟩ : BufTy).Contents (Elt F) → (⟨S13303808, .i32⟩ : BufTy).Contents (Elt F) → (⟨S13303808, .i32⟩ : BufTy).Contents (Elt F)),
    StableHlo.unary main_v85 main_v86 (broadcastInDim S13303808x1 ![0] bcast_S13303808_S13303808x1_0 : (⟨S13303808, .i32⟩ : BufTy).Contents (Elt F) → (⟨S13303808x1, .i32⟩ : BufTy).Contents (Elt F)),
    StableHlo.binary main_arg4 main_v86 main_v87 ((fun x i => Host.gather gather_S475136_S13303808x1_S13303808_n_0_n_n_0_1_1 x i) : (⟨S475136, .i32⟩ : BufTy).Contents (Elt F) → (⟨S13303808x1, .i32⟩ : BufTy).Contents (Elt F) → (⟨S13303808, .i32⟩ : BufTy).Contents (Elt F)),
    StableHlo.nullary main_cst_15 (constant S_ .f32 0x00000000#32),
    StableHlo.unary main_cst_15 main_v88 (broadcastInDim S4096x12 ![] bcast_S_S4096x12 : (⟨S_, .f32⟩ : BufTy).Contents (Elt F) → (⟨S4096x12, .f32⟩ : BufTy).Contents (Elt F)),
    StableHlo.unary main_arg4 main_v89 (broadcastInDim S475136x1 ![0] bcast_S475136_S475136x1_0 : (⟨S475136, .i32⟩ : BufTy).Contents (Elt F) → (⟨S475136x1, .i32⟩ : BufTy).Contents (Elt F)),
    StableHlo.ternary main_v88 main_v89 main_v79 main_v90 ((fun x i u => Host.scatterAdd scatter_S4096x12_S475136x1_S475136x12_1_0_0_1 x i u) : (⟨S4096x12, .f32⟩ : BufTy).Contents (Elt F) → (⟨S475136x1, .i32⟩ : BufTy).Contents (Elt F) → (⟨S475136x12, .f32⟩ : BufTy).Contents (Elt F) → (⟨S4096x12, .f32⟩ : BufTy).Contents (Elt F)),
    StableHlo.nullary main_cst_16 (constant S_ .f32 0x3F800000#32),
    StableHlo.unary main_cst_16 main_v91 (broadcastInDim S475136x1 ![] bcast_S_S475136x1 : (⟨S_, .f32⟩ : BufTy).Contents (Elt F) → (⟨S475136x1, .f32⟩ : BufTy).Contents (Elt F)) ]

abbrev tail_sW2 : List (Ref sig .tc) := [main_v80, main_c_13, main_v81, main_v82, main_c_14, main_v83, main_v84, main_v85, main_v86, main_v87, main_cst_15, main_v88, main_v89, main_v90, main_cst_16, main_v91]
theorem tail_s2_writes : (tail_s2 : List (HloOp τ sig (Elt F))).Forall fun op => op.writes ⊆ (tail_sW2.map (Proc.devRef (τ := τ) .tc)).toFinset := by
  simp only [List.Forall]; exact ⟨by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one⟩

def tail_Inv2 (a : tail_Args F) (W : Valuation τ sig (Elt F)) : Prop :=
  (W (Proc.devRef .tc main_arg3) = a.x3)
  ∧ (W (Proc.devRef .tc main_arg4) = a.x4)
  ∧ (W (Proc.devRef .tc main_arg26) = a.x26)
  ∧ (W (Proc.devRef .tc main_arg27) = a.x27)
  ∧ (W (Proc.devRef .tc main_v80) = (Cert.ReferenceIdeal.ReadP.val_main_v135 (F := F) a.x0 a.x1 a.x2 a.x5 a.x6 a.x7 a.x8 a.x9 a.x10 a.x14 a.x15 a.x16 a.x17 a.x18 a.x19 a.x20 a.x21 a.x22 a.x23))
  ∧ (W (Proc.devRef .tc main_v87) = (Cert.ReferenceIdeal.ReadP.val_main_v142 (F := F) a.x1 a.x4))
  ∧ (W (Proc.devRef .tc main_v90) = (Cert.ReferenceIdeal.ReadP.val_main_v145 (F := F) a.x0 a.x1 a.x2 a.x4 a.x5 a.x6 a.x7 a.x8 a.x9 a.x10 a.x11 a.x12 a.x13 a.x14 a.x15 a.x16 a.x17 a.x18 a.x19 a.x20 a.x21 a.x22 a.x23 a.x24 a.x25))
  ∧ (W (Proc.devRef .tc main_v91) = (Cert.ReferenceIdeal.ReadP.val_main_v146 (F := F)))
theorem tail_step2 (a : tail_Args F) (W : Valuation τ sig (Elt F)) (h : tail_Inv1 a W) : tail_Inv2 a (after tail_s2 W) := by
  obtain ⟨h_arg2, h_arg3, h_arg4, h_arg26, h_arg27, h_v1, h_v23_0, h_v48_0, h_v73_0, h_v79⟩ := h
  refine ⟨?_, ?_, ?_, ?_, ?_, ?_, ?_, ?_⟩
  · exact (after_of_writes_sub tail_s2 W tail_s2_writes (by decide)).trans h_arg3
  · exact (after_of_writes_sub tail_s2 W tail_s2_writes (by decide)).trans h_arg4
  · exact (after_of_writes_sub tail_s2 W tail_s2_writes (by decide)).trans h_arg26
  · exact (after_of_writes_sub tail_s2 W tail_s2_writes (by decide)).trans h_arg27
  · tail_stage_results
    rw [h_arg2, h_v23_0, h_v48_0, h_v73_0]
    rfl
  · tail_stage_results
    rw [h_arg4, h_v1]
    rfl
  · tail_stage_results
    rw [h_arg4, h_v79]
    rfl
  · tail_stage_results
    rfl

abbrev tail_s3 : List (HloOp τ sig (Elt F)) :=
  [ StableHlo.nullary main_cst_17 (constant S_ .f32 0x00000000#32),
    StableHlo.unary main_cst_17 main_v92 (broadcastInDim S4096x1 ![] bcast_S_S4096x1 : (⟨S_, .f32⟩ : BufTy).Contents (Elt F) → (⟨S4096x1, .f32⟩ : BufTy).Contents (Elt F)),
    StableHlo.unary main_arg4 main_v93 (broadcastInDim S475136x1 ![0] bcast_S475136_S475136x1_0 : (⟨S475136, .i32⟩ : BufTy).Contents (Elt F) → (⟨S475136x1, .i32⟩ : BufTy).Contents (Elt F)),
    StableHlo.ternary main_v92 main_v93 main_v91 main_v94 ((fun x i u => Host.scatterAdd scatter_S4096x1_S475136x1_S475136x1_1_0_0_1 x i u) : (⟨S4096x1, .f32⟩ : BufTy).Contents (Elt F) → (⟨S475136x1, .i32⟩ : BufTy).Contents (Elt F) → (⟨S475136x1, .f32⟩ : BufTy).Contents (Elt F) → (⟨S4096x1, .f32⟩ : BufTy).Contents (Elt F)),
    StableHlo.nullary main_cst_18 (constant S_ .f32 0x3F800000#32),
    StableHlo.unary main_cst_18 main_v95 (broadcastInDim S4096x1 ![] bcast_S_S4096x1 : (⟨S_, .f32⟩ : BufTy).Contents (Elt F) → (⟨S4096x1, .f32⟩ : BufTy).Contents (Elt F)),
    StableHlo.binary main_v94 main_v95 main_v96 (maximumf : (⟨S4096x1, .f32⟩ : BufTy).Contents (Elt F) → (⟨S4096x1, .f32⟩ : BufTy).Contents (Elt F) → (⟨S4096x1, .f32⟩ : BufTy).Contents (Elt F)),
    StableHlo.unary main_v96 main_v97 (broadcastInDim S4096x12 ![0, 1] bcast_S4096x1_S4096x12_0_1 : (⟨S4096x1, .f32⟩ : BufTy).Contents (Elt F) → (⟨S4096x12, .f32⟩ : BufTy).Contents (Elt F)),
    StableHlo.binary main_v90 main_v97 main_v98 (Host.divf : (⟨S4096x12, .f32⟩ : BufTy).Contents (Elt F) → (⟨S4096x12, .f32⟩ : BufTy).Contents (Elt F) → (⟨S4096x12, .f32⟩ : BufTy).Contents (Elt F)),
    StableHlo.nullary main_cst_19 (constant S_ .f32 0x00000000#32),
    StableHlo.unary main_cst_19 main_v99 (broadcastInDim S4096x10 ![] bcast_S_S4096x10 : (⟨S_, .f32⟩ : BufTy).Contents (Elt F) → (⟨S4096x10, .f32⟩ : BufTy).Contents (Elt F)),
    StableHlo.unary main_v87 main_v100 (broadcastInDim S13303808x1 ![0] bcast_S13303808_S13303808x1_0 : (⟨S13303808, .i32⟩ : BufTy).Contents (Elt F) → (⟨S13303808x1, .i32⟩ : BufTy).Contents (Elt F)),
    StableHlo.ternary main_v99 main_v100 main_v80 main_v101 ((fun x i u => Host.scatterAdd scatter_S4096x10_S13303808x1_S13303808x10_1_0_0_1 x i u) : (⟨S4096x10, .f32⟩ : BufTy).Contents (Elt F) → (⟨S13303808x1, .i32⟩ : BufTy).Contents (Elt F) → (⟨S13303808x10, .f32⟩ : BufTy).Contents (Elt F) → (⟨S4096x10, .f32⟩ : BufTy).Contents (Elt F)),
    StableHlo.nullary main_cst_20 (constant S_ .f32 0x3F800000#32),
    StableHlo.unary main_cst_20 main_v102 (broadcastInDim S13303808x1 ![] bcast_S_S13303808x1 : (⟨S_, .f32⟩ : BufTy).Contents (Elt F) → (⟨S13303808x1, .f32⟩ : BufTy).Contents (Elt F)),
    StableHlo.nullary main_cst_21 (constant S_ .f32 0x00000000#32) ]

abbrev tail_sW3 : List (Ref sig .tc) := [main_cst_17, main_v92, main_v93, main_v94, main_cst_18, main_v95, main_v96, main_v97, main_v98, main_cst_19, main_v99, main_v100, main_v101, main_cst_20, main_v102, main_cst_21]
theorem tail_s3_writes : (tail_s3 : List (HloOp τ sig (Elt F))).Forall fun op => op.writes ⊆ (tail_sW3.map (Proc.devRef (τ := τ) .tc)).toFinset := by
  simp only [List.Forall]; exact ⟨by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one⟩

def tail_Inv3 (a : tail_Args F) (W : Valuation τ sig (Elt F)) : Prop :=
  (W (Proc.devRef .tc main_arg3) = a.x3)
  ∧ (W (Proc.devRef .tc main_arg26) = a.x26)
  ∧ (W (Proc.devRef .tc main_arg27) = a.x27)
  ∧ (W (Proc.devRef .tc main_v87) = (Cert.ReferenceIdeal.ReadP.val_main_v142 (F := F) a.x1 a.x4))
  ∧ (W (Proc.devRef .tc main_v98) = (Cert.ReferenceIdeal.ReadP.val_main_v153 (F := F) a.x0 a.x1 a.x2 a.x4 a.x5 a.x6 a.x7 a.x8 a.x9 a.x10 a.x11 a.x12 a.x13 a.x14 a.x15 a.x16 a.x17 a.x18 a.x19 a.x20 a.x21 a.x22 a.x23 a.x24 a.x25))
  ∧ (W (Proc.devRef .tc main_v101) = (Cert.ReferenceIdeal.ReadP.val_main_v156 (F := F) a.x0 a.x1 a.x2 a.x4 a.x5 a.x6 a.x7 a.x8 a.x9 a.x10 a.x14 a.x15 a.x16 a.x17 a.x18 a.x19 a.x20 a.x21 a.x22 a.x23))
  ∧ (W (Proc.devRef .tc main_v102) = (Cert.ReferenceIdeal.ReadP.val_main_v157 (F := F)))
  ∧ (W (Proc.devRef .tc main_cst_21) = (Cert.ReferenceIdeal.ReadP.val_main_cst_27 (F := F)))
theorem tail_step3 (a : tail_Args F) (W : Valuation τ sig (Elt F)) (h : tail_Inv2 a W) : tail_Inv3 a (after tail_s3 W) := by
  obtain ⟨h_arg3, h_arg4, h_arg26, h_arg27, h_v80, h_v87, h_v90, h_v91⟩ := h
  refine ⟨?_, ?_, ?_, ?_, ?_, ?_, ?_, ?_⟩
  · exact (after_of_writes_sub tail_s3 W tail_s3_writes (by decide)).trans h_arg3
  · exact (after_of_writes_sub tail_s3 W tail_s3_writes (by decide)).trans h_arg26
  · exact (after_of_writes_sub tail_s3 W tail_s3_writes (by decide)).trans h_arg27
  · exact (after_of_writes_sub tail_s3 W tail_s3_writes (by decide)).trans h_v87
  · tail_stage_results
    rw [h_v90, h_arg4, h_v91]
    rfl
  · tail_stage_results
    rw [h_v87, h_v80]
    rfl
  · tail_stage_results
    rfl
  · tail_stage_results
    rfl

abbrev tail_s4 : List (HloOp τ sig (Elt F)) :=
  [ StableHlo.unary main_cst_21 main_v103 (broadcastInDim S4096x1 ![] bcast_S_S4096x1 : (⟨S_, .f32⟩ : BufTy).Contents (Elt F) → (⟨S4096x1, .f32⟩ : BufTy).Contents (Elt F)),
    StableHlo.unary main_v87 main_v104 (broadcastInDim S13303808x1 ![0] bcast_S13303808_S13303808x1_0 : (⟨S13303808, .i32⟩ : BufTy).Contents (Elt F) → (⟨S13303808x1, .i32⟩ : BufTy).Contents (Elt F)),
    StableHlo.ternary main_v103 main_v104 main_v102 main_v105 ((fun x i u => Host.scatterAdd scatter_S4096x1_S13303808x1_S13303808x1_1_0_0_1 x i u) : (⟨S4096x1, .f32⟩ : BufTy).Contents (Elt F) → (⟨S13303808x1, .i32⟩ : BufTy).Contents (Elt F) → (⟨S13303808x1, .f32⟩ : BufTy).Contents (Elt F) → (⟨S4096x1, .f32⟩ : BufTy).Contents (Elt F)),
    StableHlo.nullary main_cst_22 (constant S_ .f32 0x3F800000#32),
    StableHlo.unary main_cst_22 main_v106 (broadcastInDim S4096x1 ![] bcast_S_S4096x1 : (⟨S_, .f32⟩ : BufTy).Contents (Elt F) → (⟨S4096x1, .f32⟩ : BufTy).Contents (Elt F)),
    StableHlo.binary main_v105 main_v106 main_v107 (maximumf : (⟨S4096x1, .f32⟩ : BufTy).Contents (Elt F) → (⟨S4096x1, .f32⟩ : BufTy).Contents (Elt F) → (⟨S4096x1, .f32⟩ : BufTy).Contents (Elt F)),
    StableHlo.unary main_v107 main_v108 (broadcastInDim S4096x10 ![0, 1] bcast_S4096x1_S4096x10_0_1 : (⟨S4096x1, .f32⟩ : BufTy).Contents (Elt F) → (⟨S4096x10, .f32⟩ : BufTy).Contents (Elt F)),
    StableHlo.binary main_v101 main_v108 main_v109 (Host.divf : (⟨S4096x10, .f32⟩ : BufTy).Contents (Elt F) → (⟨S4096x10, .f32⟩ : BufTy).Contents (Elt F) → (⟨S4096x10, .f32⟩ : BufTy).Contents (Elt F)) ]

abbrev tail_sW4 : List (Ref sig .tc) := [main_v103, main_v104, main_v105, main_cst_22, main_v106, main_v107, main_v108, main_v109]
theorem tail_s4_writes : (tail_s4 : List (HloOp τ sig (Elt F))).Forall fun op => op.writes ⊆ (tail_sW4.map (Proc.devRef (τ := τ) .tc)).toFinset := by
  simp only [List.Forall]; exact ⟨by tail_writes_one, by tail_writes_one, by tail_writes_one, by tail_writes_one, by tail_writes_one, by tail_writes_one, by tail_writes_one, by tail_writes_one⟩

def tail_Inv4 (a : tail_Args F) (W : Valuation τ sig (Elt F)) : Prop :=
  (W (Proc.devRef .tc main_arg3) = a.x3)
  ∧ (W (Proc.devRef .tc main_arg26) = a.x26)
  ∧ (W (Proc.devRef .tc main_arg27) = a.x27)
  ∧ (W (Proc.devRef .tc main_v98) = (Cert.ReferenceIdeal.ReadP.val_main_v153 (F := F) a.x0 a.x1 a.x2 a.x4 a.x5 a.x6 a.x7 a.x8 a.x9 a.x10 a.x11 a.x12 a.x13 a.x14 a.x15 a.x16 a.x17 a.x18 a.x19 a.x20 a.x21 a.x22 a.x23 a.x24 a.x25))
  ∧ (W (Proc.devRef .tc main_v109) = (Cert.ReferenceIdeal.ReadP.val_main_v164 (F := F) a.x0 a.x1 a.x2 a.x4 a.x5 a.x6 a.x7 a.x8 a.x9 a.x10 a.x14 a.x15 a.x16 a.x17 a.x18 a.x19 a.x20 a.x21 a.x22 a.x23))
theorem tail_step4 (a : tail_Args F) (W : Valuation τ sig (Elt F)) (h : tail_Inv3 a W) : tail_Inv4 a (after tail_s4 W) := by
  obtain ⟨h_arg3, h_arg26, h_arg27, h_v87, h_v98, h_v101, h_v102, h_cst_21⟩ := h
  refine ⟨?_, ?_, ?_, ?_, ?_⟩
  · exact (after_of_writes_sub tail_s4 W tail_s4_writes (by decide)).trans h_arg3
  · exact (after_of_writes_sub tail_s4 W tail_s4_writes (by decide)).trans h_arg26
  · exact (after_of_writes_sub tail_s4 W tail_s4_writes (by decide)).trans h_arg27
  · exact (after_of_writes_sub tail_s4 W tail_s4_writes (by decide)).trans h_v98
  · tail_stage_results
    rw [h_v101, h_cst_21, h_v87, h_v102]
    rfl

abbrev tail_s5 : List (HloOp τ sig (Elt F)) :=
  [ StableHlo.nary ![main_v98, main_v109, main_arg3] main_v110 (fun u => concatenate S4096x23 1 [⟨S4096x12, u 0⟩, ⟨S4096x10, u 1⟩, ⟨S4096x1, u 2⟩] concatenates_S4096x12_S4096x10_S4096x1_S4096x23_d1),
    StableHlo.binary main_v110 main_arg26 main_v111 ((fun l r => Host.dotGeneral dot_S4096x23_S23x2_S4096x2_1_0_0_1_n_n none l r) : (⟨S4096x23, .f32⟩ : BufTy).Contents (Elt F) → (⟨S23x2, .f32⟩ : BufTy).Contents (Elt F) → (⟨S4096x2, .f32⟩ : BufTy).Contents (Elt F)),
    StableHlo.unary main_arg27 main_v112 (broadcastInDim S1x2 ![1] bcast_S2_S1x2_1 : (⟨S2, .f32⟩ : BufTy).Contents (Elt F) → (⟨S1x2, .f32⟩ : BufTy).Contents (Elt F)),
    StableHlo.unary main_v112 main_v113 (broadcastInDim S4096x2 ![0, 1] bcast_S1x2_S4096x2_0_1 : (⟨S1x2, .f32⟩ : BufTy).Contents (Elt F) → (⟨S4096x2, .f32⟩ : BufTy).Contents (Elt F)),
    StableHlo.binary main_v111 main_v113 main_v114 (addf : (⟨S4096x2, .f32⟩ : BufTy).Contents (Elt F) → (⟨S4096x2, .f32⟩ : BufTy).Contents (Elt F) → (⟨S4096x2, .f32⟩ : BufTy).Contents (Elt F)) ]

abbrev tail_sW5 : List (Ref sig .tc) := [main_v110, main_v111, main_v112, main_v113, main_v114]
theorem tail_s5_writes : (tail_s5 : List (HloOp τ sig (Elt F))).Forall fun op => op.writes ⊆ (tail_sW5.map (Proc.devRef (τ := τ) .tc)).toFinset := by
  simp only [List.Forall]; exact ⟨by tail_writes_one, by tail_writes_one, by tail_writes_one, by tail_writes_one, by tail_writes_one⟩

def tail_Inv5 (a : tail_Args F) (W : Valuation τ sig (Elt F)) : Prop :=
  (W (Proc.devRef .tc main_v114) = (Cert.ReferenceIdeal.ReadP.val_main_v169 (F := F) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27))
theorem tail_step5 (a : tail_Args F) (W : Valuation τ sig (Elt F)) (h : tail_Inv4 a W) : tail_Inv5 a (after tail_s5 W) := by
  obtain ⟨h_arg3, h_arg26, h_arg27, h_v98, h_v109⟩ := h
  unfold tail_Inv5
  · tail_stage_results
    rw [h_v98, h_v109, h_arg3, h_arg26, h_arg27]
    rfl

abbrev tail_s6 : List (HloOp τ sig (Elt F)) :=
  [ StableHlo.TRef.nullary (.of main_call0_cst : StableHlo.TRef sig ⟨S_, .f32⟩) (constant S_ .f32 0xFF800000#32),
    StableHlo.TRef.binary (.of main_v114 : StableHlo.TRef sig ⟨S4096x2, .f32⟩) (.of main_call0_cst : StableHlo.TRef sig ⟨S_, .f32⟩) (.of main_call0_v0 : StableHlo.TRef sig ⟨S4096, .f32⟩) (fun x v => Host.reduce FloatOps.maximumf x v reducesTo_S4096x2_S4096_d1 h_S_),
    StableHlo.TRef.nullary (.of main_call0_cst_0 : StableHlo.TRef sig ⟨S_, .f32⟩) (constant S_ .f32 0xFF800000#32),
    StableHlo.TRef.unary (.of main_call0_cst_0 : StableHlo.TRef sig ⟨S_, .f32⟩) (.of main_call0_v1 : StableHlo.TRef sig ⟨S4096, .f32⟩) (broadcastInDim S4096 ![] bcast_S_S4096),
    StableHlo.TRef.binary (.of main_call0_v1 : StableHlo.TRef sig ⟨S4096, .f32⟩) (.of main_call0_v0 : StableHlo.TRef sig ⟨S4096, .f32⟩) (.of main_call0_v2 : StableHlo.TRef sig ⟨S4096, .f32⟩) maximumf,
    StableHlo.TRef.unary (.of main_call0_v2 : StableHlo.TRef sig ⟨S4096, .f32⟩) (.of main_call0_v3 : StableHlo.TRef sig ⟨S4096x1, .f32⟩) (broadcastInDim S4096x1 ![0] bcast_S4096_S4096x1_0),
    StableHlo.TRef.unary (.of main_call0_v3 : StableHlo.TRef sig ⟨S4096x1, .f32⟩) (.of main_call0_v4 : StableHlo.TRef sig ⟨S4096x2, .f32⟩) (broadcastInDim S4096x2 ![0, 1] bcast_S4096x1_S4096x2_0_1),
    StableHlo.TRef.binary (.of main_v114 : StableHlo.TRef sig ⟨S4096x2, .f32⟩) (.of main_call0_v4 : StableHlo.TRef sig ⟨S4096x2, .f32⟩) (.of main_call0_v5 : StableHlo.TRef sig ⟨S4096x2, .f32⟩) subf,
    StableHlo.TRef.unary (.of main_call0_v5 : StableHlo.TRef sig ⟨S4096x2, .f32⟩) (.of main_call0_v6 : StableHlo.TRef sig ⟨S4096x2, .f32⟩) Host.exp,
    StableHlo.TRef.nullary (.of main_call0_cst_1 : StableHlo.TRef sig ⟨S_, .f32⟩) (constant S_ .f32 0x00000000#32),
    StableHlo.TRef.binary (.of main_call0_v6 : StableHlo.TRef sig ⟨S4096x2, .f32⟩) (.of main_call0_cst_1 : StableHlo.TRef sig ⟨S_, .f32⟩) (.of main_call0_v7 : StableHlo.TRef sig ⟨S4096, .f32⟩) (fun x v => Host.reduceAdd x v reducesTo_S4096x2_S4096_d1 h_S_),
    StableHlo.TRef.unary (.of main_call0_v7 : StableHlo.TRef sig ⟨S4096, .f32⟩) (.of main_call0_v8 : StableHlo.TRef sig ⟨S4096x1, .f32⟩) (broadcastInDim S4096x1 ![0] bcast_S4096_S4096x1_0),
    StableHlo.TRef.unary (.of main_call0_v8 : StableHlo.TRef sig ⟨S4096x1, .f32⟩) (.of main_call0_v9 : StableHlo.TRef sig ⟨S4096x1, .f32⟩) Host.log,
    StableHlo.TRef.unary (.of main_call0_v9 : StableHlo.TRef sig ⟨S4096x1, .f32⟩) (.of main_call0_v10 : StableHlo.TRef sig ⟨S4096x2, .f32⟩) (broadcastInDim S4096x2 ![0, 1] bcast_S4096x1_S4096x2_0_1),
    StableHlo.TRef.binary (.of main_call0_v5 : StableHlo.TRef sig ⟨S4096x2, .f32⟩) (.of main_call0_v10 : StableHlo.TRef sig ⟨S4096x2, .f32⟩) (.of main_v115 : StableHlo.TRef sig ⟨S4096x2, .f32⟩) subf ]

abbrev tail_sW6 : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v115]
theorem tail_s6_writes : (tail_s6 : List (HloOp τ sig (Elt F))).Forall fun op => op.writes ⊆ (tail_sW6.map (Proc.devRef (τ := τ) .tc)).toFinset := by
  simp only [List.Forall]; exact ⟨by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one, by tail_writes_one⟩

def tail_Inv6 (a : tail_Args F) (W : Valuation τ sig (Elt F)) : Prop :=
  (W (Proc.devRef .tc main_v115) = (Cert.ReferenceIdeal.ReadP.val_main_v170 (F := F) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27))
theorem tail_step6 (a : tail_Args F) (W : Valuation τ sig (Elt F)) (h : tail_Inv5 a W) : tail_Inv6 a (after tail_s6 W) := by
  have h_v114 := h
  unfold tail_Inv5 at h_v114
  unfold tail_Inv6
  · tail_stage_results
    rw [h_v114]
    rfl

theorem tail_ops6_eq : (hostOps6 : List (HloOp τ sig (Elt F))) = tail_s1 ++ (tail_s2 ++ (tail_s3 ++ (tail_s4 ++ (tail_s5)))) := rfl
theorem tail_ops61_eq : (hostOps6_1 : List (HloOp τ sig (Elt F))) = tail_s6 := rfl

theorem tail_eq (W : Valuation τ sig (Elt F)) (x0 : (⟨Cert.ReferenceIdeal.S475136x1, .f32⟩ : BufTy).Contents (Elt F)) (x1 : (⟨Cert.ReferenceIdeal.S2x13303808, .i32⟩ : BufTy).Contents (Elt F)) (x2 : (⟨Cert.ReferenceIdeal.S13303808x1, .f32⟩ : BufTy).Contents (Elt F)) (x3 : (⟨Cert.ReferenceIdeal.S4096x1, .f32⟩ : BufTy).Contents (Elt F)) (x4 : (⟨Cert.ReferenceIdeal.S475136, .i32⟩ : BufTy).Contents (Elt F)) (x5 : (⟨Cert.ReferenceIdeal.S1x3, .f32⟩ : BufTy).Contents (Elt F)) (x6 : (⟨Cert.ReferenceIdeal.S3, .f32⟩ : BufTy).Contents (Elt F)) (x7 : (⟨Cert.ReferenceIdeal.S1x3, .f32⟩ : BufTy).Contents (Elt F)) (x8 : (⟨Cert.ReferenceIdeal.S3x3, .f32⟩ : BufTy).Contents (Elt F)) (x9 : (⟨Cert.ReferenceIdeal.S3, .f32⟩ : BufTy).Contents (Elt F)) (x10 : (⟨Cert.ReferenceIdeal.S3x3, .f32⟩ : BufTy).Contents (Elt F)) (x11 : (⟨Cert.ReferenceIdeal.S3x5, .f32⟩ : BufTy).Contents (Elt F)) (x12 : (⟨Cert.ReferenceIdeal.S5, .f32⟩ : BufTy).Contents (Elt F)) (x13 : (⟨Cert.ReferenceIdeal.S3x5, .f32⟩ : BufTy).Contents (Elt F)) (x14 : (⟨Cert.ReferenceIdeal.S3x2, .f32⟩ : BufTy).Contents (Elt F)) (x15 : (⟨Cert.ReferenceIdeal.S2, .f32⟩ : BufTy).Contents (Elt F)) (x16 : (⟨Cert.ReferenceIdeal.S8x3, .f32⟩ : BufTy).Contents (Elt F)) (x17 : (⟨Cert.ReferenceIdeal.S3, .f32⟩ : BufTy).Contents (Elt F)) (x18 : (⟨Cert.ReferenceIdeal.S9x4, .f32⟩ : BufTy).Contents (Elt F)) (x19 : (⟨Cert.ReferenceIdeal.S4, .f32⟩ : BufTy).Contents (Elt F)) (x20 : (⟨Cert.ReferenceIdeal.S2x1, .f32⟩ : BufTy).Contents (Elt F)) (x21 : (⟨Cert.ReferenceIdeal.S1, .f32⟩ : BufTy).Contents (Elt F)) (x22 : (⟨Cert.ReferenceIdeal.S3x1, .f32⟩ : BufTy).Contents (Elt F)) (x23 : (⟨Cert.ReferenceIdeal.S1, .f32⟩ : BufTy).Contents (Elt F)) (x24 : (⟨Cert.ReferenceIdeal.S4x1, .f32⟩ : BufTy).Contents (Elt F)) (x25 : (⟨Cert.ReferenceIdeal.S1, .f32⟩ : BufTy).Contents (Elt F)) (x26 : (⟨Cert.ReferenceIdeal.S23x2, .f32⟩ : BufTy).Contents (Elt F)) (x27 : (⟨Cert.ReferenceIdeal.S2, .f32⟩ : BufTy).Contents (Elt F))
    (h_arg0 : W (Proc.devRef .tc main_arg0) = x0)
    (h_arg2 : W (Proc.devRef .tc main_arg2) = x2)
    (h_arg3 : W (Proc.devRef .tc main_arg3) = x3)
    (h_arg4 : W (Proc.devRef .tc main_arg4) = x4)
    (h_arg26 : W (Proc.devRef .tc main_arg26) = x26)
    (h_arg27 : W (Proc.devRef .tc main_arg27) = x27)
    (h_v1 : W (Proc.devRef .tc main_v1) = Cert.ReferenceIdeal.ReadP.val_main_v1 (F := F) x1)
    (h_v28 : W (Proc.devRef .tc main_v28) = Cert.ReferenceIdeal.ReadP.val_main_v46 (F := F) x0 x1 x2 x5 x6 x7 x14 x15 x20 x21)
    (h_v53 : W (Proc.devRef .tc main_v53) = Cert.ReferenceIdeal.ReadP.val_main_v90 (F := F) x0 x1 x2 x5 x6 x7 x8 x9 x10 x14 x15 x16 x17 x20 x21 x22 x23)
    (h_v78 : W (Proc.devRef .tc main_v78) = Cert.ReferenceIdeal.ReadP.val_main_v133 (F := F) x0 x1 x2 x5 x6 x7 x8 x9 x10 x11 x12 x13 x14 x15 x16 x17 x18 x19 x20 x21 x22 x23 x24 x25)
    (h_v23_0 : W (Proc.devRef .tc main_v23_0) = Cert.ReferenceIdeal.ReadP.val_main_v23 (F := F) x0 x1 x2 x14 x15)
    (h_v48_0 : W (Proc.devRef .tc main_v48_0) = Cert.ReferenceIdeal.ReadP.val_main_v66 (F := F) x0 x1 x2 x5 x6 x7 x14 x15 x16 x17 x20 x21)
    (h_v73_0 : W (Proc.devRef .tc main_v73_0) = Cert.ReferenceIdeal.ReadP.val_main_v109 (F := F) x0 x1 x2 x5 x6 x7 x8 x9 x10 x14 x15 x16 x17 x18 x19 x20 x21 x22 x23) :
    StableHlo.after hostOps6_1 (StableHlo.after hostOps6 W) (Proc.devRef .tc main_v115)
      = Cert.ReferenceIdeal.ReadP.val_main_v170 (F := F) x0 x1 x2 x3 x4 x5 x6 x7 x8 x9 x10 x11 x12 x13 x14 x15 x16 x17 x18 x19 x20 x21 x22 x23 x24 x25 x26 x27 := by
  have H := (tail_step6 _ _ (tail_step5 _ _ (tail_step4 _ _ (tail_step3 _ _ (tail_step2 _ _ (tail_step1 _ _ (⟨h_arg0, h_arg2, h_arg3, h_arg4, h_arg26, h_arg27, h_v1, h_v28, h_v53, h_v78, h_v23_0, h_v48_0, h_v73_0⟩ : tail_Inv0 ⟨x0, x1, x2, x3, x4, x5, x6, x7, x8, x9, x10, x11, x12, x13, x14, x15, x16, x17, x18, x19, x20, x21, x22, x23, x24, x25, x26, x27⟩ W)))))))
  rw [tail_ops6_eq, tail_ops61_eq]; simp only [tail_after_app]
  exact H

end Cert.KernelIdeal.Run

end
-- ==== Proof.KI.Value.lean ====
import proofs.«423123_j317827579936_1_alg».proof.Proof.KI.Run
import proofs.«423123_j317827579936_1_alg».proof.Proof.KI.Final0
import proofs.«423123_j317827579936_1_alg».proof.Proof.KI.Final1
import proofs.«423123_j317827579936_1_alg».proof.Proof.KI.Final2
import proofs.«423123_j317827579936_1_alg».proof.Proof.KI.Final3
import proofs.«423123_j317827579936_1_alg».proof.Proof.KI.Final4
import proofs.«423123_j317827579936_1_alg».proof.Proof.KI.Final5
import proofs.«423123_j317827579936_1_alg».proof.Proof.RefLayer1
import proofs.«423123_j317827579936_1_alg».proof.Proof.RefLayer2
import proofs.«423123_j317827579936_1_alg».proof.Proof.RefLayer3
import proofs.«423123_j317827579936_1_alg».proof.Proof.KI.Tail
import Idealize.ShloMosaic.Lib.Pipeline.Value
import Idealize.ShloMosaic.Lib.ValueIdx
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.ReadP

variable (m : (ℓ : Loc nD τ sig) → Buf (Elt Ideal) ℓ) (ρ : Dev nD → PrngReg) (c : Dev nD)

set_option quotPrecheck false
local notation "𝔵0" => m ((c : Thread nD τ).loc main_arg0)
local notation "𝔵1" => m ((c : Thread nD τ).loc main_arg1)
local notation "𝔵2" => m ((c : Thread nD τ).loc main_arg2)
local notation "𝔵3" => m ((c : Thread nD τ).loc main_arg3)
local notation "𝔵4" => m ((c : Thread nD τ).loc main_arg4)
local notation "𝔵5" => m ((c : Thread nD τ).loc main_arg5)
local notation "𝔵6" => m ((c : Thread nD τ).loc main_arg6)
local notation "𝔵7" => m ((c : Thread nD τ).loc main_arg7)
local notation "𝔵8" => m ((c : Thread nD τ).loc main_arg8)
local notation "𝔵9" => m ((c : Thread nD τ).loc main_arg9)
local notation "𝔵10" => m ((c : Thread nD τ).loc main_arg10)
local notation "𝔵11" => m ((c : Thread nD τ).loc main_arg11)
local notation "𝔵12" => m ((c : Thread nD τ).loc main_arg12)
local notation "𝔵13" => m ((c : Thread nD τ).loc main_arg13)
local notation "𝔵14" => m ((c : Thread nD τ).loc main_arg14)
local notation "𝔵15" => m ((c : Thread nD τ).loc main_arg15)
local notation "𝔵16" => m ((c : Thread nD τ).loc main_arg16)
local notation "𝔵17" => m ((c : Thread nD τ).loc main_arg17)
local notation "𝔵18" => m ((c : Thread nD τ).loc main_arg18)
local notation "𝔵19" => m ((c : Thread nD τ).loc main_arg19)
local notation "𝔵20" => m ((c : Thread nD τ).loc main_arg20)
local notation "𝔵21" => m ((c : Thread nD τ).loc main_arg21)
local notation "𝔵22" => m ((c : Thread nD τ).loc main_arg22)
local notation "𝔵23" => m ((c : Thread nD τ).loc main_arg23)
local notation "𝔵24" => m ((c : Thread nD τ).loc main_arg24)
local notation "𝔵25" => m ((c : Thread nD τ).loc main_arg25)
local notation "𝔵26" => m ((c : Thread nD τ).loc main_arg26)
local notation "𝔵27" => m ((c : Thread nD τ).loc main_arg27)

theorem rows_apply {R C n : Nat} (r : Nat) (x : (⟨2, ![R, C]⟩ : Shape).Idx → EReal)
    (h : (⟨2, ![R, C]⟩ : Shape).Slices ![r, 0] ⟨2, ![n, C]⟩) (k : Fin n) (j : Fin C) (k' : Fin R) (hk : k'.val = r + k.val) :
    extractStridedSlice (⟨2, ![n, C]⟩ : Shape) ![r, 0] x h (ix2 k j) = x (ix2 k' j) :=
  extractStridedSlice_apply ![r, 0] x h (ix2 k j) (ix2 k' j) (fun a => match a with
    | ⟨0, _⟩ => hk
    | ⟨1, _⟩ => by show j.val = 0 + j.val; omega)

theorem row_of_vec_apply {C : Nat} (x : (⟨1, ![C]⟩ : Shape).Idx → EReal) (h : (⟨1, ![C]⟩ : Shape).ShapeCasts ⟨2, ![1, C]⟩) (j : Fin C) :
    shapeCast (⟨2, ![1, C]⟩ : Shape) x h (ix2 0 j) = x (ix1 j) :=
  shapeCast_apply x h (ix2 0 j) (ix1 j) (by
    rewrite [Shape.rowMajor_val_two, Shape.rowMajor_val_one]; show j.val = 0 * C + j.val; omega)

set_option maxHeartbeats 1000000 in
theorem in0_v1 : Vin0 m ρ c main_v1 = val_main_v1 (F := Ideal) 𝔵1 := by
  show StableHlo.after hostOps0 (W0 m ρ c) (Proc.devRef .tc main_v1) = _
  after_results_simp
  all_goals (try rfl)
set_option maxHeartbeats 1000000 in
theorem in0_v3 : Vin0 m ρ c main_v3 = val_main_v3 (F := Ideal) 𝔵1 := by
  show StableHlo.after hostOps0 (W0 m ρ c) (Proc.devRef .tc main_v3) = _
  after_results_simp
  all_goals (try rfl)
set_option maxHeartbeats 1000000 in
theorem in0_v10 : Vin0 m ρ c main_v10 = val_main_v10 (F := Ideal) 𝔵0 𝔵1 := by
  show StableHlo.after hostOps0 (W0 m ρ c) (Proc.devRef .tc main_v10) = _
  after_results_simp
  all_goals (try rfl)
set_option maxHeartbeats 1000000 in
theorem in0_v17 : Vin0 m ρ c main_v17 = val_main_v17 (F := Ideal) 𝔵0 𝔵1 := by
  show StableHlo.after hostOps0 (W0 m ρ c) (Proc.devRef .tc main_v17) = _
  after_results_simp
  all_goals (try rfl)
set_option maxHeartbeats 1000000 in
theorem in0_v18 : Vin0 m ρ c main_v18 = extractStridedSlice S1x2 ![0, 0] 𝔵14 slices_S3x2_S1x2_0_0 := by
  show StableHlo.after hostOps0 (W0 m ρ c) (Proc.devRef .tc main_v18) = _
  after_results_simp
  all_goals (try rfl)
set_option maxHeartbeats 1000000 in
theorem in0_v19 : Vin0 m ρ c main_v19 = extractStridedSlice S1x2 ![1, 0] 𝔵14 slices_S3x2_S1x2_1_0 := by
  show StableHlo.after hostOps0 (W0 m ρ c) (Proc.devRef .tc main_v19) = _
  after_results_simp
  all_goals (try rfl)
set_option maxHeartbeats 1000000 in
theorem in0_v20 : Vin0 m ρ c main_v20 = extractStridedSlice S1x2 ![2, 0] 𝔵14 slices_S3x2_S1x2_2_0 := by
  show StableHlo.after hostOps0 (W0 m ρ c) (Proc.devRef .tc main_v20) = _
  after_results_simp
  all_goals (try rfl)
set_option maxHeartbeats 1000000 in
theorem in0_v21 : Vin0 m ρ c main_v21 = shapeCast S1x2 𝔵15 shapeCasts_S2_S1x2 := by
  show StableHlo.after hostOps0 (W0 m ρ c) (Proc.devRef .tc main_v21) = _
  after_results_simp
  all_goals (try rfl)
set_option maxHeartbeats 1000000 in
theorem in0_v22 : Vin0 m ρ c main_v22 = shapeCast S1x1 𝔵21 shapeCasts_S1_S1x1 := by
  show StableHlo.after hostOps0 (W0 m ρ c) (Proc.devRef .tc main_v22) = _
  after_results_simp
  all_goals (try rfl)
theorem in0_arg2 : Vin0 m ρ c main_arg2 = 𝔵2 := W1_of m ρ c main_arg2 (by decide)
theorem in0_arg20 : Vin0 m ρ c main_arg20 = 𝔵20 := W1_of m ρ c main_arg20 (by decide)

theorem w2_v23_0 : W2 m ρ c main_v23_0 = val_main_v23 (F := Ideal) 𝔵0 𝔵1 𝔵2 𝔵14 𝔵15 := by
  refine (W2_arr m ρ c 9).trans ((final0_9 (Vin0 m ρ) c).trans ?_)
  rw [in0_v10, in0_v17, in0_arg2]
  exact Cert.ReferenceIdeal.Layers.feat1 𝔵0 𝔵1 𝔵2 𝔵14 𝔵15 _ _ _ _
    (fun k j => by rw [in0_v18]; exact rows_apply 0 𝔵14 _ k j _ (by simp))
    (fun k j => by rw [in0_v19]; exact rows_apply 1 𝔵14 _ k j _ rfl)
    (fun k j => by rw [in0_v20]; exact rows_apply 2 𝔵14 _ k j _ rfl)
    (fun j => by rw [in0_v21]; exact row_of_vec_apply 𝔵15 _ j)

theorem w2_v23_1 : W2 m ρ c main_v23_1 = val_main_v36 (F := Ideal) 𝔵0 𝔵1 𝔵2 𝔵14 𝔵15 𝔵20 𝔵21 := by
  refine (W2_arr m ρ c 10).trans ((final0_10 (Vin0 m ρ) c).trans ?_)
  have hf := (final0_9 (Vin0 m ρ) c).symm.trans ((W2_arr m ρ c 9).symm.trans (w2_v23_0 m ρ c))
  rw [hf, in0_v10, in0_arg20]
  exact Cert.ReferenceIdeal.Layers.msg1 𝔵0 𝔵1 𝔵2 𝔵14 𝔵15 𝔵20 𝔵21 _ (by rw [in0_v22]; exact row_of_vec_apply 𝔵21 _ 0)

theorem w2_v3 : W2 m ρ c main_v3 = val_main_v3 (F := Ideal) 𝔵1 := (W2_of m ρ c main_v3 (by decide)).trans (in0_v3 m ρ c)
theorem w2_v1 : W2 m ρ c main_v1 = val_main_v1 (F := Ideal) 𝔵1 := (W2_of m ρ c main_v1 (by decide)).trans (in0_v1 m ρ c)

set_option maxHeartbeats 1000000 in
theorem in1_v26 : Vin1 m ρ c main_v26 = val_main_v39 (F := Ideal) 𝔵0 𝔵1 𝔵2 𝔵14 𝔵15 𝔵20 𝔵21 := by
  show StableHlo.after hostOps1 (W2 m ρ c) (Proc.devRef .tc main_v26) = _
  after_results_simp
  all_goals (try rw [w2_v3, w2_v23_1])
  all_goals (try rfl)
set_option maxHeartbeats 1000000 in
theorem in1_v27 : Vin1 m ρ c main_v27 = shapeCast S1x3 𝔵6 shapeCasts_S3_S1x3 := by
  show StableHlo.after hostOps1 (W2 m ρ c) (Proc.devRef .tc main_v27) = _
  after_results_simp
  all_goals (try rw [show W2 m ρ c (Proc.devRef .tc main_arg6) = 𝔵6 from (W2_of m ρ c main_arg6 (by decide)).trans (W1_of m ρ c main_arg6 (by decide))])
  all_goals (try rfl)
theorem in1_arg (r : Ref sig .tc) (h1 : r ∉ hostOps1_W) (h2 : r ∉ ([main_v23_0, main_v23_1] : List (Ref sig .tc))) (h0 : r ∉ hostOps0_W) :
    Vin1 m ρ c r = W0 m ρ c r :=
  (W3_of m ρ c r h1).trans ((W2_of m ρ c r h2).trans (W1_of m ρ c r h0))

theorem w4_v28 : W4 m ρ c main_v28 = val_main_v46 (F := Ideal) 𝔵0 𝔵1 𝔵2 𝔵5 𝔵6 𝔵7 𝔵14 𝔵15 𝔵20 𝔵21 := by
  refine (W4_arr m ρ c 5).trans ((final1_5 (Vin1 m ρ) c).trans ?_)
  rw [in1_v26, in1_arg m ρ c main_arg0 (by decide) (by decide) (by decide), in1_arg m ρ c main_arg5 (by decide) (by decide) (by decide),
    in1_arg m ρ c main_arg7 (by decide) (by decide) (by decide)]
  exact Cert.ReferenceIdeal.Layers.node1 𝔵0 𝔵1 𝔵2 𝔵5 𝔵6 𝔵7 𝔵14 𝔵15 𝔵20 𝔵21 _ (fun j => by rw [in1_v27]; exact row_of_vec_apply 𝔵6 _ j)

theorem w4_v1 : W4 m ρ c main_v1 = val_main_v1 (F := Ideal) 𝔵1 := ((W4_of m ρ c main_v1 (by decide)).trans <| (W3_of m ρ c main_v1 (by decide))).trans (w2_v1 m ρ c)
theorem w4_v3 : W4 m ρ c main_v3 = val_main_v3 (F := Ideal) 𝔵1 := ((W4_of m ρ c main_v3 (by decide)).trans <| (W3_of m ρ c main_v3 (by decide))).trans (w2_v3 m ρ c)
theorem w4_arg (r : Ref sig .tc) (h4 : r ∉ ([main_v28] : List (Ref sig .tc))) (h3 : r ∉ hostOps1_W) (h2 : r ∉ ([main_v23_0, main_v23_1] : List (Ref sig .tc))) (h1 : r ∉ hostOps0_W) :
    W4 m ρ c r = W0 m ρ c r :=
  (W4_of m ρ c r h4).trans ((W3_of m ρ c r h3).trans ((W2_of m ρ c r h2).trans (W1_of m ρ c r h1)))

set_option maxHeartbeats 1000000 in
theorem in2_v35 : Vin2 m ρ c main_v35 = val_main_v53 (F := Ideal) 𝔵0 𝔵1 𝔵2 𝔵5 𝔵6 𝔵7 𝔵14 𝔵15 𝔵20 𝔵21 := by
  show StableHlo.after hostOps2 (W4 m ρ c) (Proc.devRef .tc main_v35) = _
  after_results_simp
  all_goals (try rw [w4_v28, w4_v1])
  all_goals (try rfl)
set_option maxHeartbeats 1000000 in
theorem in2_v42 : Vin2 m ρ c main_v42 = val_main_v60 (F := Ideal) 𝔵0 𝔵1 𝔵2 𝔵5 𝔵6 𝔵7 𝔵14 𝔵15 𝔵20 𝔵21 := by
  show StableHlo.after hostOps2 (W4 m ρ c) (Proc.devRef .tc main_v42) = _
  after_results_simp
  all_goals (try rw [w4_v28, w4_v3])
  all_goals (try rfl)
set_option maxHeartbeats 1000000 in
theorem in2_v43 : Vin2 m ρ c main_v43 = extractStridedSlice S3x3 ![0, 0] 𝔵16 slices_S8x3_S3x3_0_0 := by
  show StableHlo.after hostOps2 (W4 m ρ c) (Proc.devRef .tc main_v43) = _
  after_results_simp
  all_goals (try rw [w4_arg m ρ c main_arg16 (by decide) (by decide) (by decide) (by decide)])
  all_goals (try rfl)
set_option maxHeartbeats 1000000 in
theorem in2_v44 : Vin2 m ρ c main_v44 = extractStridedSlice S3x3 ![3, 0] 𝔵16 slices_S8x3_S3x3_3_0 := by
  show StableHlo.after hostOps2 (W4 m ρ c) (Proc.devRef .tc main_v44) = _
  after_results_simp
  all_goals (try rw [w4_arg m ρ c main_arg16 (by decide) (by decide) (by decide) (by decide)])
  all_goals (try rfl)
set_option maxHeartbeats 1000000 in
theorem in2_v45 : Vin2 m ρ c main_v45 = extractStridedSlice S2x3 ![6, 0] 𝔵16 slices_S8x3_S2x3_6_0 := by
  show StableHlo.after hostOps2 (W4 m ρ c) (Proc.devRef .tc main_v45) = _
  after_results_simp
  all_goals (try rw [w4_arg m ρ c main_arg16 (by decide) (by decide) (by decide) (by decide)])
  all_goals (try rfl)
set_option maxHeartbeats 1000000 in
theorem in2_v46 : Vin2 m ρ c main_v46 = shapeCast S1x3 𝔵17 shapeCasts_S3_S1x3 := by
  show StableHlo.after hostOps2 (W4 m ρ c) (Proc.devRef .tc main_v46) = _
  after_results_simp
  all_goals (try rw [w4_arg m ρ c main_arg17 (by decide) (by decide) (by decide) (by decide)])
  all_goals (try rfl)
set_option maxHeartbeats 1000000 in
theorem in2_v47 : Vin2 m ρ c main_v47 = shapeCast S1x1 𝔵23 shapeCasts_S1_S1x1 := by
  show StableHlo.after hostOps2 (W4 m ρ c) (Proc.devRef .tc main_v47) = _
  after_results_simp
  all_goals (try rw [w4_arg m ρ c main_arg23 (by decide) (by decide) (by decide) (by decide)])
  all_goals (try rfl)
theorem in2_v23_0 : Vin2 m ρ c main_v23_0 = val_main_v23 (F := Ideal) 𝔵0 𝔵1 𝔵2 𝔵14 𝔵15 :=
  ((W5_of m ρ c main_v23_0 (by decide)).trans <| (W4_of m ρ c main_v23_0 (by decide)).trans <| (W3_of m ρ c main_v23_0 (by decide))).trans (w2_v23_0 m ρ c)
theorem in2_arg22 : Vin2 m ρ c main_arg22 = 𝔵22 := (W5_of m ρ c main_arg22 (by decide)).trans (w4_arg m ρ c main_arg22 (by decide) (by decide) (by decide) (by decide))

theorem w6_v48_0 : W6 m ρ c main_v48_0 = val_main_v66 (F := Ideal) 𝔵0 𝔵1 𝔵2 𝔵5 𝔵6 𝔵7 𝔵14 𝔵15 𝔵16 𝔵17 𝔵20 𝔵21 := by
  refine (W6_arr m ρ c 9).trans ((final2_9 (Vin2 m ρ) c).trans ?_)
  rw [in2_v35, in2_v42, in2_v23_0]
  exact Cert.ReferenceIdeal.Layers.feat2 𝔵0 𝔵1 𝔵2 𝔵5 𝔵6 𝔵7 𝔵14 𝔵15 𝔵16 𝔵17 𝔵20 𝔵21 _ _ _ _
    (fun k j => by rw [in2_v43]; exact rows_apply 0 𝔵16 _ k j _ (by simp))
    (fun k j => by rw [in2_v44]; exact rows_apply 3 𝔵16 _ k j _ rfl)
    (fun k j => by rw [in2_v45]; exact rows_apply 6 𝔵16 _ k j _ rfl)
    (fun j => by rw [in2_v46]; exact row_of_vec_apply 𝔵17 _ j)
theorem w6_v48_1 : W6 m ρ c main_v48_1 = val_main_v80 (F := Ideal) 𝔵0 𝔵1 𝔵2 𝔵5 𝔵6 𝔵7 𝔵14 𝔵15 𝔵16 𝔵17 𝔵20 𝔵21 𝔵22 𝔵23 := by
  refine (W6_arr m ρ c 10).trans ((final2_10 (Vin2 m ρ) c).trans ?_)
  have hf := (final2_9 (Vin2 m ρ) c).symm.trans ((W6_arr m ρ c 9).symm.trans (w6_v48_0 m ρ c))
  rw [hf, in2_v35, in2_arg22]
  exact Cert.ReferenceIdeal.Layers.msg2 𝔵0 𝔵1 𝔵2 𝔵5 𝔵6 𝔵7 𝔵14 𝔵15 𝔵16 𝔵17 𝔵20 𝔵21 𝔵22 𝔵23 _ (by rw [in2_v47]; exact row_of_vec_apply 𝔵23 _ 0)

theorem w6_v3 : W6 m ρ c main_v3 = val_main_v3 (F := Ideal) 𝔵1 := ((W6_of m ρ c main_v3 (by decide)).trans <| (W5_of m ρ c main_v3 (by decide))).trans (w4_v3 m ρ c)
theorem w6_v1 : W6 m ρ c main_v1 = val_main_v1 (F := Ideal) 𝔵1 := ((W6_of m ρ c main_v1 (by decide)).trans <| (W5_of m ρ c main_v1 (by decide))).trans (w4_v1 m ρ c)
theorem w6_v28 : W6 m ρ c main_v28 = val_main_v46 (F := Ideal) 𝔵0 𝔵1 𝔵2 𝔵5 𝔵6 𝔵7 𝔵14 𝔵15 𝔵20 𝔵21 := ((W6_of m ρ c main_v28 (by decide)).trans <| (W5_of m ρ c main_v28 (by decide))).trans (w4_v28 m ρ c)
theorem w6_arg (r : Ref sig .tc) (h6 : r ∉ ([main_v48_0, main_v48_1] : List (Ref sig .tc))) (h5 : r ∉ hostOps2_W) (h4 : r ∉ ([main_v28] : List (Ref sig .tc))) (h3 : r ∉ hostOps1_W) (h2 : r ∉ ([main_v23_0, main_v23_1] : List (Ref sig .tc))) (h1 : r ∉ hostOps0_W) :
    W6 m ρ c r = W0 m ρ c r :=
  (W6_of m ρ c r h6).trans ((W5_of m ρ c r h5).trans (w4_arg m ρ c r h4 h3 h2 h1))

set_option maxHeartbeats 1000000 in
theorem in3_v51 : Vin3 m ρ c main_v51 = val_main_v83 (F := Ideal) 𝔵0 𝔵1 𝔵2 𝔵5 𝔵6 𝔵7 𝔵14 𝔵15 𝔵16 𝔵17 𝔵20 𝔵21 𝔵22 𝔵23 := by
  show StableHlo.after hostOps3 (W6 m ρ c) (Proc.devRef .tc main_v51) = _
  after_results_simp
  all_goals (try rw [w6_v3, w6_v48_1])
  all_goals (try rfl)
set_option maxHeartbeats 1000000 in
theorem in3_v52 : Vin3 m ρ c main_v52 = shapeCast S1x3 𝔵9 shapeCasts_S3_S1x3 := by
  show StableHlo.after hostOps3 (W6 m ρ c) (Proc.devRef .tc main_v52) = _
  after_results_simp
  all_goals (try rw [w6_arg m ρ c main_arg9 (by decide) (by decide) (by decide) (by decide) (by decide) (by decide)])
  all_goals (try rfl)
theorem in3_v28 : Vin3 m ρ c main_v28 = val_main_v46 (F := Ideal) 𝔵0 𝔵1 𝔵2 𝔵5 𝔵6 𝔵7 𝔵14 𝔵15 𝔵20 𝔵21 := (W7_of m ρ c main_v28 (by decide)).trans (w6_v28 m ρ c)
theorem in3_arg (r : Ref sig .tc) (h7 : r ∉ hostOps3_W) (h6 : r ∉ ([main_v48_0, main_v48_1] : List (Ref sig .tc))) (h5 : r ∉ hostOps2_W) (h4 : r ∉ ([main_v28] : List (Ref sig .tc))) (h3 : r ∉ hostOps1_W) (h2 : r ∉ ([main_v23_0, main_v23_1] : List (Ref sig .tc))) (h1 : r ∉ hostOps0_W) :
    Vin3 m ρ c r = W0 m ρ c r := (W7_of m ρ c r h7).trans (w6_arg m ρ c r h6 h5 h4 h3 h2 h1)

theorem w8_v53 : W8 m ρ c main_v53 = val_main_v90 (F := Ideal) 𝔵0 𝔵1 𝔵2 𝔵5 𝔵6 𝔵7 𝔵8 𝔵9 𝔵10 𝔵14 𝔵15 𝔵16 𝔵17 𝔵20 𝔵21 𝔵22 𝔵23 := by
  refine (W8_arr m ρ c 5).trans ((final3_5 (Vin3 m ρ) c).trans ?_)
  rw [in3_v51, in3_v28, in3_arg m ρ c main_arg8 (by decide) (by decide) (by decide) (by decide) (by decide) (by decide) (by decide),
    in3_arg m ρ c main_arg10 (by decide) (by decide) (by decide) (by decide) (by decide) (by decide) (by decide)]
  exact Cert.ReferenceIdeal.Layers.node2 𝔵0 𝔵1 𝔵2 𝔵5 𝔵6 𝔵7 𝔵8 𝔵9 𝔵10 𝔵14 𝔵15 𝔵16 𝔵17 𝔵20 𝔵21 𝔵22 𝔵23 _ (fun j => by rw [in3_v52]; exact row_of_vec_apply 𝔵9 _ j)

theorem w8_v1 : W8 m ρ c main_v1 = val_main_v1 (F := Ideal) 𝔵1 := ((W8_of m ρ c main_v1 (by decide)).trans <| (W7_of m ρ c main_v1 (by decide))).trans (w6_v1 m ρ c)
theorem w8_v3 : W8 m ρ c main_v3 = val_main_v3 (F := Ideal) 𝔵1 := ((W8_of m ρ c main_v3 (by decide)).trans <| (W7_of m ρ c main_v3 (by decide))).trans (w6_v3 m ρ c)
theorem w8_arg (r : Ref sig .tc) (h8 : r ∉ ([main_v53] : List (Ref sig .tc))) (h7 : r ∉ hostOps3_W) (h6 : r ∉ ([main_v48_0, main_v48_1] : List (Ref sig .tc))) (h5 : r ∉ hostOps2_W) (h4 : r ∉ ([main_v28] : List (Ref sig .tc))) (h3 : r ∉ hostOps1_W) (h2 : r ∉ ([main_v23_0, main_v23_1] : List (Ref sig .tc))) (h1 : r ∉ hostOps0_W) :
    W8 m ρ c r = W0 m ρ c r := (W8_of m ρ c r h8).trans (in3_arg m ρ c r h7 h6 h5 h4 h3 h2 h1)

set_option maxHeartbeats 1000000 in
theorem in4_v60 : Vin4 m ρ c main_v60 = val_main_v97 (F := Ideal) 𝔵0 𝔵1 𝔵2 𝔵5 𝔵6 𝔵7 𝔵8 𝔵9 𝔵10 𝔵14 𝔵15 𝔵16 𝔵17 𝔵20 𝔵21 𝔵22 𝔵23 := by
  show StableHlo.after hostOps4 (W8 m ρ c) (Proc.devRef .tc main_v60) = _
  after_results_simp
  all_goals (try rw [w8_v53, w8_v1])
  all_goals (try rfl)
set_option maxHeartbeats 1000000 in
theorem in4_v67 : Vin4 m ρ c main_v67 = val_main_v104 (F := Ideal) 𝔵0 𝔵1 𝔵2 𝔵5 𝔵6 𝔵7 𝔵8 𝔵9 𝔵10 𝔵14 𝔵15 𝔵16 𝔵17 𝔵20 𝔵21 𝔵22 𝔵23 := by
  show StableHlo.after hostOps4 (W8 m ρ c) (Proc.devRef .tc main_v67) = _
  after_results_simp
  all_goals (try rw [w8_v53, w8_v3])
  all_goals (try rfl)
set_option maxHeartbeats 1000000 in
theorem in4_v68 : Vin4 m ρ c main_v68 = extractStridedSlice S3x4 ![0, 0] 𝔵18 slices_S9x4_S3x4_0_0 := by
  show StableHlo.after hostOps4 (W8 m ρ c) (Proc.devRef .tc main_v68) = _
  after_results_simp
  all_goals (try rw [w8_arg m ρ c main_arg18 (by decide) (by decide) (by decide) (by decide) (by decide) (by decide) (by decide) (by decide)])
  all_goals (try rfl)
set_option maxHeartbeats 1000000 in
theorem in4_v69 : Vin4 m ρ c main_v69 = extractStridedSlice S3x4 ![3, 0] 𝔵18 slices_S9x4_S3x4_3_0 := by
  show StableHlo.after hostOps4 (W8 m ρ c) (Proc.devRef .tc main_v69) = _
  after_results_simp
  all_goals (try rw [w8_arg m ρ c main_arg18 (by decide) (by decide) (by decide) (by decide) (by decide) (by decide) (by decide) (by decide)])
  all_goals (try rfl)
set_option maxHeartbeats 1000000 in
theorem in4_v70 : Vin4 m ρ c main_v70 = extractStridedSlice S3x4 ![6, 0] 𝔵18 slices_S9x4_S3x4_6_0 := by
  show StableHlo.after hostOps4 (W8 m ρ c) (Proc.devRef .tc main_v70) = _
  after_results_simp
  all_goals (try rw [w8_arg m ρ c main_arg18 (by decide) (by decide) (by decide) (by decide) (by decide) (by decide) (by decide) (by decide)])
  all_goals (try rfl)
set_option maxHeartbeats 1000000 in
theorem in4_v71 : Vin4 m ρ c main_v71 = shapeCast S1x4 𝔵19 shapeCasts_S4_S1x4 := by
  show StableHlo.after hostOps4 (W8 m ρ c) (Proc.devRef .tc main_v71) = _
  after_results_simp
  all_goals (try rw [w8_arg m ρ c main_arg19 (by decide) (by decide) (by decide) (by decide) (by decide) (by decide) (by decide) (by decide)])
  all_goals (try rfl)
set_option maxHeartbeats 1000000 in
theorem in4_v72 : Vin4 m ρ c main_v72 = shapeCast S1x1 𝔵25 shapeCasts_S1_S1x1 := by
  show StableHlo.after hostOps4 (W8 m ρ c) (Proc.devRef .tc main_v72) = _
  after_results_simp
  all_goals (try rw [w8_arg m ρ c main_arg25 (by decide) (by decide) (by decide) (by decide) (by decide) (by decide) (by decide) (by decide)])
  all_goals (try rfl)
theorem w6_v48_0' : W8 m ρ c main_v48_0 = val_main_v66 (F := Ideal) 𝔵0 𝔵1 𝔵2 𝔵5 𝔵6 𝔵7 𝔵14 𝔵15 𝔵16 𝔵17 𝔵20 𝔵21 := ((W8_of m ρ c main_v48_0 (by decide)).trans <| (W7_of m ρ c main_v48_0 (by decide))).trans (w6_v48_0 m ρ c)
theorem in4_v48_0 : Vin4 m ρ c main_v48_0 = val_main_v66 (F := Ideal) 𝔵0 𝔵1 𝔵2 𝔵5 𝔵6 𝔵7 𝔵14 𝔵15 𝔵16 𝔵17 𝔵20 𝔵21 := (W9_of m ρ c main_v48_0 (by decide)).trans (w6_v48_0' m ρ c)
theorem in4_arg24 : Vin4 m ρ c main_arg24 = 𝔵24 := (W9_of m ρ c main_arg24 (by decide)).trans (w8_arg m ρ c main_arg24 (by decide) (by decide) (by decide) (by decide) (by decide) (by decide) (by decide) (by decide))

theorem w10_v73_0 : W10 m ρ c main_v73_0 = val_main_v109 (F := Ideal) 𝔵0 𝔵1 𝔵2 𝔵5 𝔵6 𝔵7 𝔵8 𝔵9 𝔵10 𝔵14 𝔵15 𝔵16 𝔵17 𝔵18 𝔵19 𝔵20 𝔵21 𝔵22 𝔵23 := by
  refine (W10_arr m ρ c 9).trans ((final4_9 (Vin4 m ρ) c).trans ?_)
  rw [in4_v60, in4_v67, in4_v48_0]
  exact Cert.ReferenceIdeal.Layers.feat3 𝔵0 𝔵1 𝔵2 𝔵5 𝔵6 𝔵7 𝔵8 𝔵9 𝔵10 𝔵14 𝔵15 𝔵16 𝔵17 𝔵18 𝔵19 𝔵20 𝔵21 𝔵22 𝔵23 _ _ _ _
    (fun k j => by rw [in4_v68]; exact rows_apply 0 𝔵18 _ k j _ (by simp))
    (fun k j => by rw [in4_v69]; exact rows_apply 3 𝔵18 _ k j _ rfl)
    (fun k j => by rw [in4_v70]; exact rows_apply 6 𝔵18 _ k j _ rfl)
    (fun j => by rw [in4_v71]; exact row_of_vec_apply 𝔵19 _ j)
theorem w10_v73_1 : W10 m ρ c main_v73_1 = val_main_v123 (F := Ideal) 𝔵0 𝔵1 𝔵2 𝔵5 𝔵6 𝔵7 𝔵8 𝔵9 𝔵10 𝔵14 𝔵15 𝔵16 𝔵17 𝔵18 𝔵19 𝔵20 𝔵21 𝔵22 𝔵23 𝔵24 𝔵25 := by
  refine (W10_arr m ρ c 10).trans ((final4_10 (Vin4 m ρ) c).trans ?_)
  have hf := (final4_9 (Vin4 m ρ) c).symm.trans ((W10_arr m ρ c 9).symm.trans (w10_v73_0 m ρ c))
  rw [hf, in4_v60, in4_arg24]
  exact Cert.ReferenceIdeal.Layers.msg3 𝔵0 𝔵1 𝔵2 𝔵5 𝔵6 𝔵7 𝔵8 𝔵9 𝔵10 𝔵14 𝔵15 𝔵16 𝔵17 𝔵18 𝔵19 𝔵20 𝔵21 𝔵22 𝔵23 𝔵24 𝔵25 _ (by rw [in4_v72]; exact row_of_vec_apply 𝔵25 _ 0)

theorem w10_v3 : W10 m ρ c main_v3 = val_main_v3 (F := Ideal) 𝔵1 := ((W10_of m ρ c main_v3 (by decide)).trans <| (W9_of m ρ c main_v3 (by decide))).trans (w8_v3 m ρ c)
theorem w10_v1 : W10 m ρ c main_v1 = val_main_v1 (F := Ideal) 𝔵1 := ((W10_of m ρ c main_v1 (by decide)).trans <| (W9_of m ρ c main_v1 (by decide))).trans (w8_v1 m ρ c)
theorem w10_v53 : W10 m ρ c main_v53 = val_main_v90 (F := Ideal) 𝔵0 𝔵1 𝔵2 𝔵5 𝔵6 𝔵7 𝔵8 𝔵9 𝔵10 𝔵14 𝔵15 𝔵16 𝔵17 𝔵20 𝔵21 𝔵22 𝔵23 := ((W10_of m ρ c main_v53 (by decide)).trans <| (W9_of m ρ c main_v53 (by decide))).trans (w8_v53 m ρ c)
theorem w10_arg (r : Ref sig .tc) (h10 : r ∉ ([main_v73_0, main_v73_1] : List (Ref sig .tc))) (h9 : r ∉ hostOps4_W) (h8 : r ∉ ([main_v53] : List (Ref sig .tc))) (h7 : r ∉ hostOps3_W) (h6 : r ∉ ([main_v48_0, main_v48_1] : List (Ref sig .tc))) (h5 : r ∉ hostOps2_W) (h4 : r ∉ ([main_v28] : List (Ref sig .tc))) (h3 : r ∉ hostOps1_W) (h2 : r ∉ ([main_v23_0, main_v23_1] : List (Ref sig .tc))) (h1 : r ∉ hostOps0_W) :
    W10 m ρ c r = W0 m ρ c r := (W10_of m ρ c r h10).trans ((W9_of m ρ c r h9).trans (w8_arg m ρ c r h8 h7 h6 h5 h4 h3 h2 h1))

set_option maxHeartbeats 1000000 in
theorem in5_v76 : Vin5 m ρ c main_v76 = val_main_v126 (F := Ideal) 𝔵0 𝔵1 𝔵2 𝔵5 𝔵6 𝔵7 𝔵8 𝔵9 𝔵10 𝔵14 𝔵15 𝔵16 𝔵17 𝔵18 𝔵19 𝔵20 𝔵21 𝔵22 𝔵23 𝔵24 𝔵25 := by
  show StableHlo.after hostOps5 (W10 m ρ c) (Proc.devRef .tc main_v76) = _
  after_results_simp
  all_goals (try rw [w10_v3, w10_v73_1])
  all_goals (try rfl)
set_option maxHeartbeats 1000000 in
theorem in5_v77 : Vin5 m ρ c main_v77 = shapeCast S1x5 𝔵12 shapeCasts_S5_S1x5 := by
  show StableHlo.after hostOps5 (W10 m ρ c) (Proc.devRef .tc main_v77) = _
  after_results_simp
  all_goals (try rw [w10_arg m ρ c main_arg12 (by decide) (by decide) (by decide) (by decide) (by decide) (by decide) (by decide) (by decide) (by decide) (by decide)])
  all_goals (try rfl)
theorem in5_v53 : Vin5 m ρ c main_v53 = val_main_v90 (F := Ideal) 𝔵0 𝔵1 𝔵2 𝔵5 𝔵6 𝔵7 𝔵8 𝔵9 𝔵10 𝔵14 𝔵15 𝔵16 𝔵17 𝔵20 𝔵21 𝔵22 𝔵23 := (W11_of m ρ c main_v53 (by decide)).trans (w10_v53 m ρ c)
theorem in5_arg (r : Ref sig .tc) (h11 : r ∉ hostOps5_W) (h10 : r ∉ ([main_v73_0, main_v73_1] : List (Ref sig .tc))) (h9 : r ∉ hostOps4_W) (h8 : r ∉ ([main_v53] : List (Ref sig .tc))) (h7 : r ∉ hostOps3_W) (h6 : r ∉ ([main_v48_0, main_v48_1] : List (Ref sig .tc))) (h5 : r ∉ hostOps2_W) (h4 : r ∉ ([main_v28] : List (Ref sig .tc))) (h3 : r ∉ hostOps1_W) (h2 : r ∉ ([main_v23_0, main_v23_1] : List (Ref sig .tc))) (h1 : r ∉ hostOps0_W) :
    Vin5 m ρ c r = W0 m ρ c r := (W11_of m ρ c r h11).trans (w10_arg m ρ c r h10 h9 h8 h7 h6 h5 h4 h3 h2 h1)

theorem w12_v78 : W12 m ρ c main_v78 = val_main_v133 (F := Ideal) 𝔵0 𝔵1 𝔵2 𝔵5 𝔵6 𝔵7 𝔵8 𝔵9 𝔵10 𝔵11 𝔵12 𝔵13 𝔵14 𝔵15 𝔵16 𝔵17 𝔵18 𝔵19 𝔵20 𝔵21 𝔵22 𝔵23 𝔵24 𝔵25 := by
  refine (W12_arr m ρ c 5).trans ((final5_5 (Vin5 m ρ) c).trans ?_)
  rw [in5_v76, in5_v53, in5_arg m ρ c main_arg11 (by decide) (by decide) (by decide) (by decide) (by decide) (by decide) (by decide) (by decide) (by decide) (by decide) (by decide),
    in5_arg m ρ c main_arg13 (by decide) (by decide) (by decide) (by decide) (by decide) (by decide) (by decide) (by decide) (by decide) (by decide) (by decide)]
  exact Cert.ReferenceIdeal.Layers.node3 𝔵0 𝔵1 𝔵2 𝔵5 𝔵6 𝔵7 𝔵8 𝔵9 𝔵10 𝔵11 𝔵12 𝔵13 𝔵14 𝔵15 𝔵16 𝔵17 𝔵18 𝔵19 𝔵20 𝔵21 𝔵22 𝔵23 𝔵24 𝔵25 _ (fun j => by rw [in5_v77]; exact row_of_vec_apply 𝔵12 _ j)

theorem w12_v1 : W12 m ρ c main_v1 = val_main_v1 (F := Ideal) 𝔵1 := ((W12_of m ρ c main_v1 (by decide)).trans <| (W11_of m ρ c main_v1 (by decide))).trans (w10_v1 m ρ c)
theorem w12_v28 : W12 m ρ c main_v28 = val_main_v46 (F := Ideal) 𝔵0 𝔵1 𝔵2 𝔵5 𝔵6 𝔵7 𝔵14 𝔵15 𝔵20 𝔵21 := ((W12_of m ρ c main_v28 (by decide)).trans <| (W11_of m ρ c main_v28 (by decide)).trans <| (W10_of m ρ c main_v28 (by decide)).trans <| (W9_of m ρ c main_v28 (by decide)).trans <| (W8_of m ρ c main_v28 (by decide)).trans <| (W7_of m ρ c main_v28 (by decide))).trans (w6_v28 m ρ c)
theorem w12_v53 : W12 m ρ c main_v53 = val_main_v90 (F := Ideal) 𝔵0 𝔵1 𝔵2 𝔵5 𝔵6 𝔵7 𝔵8 𝔵9 𝔵10 𝔵14 𝔵15 𝔵16 𝔵17 𝔵20 𝔵21 𝔵22 𝔵23 := ((W12_of m ρ c main_v53 (by decide)).trans <| (W11_of m ρ c main_v53 (by decide))).trans (w10_v53 m ρ c)
theorem w12_v23_0 : W12 m ρ c main_v23_0 = val_main_v23 (F := Ideal) 𝔵0 𝔵1 𝔵2 𝔵14 𝔵15 := ((W12_of m ρ c main_v23_0 (by decide)).trans <| (W11_of m ρ c main_v23_0 (by decide)).trans <| (W10_of m ρ c main_v23_0 (by decide)).trans <| (W9_of m ρ c main_v23_0 (by decide)).trans <| (W8_of m ρ c main_v23_0 (by decide)).trans <| (W7_of m ρ c main_v23_0 (by decide)).trans <| (W6_of m ρ c main_v23_0 (by decide)).trans <| (W5_of m ρ c main_v23_0 (by decide)).trans <| (W4_of m ρ c main_v23_0 (by decide)).trans <| (W3_of m ρ c main_v23_0 (by decide))).trans (w2_v23_0 m ρ c)
theorem w12_v48_0 : W12 m ρ c main_v48_0 = val_main_v66 (F := Ideal) 𝔵0 𝔵1 𝔵2 𝔵5 𝔵6 𝔵7 𝔵14 𝔵15 𝔵16 𝔵17 𝔵20 𝔵21 := ((W12_of m ρ c main_v48_0 (by decide)).trans <| (W11_of m ρ c main_v48_0 (by decide)).trans <| (W10_of m ρ c main_v48_0 (by decide)).trans <| (W9_of m ρ c main_v48_0 (by decide)).trans <| (W8_of m ρ c main_v48_0 (by decide)).trans <| (W7_of m ρ c main_v48_0 (by decide))).trans (w6_v48_0 m ρ c)
theorem w12_v73_0 : W12 m ρ c main_v73_0 = val_main_v109 (F := Ideal) 𝔵0 𝔵1 𝔵2 𝔵5 𝔵6 𝔵7 𝔵8 𝔵9 𝔵10 𝔵14 𝔵15 𝔵16 𝔵17 𝔵18 𝔵19 𝔵20 𝔵21 𝔵22 𝔵23 := ((W12_of m ρ c main_v73_0 (by decide)).trans <| (W11_of m ρ c main_v73_0 (by decide))).trans (w10_v73_0 m ρ c)
theorem w12_arg0 : W12 m ρ c main_arg0 = 𝔵0 := (W12_of m ρ c main_arg0 (by decide)).trans (in5_arg m ρ c main_arg0 (by decide) (by decide) (by decide) (by decide) (by decide) (by decide) (by decide) (by decide) (by decide) (by decide) (by decide))
theorem w12_arg2 : W12 m ρ c main_arg2 = 𝔵2 := (W12_of m ρ c main_arg2 (by decide)).trans (in5_arg m ρ c main_arg2 (by decide) (by decide) (by decide) (by decide) (by decide) (by decide) (by decide) (by decide) (by decide) (by decide) (by decide))
theorem w12_arg3 : W12 m ρ c main_arg3 = 𝔵3 := (W12_of m ρ c main_arg3 (by decide)).trans (in5_arg m ρ c main_arg3 (by decide) (by decide) (by decide) (by decide) (by decide) (by decide) (by decide) (by decide) (by decide) (by decide) (by decide))
theorem w12_arg4 : W12 m ρ c main_arg4 = 𝔵4 := (W12_of m ρ c main_arg4 (by decide)).trans (in5_arg m ρ c main_arg4 (by decide) (by decide) (by decide) (by decide) (by decide) (by decide) (by decide) (by decide) (by decide) (by decide) (by decide))
theorem w12_arg26 : W12 m ρ c main_arg26 = 𝔵26 := (W12_of m ρ c main_arg26 (by decide)).trans (in5_arg m ρ c main_arg26 (by decide) (by decide) (by decide) (by decide) (by decide) (by decide) (by decide) (by decide) (by decide) (by decide) (by decide))
theorem w12_arg27 : W12 m ρ c main_arg27 = 𝔵27 := (W12_of m ρ c main_arg27 (by decide)).trans (in5_arg m ρ c main_arg27 (by decide) (by decide) (by decide) (by decide) (by decide) (by decide) (by decide) (by decide) (by decide) (by decide) (by decide))

theorem result_eq : W14 m ρ c main_v115 = val_main_v170 (F := Ideal) 𝔵0 𝔵1 𝔵2 𝔵3 𝔵4 𝔵5 𝔵6 𝔵7 𝔵8 𝔵9 𝔵10 𝔵11 𝔵12 𝔵13 𝔵14 𝔵15 𝔵16 𝔵17 𝔵18 𝔵19 𝔵20 𝔵21 𝔵22 𝔵23 𝔵24 𝔵25 𝔵26 𝔵27 :=
  tail_eq (W12 m ρ c) 𝔵0 𝔵1 𝔵2 𝔵3 𝔵4 𝔵5 𝔵6 𝔵7 𝔵8 𝔵9 𝔵10 𝔵11 𝔵12 𝔵13 𝔵14 𝔵15 𝔵16 𝔵17 𝔵18 𝔵19 𝔵20 𝔵21 𝔵22 𝔵23 𝔵24 𝔵25 𝔵26 𝔵27
    (w12_arg0 m ρ c) (w12_arg2 m ρ c) (w12_arg3 m ρ c) (w12_arg4 m ρ c) (w12_arg26 m ρ c) (w12_arg27 m ρ c) (w12_v1 m ρ c)
    (w12_v28 m ρ c) (w12_v53 m ρ c) (w12_v78 m ρ c) (w12_v23_0 m ρ c) (w12_v48_0 m ρ c) (w12_v73_0 m ρ c)

end Cert.KernelIdeal.Run

end
-- ==== Proof.lean ====
import proofs.«423123_j317827579936_1_alg».proof.Defs
import proofs.«423123_j317827579936_1_alg».proof.Proof.Gen.Kernel
import proofs.«423123_j317827579936_1_alg».proof.Proof.Gen.KernelIdeal
import proofs.«423123_j317827579936_1_alg».proof.Proof.Gen.ReferenceIdeal
import proofs.«423123_j317827579936_1_alg».proof.Proof.Gen.Pre_finite_inputs
import proofs.«423123_j317827579936_1_alg».proof.Proof.K.Run
import proofs.«423123_j317827579936_1_alg».proof.Proof.KI.Run
import proofs.«423123_j317827579936_1_alg».proof.Proof.KI.Value
import proofs.«423123_j317827579936_1_alg».proof.Proof.RefRun
import Idealize.ShloMosaic.Adequacy
import Idealize.ShloMosaic.Init

set_option maxRecDepth 16384

noncomputable section

namespace Cert.Proof

open Idealize.ShloMosaic Idealize.SL.Sem

theorem frame_kernel : @Cert.frame_Kernel Cert.Kernel.Gen.facts Cert.Pre_finite_inputs.Gen.facts := fun m ρ _ =>
  (θ_run Cert.Kernel.defs _ _).mono (fun _ h c => (h c).2) (Cert.Kernel.Run.run (F := Bits) m ρ)

theorem frame_kernelIdeal : @Cert.frame_KernelIdeal Cert.KernelIdeal.Gen.facts Cert.Pre_finite_inputs.Gen.facts := fun m ρ _ =>
  (θ_run Cert.KernelIdeal.defs _ _).mono (fun _ h c => (h c).2) (Cert.KernelIdeal.Run.run (F := Ideal) m ρ)

theorem frame_referenceIdeal : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefRun.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Run.W14 (F := Ideal) m ρ c (Proc.devRef .tc Cert.KernelIdeal.main_v115), Cert.KernelIdeal.Run.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17, h18, h19, h20, h21, h22, h23, h24, h25, h26, h27⟩ := hagree c
  rw [h0, h1, h2, h3, h4, h5, h6, h7, h8, h9, h10, h11, h12, h13, h14, h15, h16, h17, h18, h19, h20, h21, h22, h23, h24, h25, h26, h27]
  exact (Cert.KernelIdeal.Run.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
